-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v34)) (v1 : (c : Dev Cert.KernelIdeal.nD) → Buf (Elt Ideal) ((c.tc : Thread Cert.KernelIdeal.nD Cert.KernelIdeal.τ).loc Cert.KernelIdeal.main_v53)) (v2 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_v53) = v1 c
          ∧ r.2.mem ((c.tc : Thread Cert.KernelIdeal.nD Cert.KernelIdeal.τ).loc Cert.KernelIdeal.main_v72) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v101) = v1 c
          ∧ r.2.mem ((c.tc : Thread Cert.ReferenceIdeal.nD Cert.ReferenceIdeal.τ).loc Cert.ReferenceIdeal.main_v139) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x4x256x256 : Shape := ⟨4, ![128, 4, 256, 256]⟩
abbrev S128x4 : Shape := ⟨2, ![128, 4]⟩
abbrev S128x1x256x256 : Shape := ⟨4, ![128, 1, 256, 256]⟩
abbrev S_ : Shape := ⟨0, ![]⟩

class Facts : Prop where
  bcast_S_S128x4x256x256 : S_.BroadcastsInDim S128x4x256x256 (![] : Fin 0 → Fin S128x4x256x256.rank)
  reducesTo_S128x4x256x256_S_d0_1_2_3 : S128x4x256x256.ReducesTo [0, 1, 2, 3] S_
  h_S_ : 0 < S_.numel
  bcast_S_S128x4 : S_.BroadcastsInDim S128x4 (![] : Fin 0 → Fin S128x4.rank)
  reducesTo_S128x4_S_d0_1 : S128x4.ReducesTo [0, 1] S_
  bcast_S_S128x1x256x256 : S_.BroadcastsInDim S128x1x256x256 (![] : Fin 0 → Fin S128x1x256x256.rank)
  reducesTo_S128x1x256x256_S_d0_1_2_3 : S128x1x256x256.ReducesTo [0, 1, 2, 3] S_

variable [Facts]

def fn {F : FTy → Type} [FloatOps F] (main_arg0 : FVec F S128x4x256x256 .f32) (main_arg1 : FVec F S128x4 .f32) (main_arg2 : FVec F S128x1x256x256 .f32) : IVec S_ 1 :=
  let main_v0 : FVec F S128x4x256x256 .f32 := Host.absf main_arg0
  let main_cst : FVec F S_ .f32 := constant S_ .f32 0x7F800000#32
  let main_v1 : FVec F S128x4x256x256 .f32 := broadcastInDim S128x4x256x256 ![] bcast_S_S128x4x256x256 main_cst
  let main_v2 : IVec S128x4x256x256 1 := cmpf .olt main_v0 main_v1
  let main_c : IVec S_ 1 := constantI S_ 1 1#1
  let main_v3 : IVec S_ 1 := (fun x v => Host.reduce IntOp.andi x v reducesTo_S128x4x256x256_S_d0_1_2_3 h_S_) main_v2 main_c
  let main_v4 : FVec F S128x4 .f32 := Host.absf main_arg1
  let main_cst_0 : FVec F S_ .f32 := constant S_ .f32 0x7F800000#32
  let main_v5 : FVec F S128x4 .f32 := broadcastInDim S128x4 ![] bcast_S_S128x4 main_cst_0
  let main_v6 : IVec S128x4 1 := cmpf .olt main_v4 main_v5
  let main_c_1 : IVec S_ 1 := constantI S_ 1 1#1
  let main_v7 : IVec S_ 1 := (fun x v => Host.reduce IntOp.andi x v reducesTo_S128x4_S_d0_1 h_S_) main_v6 main_c_1
  let main_v8 : IVec S_ 1 := andi main_v3 main_v7
  let main_v9 : FVec F S128x1x256x256 .f32 := Host.absf main_arg2
  let main_cst_2 : FVec F S_ .f32 := constant S_ .f32 0x7F800000#32
  let main_v10 : FVec F S128x1x256x256 .f32 := broadcastInDim S128x1x256x256 ![] bcast_S_S128x1x256x256 main_cst_2
  let main_v11 : IVec S128x1x256x256 1 := cmpf .olt main_v9 main_v10
  let main_c_3 : IVec S_ 1 := constantI S_ 1 1#1
  let main_v12 : IVec S_ 1 := (fun x v => Host.reduce IntOp.andi x v reducesTo_S128x1x256x256_S_d0_1_2_3 h_S_) main_v11 main_c_3
  let main_v13 : IVec S_ 1 := andi main_v8 main_v12
  main_v13
-- ==== Kernel.lean ====
abbrev S128x4x256x256 : Shape := ⟨4, ![128, 4, 256, 256]⟩
abbrev S128x4 : Shape := ⟨2, ![128, 4]⟩
abbrev S128x1x256x256 : Shape := ⟨4, ![128, 1, 256, 256]⟩
abbrev S4 : Shape := ⟨1, ![4]⟩
abbrev S128x1 : Shape := ⟨2, ![128, 1]⟩
abbrev S32x4x32x256 : Shape := ⟨4, ![32, 4, 32, 256]⟩
abbrev S32x1x32x256 : Shape := ⟨4, ![32, 1, 32, 256]⟩
abbrev S32x4 : Shape := ⟨2, ![32, 4]⟩
abbrev S32x1 : Shape := ⟨2, ![32, 1]⟩
abbrev S32x4x32 : Shape := ⟨3, ![32, 4, 32]⟩
abbrev S32x1x32 : Shape := ⟨3, ![32, 1, 32]⟩
abbrev S128 : Shape := ⟨1, ![128]⟩
abbrev S_ : Shape := ⟨0, ![]⟩
abbrev S1x4 : Shape := ⟨2, ![1, 4]⟩

abbrev nBuf : Space → Nat
  | .hbm => 121
  | .vmem => 20
  | .smem => 0
  | _ => 0

abbrev bufTy : (tb : Table) → Fin (tcTables nBuf tb) → BufTy
  | .hbm, ⟨0, _⟩ => ⟨S128x4x256x256, .f32⟩
  | .hbm, ⟨1, _⟩ => ⟨S128x4, .f32⟩
  | .hbm, ⟨2, _⟩ => ⟨S128x1x256x256, .f32⟩
  | .hbm, ⟨3, _⟩ => ⟨S4, .f32⟩
  | .hbm, ⟨4, _⟩ => ⟨S4, .f32⟩
  | .hbm, ⟨5, _⟩ => ⟨S128x4, .f32⟩
  | .hbm, ⟨6, _⟩ => ⟨S128x4, .f32⟩
  | .hbm, ⟨7, _⟩ => ⟨S128x4, .f32⟩
  | .hbm, ⟨8, _⟩ => ⟨S128x1, .f32⟩
  | .hbm, ⟨9, _⟩ => ⟨S128, .f32⟩
  | .hbm, ⟨10, _⟩ => ⟨S_, .f32⟩
  | .hbm, ⟨11, _⟩ => ⟨S128, .f32⟩
  | .hbm, ⟨12, _⟩ => ⟨S128, .f32⟩
  | .hbm, ⟨13, _⟩ => ⟨S128x1, .f32⟩
  | .hbm, ⟨14, _⟩ => ⟨S1x4, .f32⟩
  | .hbm, ⟨15, _⟩ => ⟨S128x4, .f32⟩
  | .hbm, ⟨16, _⟩ => ⟨S128x4, .f32⟩
  | .hbm, ⟨17, _⟩ => ⟨S128x4, .i1⟩
  | .hbm, ⟨18, _⟩ => ⟨S128x1, .f32⟩
  | .hbm, ⟨19, _⟩ => ⟨S1x4, .f32⟩
  | .hbm, ⟨20, _⟩ => ⟨S128x4, .f32⟩
  | .hbm, ⟨21, _⟩ => ⟨S128x4, .f32⟩
  | .hbm, ⟨22, _⟩ => ⟨S128x4, .i1⟩
  | .hbm, ⟨23, _⟩ => ⟨S128x4, .i1⟩
  | .hbm, ⟨24, _⟩ => ⟨S128x4, .f32⟩
  | .hbm, ⟨25, _⟩ => ⟨S_, .f32⟩
  | .hbm, ⟨26, _⟩ => ⟨S128, .f32⟩
  | .hbm, ⟨27, _⟩ => ⟨S128x4, .f32⟩
  | .hbm, ⟨28, _⟩ => ⟨S_, .f32⟩
  | .hbm, ⟨29, _⟩ => ⟨S128, .f32⟩
  | .hbm, ⟨30, _⟩ => ⟨S_, .f32⟩
  | .hbm, ⟨31, _⟩ => ⟨S128, .f32⟩
  | .hbm, ⟨32, _⟩ => ⟨S128, .f32⟩
  | .hbm, ⟨33, _⟩ => ⟨S128, .f32⟩
  | .hbm, ⟨34, _⟩ => ⟨S_, .f32⟩
  | .hbm, ⟨35, _⟩ => ⟨S128, .f32⟩
  | .hbm, ⟨36, _⟩ => ⟨S128, .i1⟩
  | .hbm, ⟨37, _⟩ => ⟨S_, .f32⟩
  | .hbm, ⟨38, _⟩ => ⟨S_, .f32⟩
  | .hbm, ⟨39, _⟩ => ⟨S128, .f32⟩
  | .hbm, ⟨40, _⟩ => ⟨S128, .f32⟩
  | .hbm, ⟨41, _⟩ => ⟨S_, .f32⟩
  | .hbm, ⟨42, _⟩ => ⟨S128, .f32⟩
  | .hbm, ⟨43, _⟩ => ⟨S128, .i1⟩
  | .hbm, ⟨44, _⟩ => ⟨S128, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .i1⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S128, .f32⟩
  | .hbm, ⟨59, _⟩ => ⟨S128x4, .f32⟩
  | .hbm, ⟨60, _⟩ => ⟨S_, .f32⟩
  | .hbm, ⟨61, _⟩ => ⟨S128, .f32⟩
  | .hbm, ⟨62, _⟩ => ⟨S_, .f32⟩
  | .hbm, ⟨63, _⟩ => ⟨S128, .f32⟩
  | .hbm, ⟨64, _⟩ => ⟨S128, .f32⟩
  | .hbm, ⟨65, _⟩ => ⟨S128, .f32⟩
  | .hbm, ⟨66, _⟩ => ⟨S_, .f32⟩
  | .hbm, ⟨67, _⟩ => ⟨S128, .f32⟩
  | .hbm, ⟨68, _⟩ => ⟨S128, .i1⟩
  | .hbm, ⟨69, _⟩ => ⟨S_, .f32⟩
  | .hbm, ⟨70, _⟩ => ⟨S_, .f32⟩
  | .hbm, ⟨71, _⟩ => ⟨S128, .f32⟩
  | .hbm, ⟨72, _⟩ => ⟨S128, .f32⟩
  | .hbm, ⟨73, _⟩ => ⟨S_, .f32⟩
  | .hbm, ⟨74, _⟩ => ⟨S128, .f32⟩
  | .hbm, ⟨75, _⟩ => ⟨S128, .i1⟩
  | .hbm, ⟨76, _⟩ => ⟨S128, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .i1⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S128, .f32⟩
  | .hbm, ⟨91, _⟩ => ⟨S128x4, .f32⟩
  | .hbm, ⟨92, _⟩ => ⟨S_, .f32⟩
  | .hbm, ⟨93, _⟩ => ⟨S128, .f32⟩
  | .hbm, ⟨94, _⟩ => ⟨S_, .f32⟩
  | .hbm, ⟨95, _⟩ => ⟨S128, .f32⟩
  | .hbm, ⟨96, _⟩ => ⟨S128, .f32⟩
  | .hbm, ⟨97, _⟩ => ⟨S128, .f32⟩
  | .hbm, ⟨98, _⟩ => ⟨S_, .f32⟩
  | .hbm, ⟨99, _⟩ => ⟨S128, .f32⟩
  | .hbm, ⟨100, _⟩ => ⟨S128, .i1⟩
  | .hbm, ⟨101, _⟩ => ⟨S_, .f32⟩
  | .hbm, ⟨102, _⟩ => ⟨S_, .f32⟩
  | .hbm, ⟨103, _⟩ => ⟨S128, .f32⟩
  | .hbm, ⟨104, _⟩ => ⟨S128, .f32⟩
  | .hbm, ⟨105, _⟩ => ⟨S_, .f32⟩
  | .hbm, ⟨106, _⟩ => ⟨S128, .f32⟩
  | .hbm, ⟨107, _⟩ => ⟨S128, .i1⟩
  | .hbm, ⟨108, _⟩ => ⟨S128, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .i1⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .local _ .vmem, ⟨0, _⟩ => ⟨S32x4x32x256, .f32⟩
  | .local _ .vmem, ⟨1, _⟩ => ⟨S32x4x32x256, .f32⟩
  | .local _ .vmem, ⟨2, _⟩ => ⟨S32x1x32x256, .f32⟩
  | .local _ .vmem, ⟨3, _⟩ => ⟨S32x1x32x256, .f32⟩
  | .local _ .vmem, ⟨4, _⟩ => ⟨S32x4, .f32⟩
  | .local _ .vmem, ⟨5, _⟩ => ⟨S32x4, .f32⟩
  | .local _ .vmem, ⟨6, _⟩ => ⟨S32x4, .f32⟩
  | .local _ .vmem, ⟨7, _⟩ => ⟨S32x4, .f32⟩
  | .local _ .vmem, ⟨8, _⟩ => ⟨S32x4, .f32⟩
  | .local _ .vmem, ⟨9, _⟩ => ⟨S32x4, .f32⟩
  | .local _ .vmem, ⟨10, _⟩ => ⟨S32x4, .f32⟩
  | .local _ .vmem, ⟨11, _⟩ => ⟨S32x4, .f32⟩
  | .local _ .vmem, ⟨12, _⟩ => ⟨S32x1, .f32⟩
  | .local _ .vmem, ⟨13, _⟩ => ⟨S32x1, .f32⟩
  | .local _ .vmem, ⟨14, _⟩ => ⟨S32x4, .f32⟩
  | .local _ .vmem, ⟨15, _⟩ => ⟨S32x4, .f32⟩
  | .local _ .vmem, ⟨16, _⟩ => ⟨S32x4, .f32⟩
  | .local _ .vmem, ⟨17, _⟩ => ⟨S32x4, .f32⟩
  | .local _ .vmem, ⟨18, _⟩ => ⟨S32x4, .f32⟩
  | .local _ .vmem, ⟨19, _⟩ => ⟨S32x1, .f32⟩
  | _, _ => ⟨S128x4x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1 : Ref sig .tc := ⟨.hbm, 9, rfl⟩
abbrev main_cst_1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_call0_v0 : Ref sig .tc := ⟨.hbm, 38, rfl⟩
abbrev main_call0_v1 : Ref sig .tc := ⟨.hbm, 39, rfl⟩
abbrev main_v24 : Ref sig .tc := ⟨.hbm, 40, rfl⟩
abbrev main_cst_7 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_8 : Ref sig .tc := ⟨.hbm, 45, rfl⟩
abbrev main_v28 : Ref sig .tc := ⟨.hbm, 46, rfl⟩
abbrev main_cst_9 : Ref sig .tc := ⟨.hbm, 47, rfl⟩
abbrev main_v29 : Ref sig .tc := ⟨.hbm, 48, rfl⟩
abbrev main_cst_10 : Ref sig .tc := ⟨.hbm, 49, rfl⟩
abbrev main_v30 : Ref sig .tc := ⟨.hbm, 50, rfl⟩
abbrev main_cst_11 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_12 : Ref sig .tc := ⟨.hbm, 55, rfl⟩
abbrev main_v34 : Ref sig .tc := ⟨.hbm, 56, rfl⟩
abbrev main_cst_13 : Ref sig .tc := ⟨.hbm, 57, rfl⟩
abbrev main_v35 : Ref sig .tc := ⟨.hbm, 58, rfl⟩
abbrev main_v36 : Ref sig .tc := ⟨.hbm, 59, rfl⟩
abbrev main_cst_14 : Ref sig .tc := ⟨.hbm, 60, rfl⟩
abbrev main_v37 : Ref sig .tc := ⟨.hbm, 61, rfl⟩
abbrev main_cst_15 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_16 : Ref sig .tc := ⟨.hbm, 66, rfl⟩
abbrev main_v41 : Ref sig .tc := ⟨.hbm, 67, rfl⟩
abbrev main_v42 : Ref sig .tc := ⟨.hbm, 68, rfl⟩
abbrev main_cst_17 : Ref sig .tc := ⟨.hbm, 69, rfl⟩
abbrev main_call2_v0 : Ref sig .tc := ⟨.hbm, 70, rfl⟩
abbrev main_call2_v1 : Ref sig .tc := ⟨.hbm, 71, rfl⟩
abbrev main_v43 : Ref sig .tc := ⟨.hbm, 72, rfl⟩
abbrev main_cst_18 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_19 : Ref sig .tc := ⟨.hbm, 77, rfl⟩
abbrev main_v47 : Ref sig .tc := ⟨.hbm, 78, rfl⟩
abbrev main_cst_20 : Ref sig .tc := ⟨.hbm, 79, rfl⟩
abbrev main_v48 : Ref sig .tc := ⟨.hbm, 80, rfl⟩
abbrev main_cst_21 : Ref sig .tc := ⟨.hbm, 81, rfl⟩
abbrev main_v49 : Ref sig .tc := ⟨.hbm, 82, rfl⟩
abbrev main_cst_22 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_cst_23 : Ref sig .tc := ⟨.hbm, 87, rfl⟩
abbrev main_v53 : Ref sig .tc := ⟨.hbm, 88, rfl⟩
abbrev main_cst_24 : Ref sig .tc := ⟨.hbm, 89, rfl⟩
abbrev main_v54 : Ref sig .tc := ⟨.hbm, 90, rfl⟩
abbrev main_v55 : Ref sig .tc := ⟨.hbm, 91, rfl⟩
abbrev main_cst_25 : Ref sig .tc := ⟨.hbm, 92, rfl⟩
abbrev main_v56 : Ref sig .tc := ⟨.hbm, 93, rfl⟩
abbrev main_cst_26 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_cst_27 : Ref sig .tc := ⟨.hbm, 98, rfl⟩
abbrev main_v60 : Ref sig .tc := ⟨.hbm, 99, rfl⟩
abbrev main_v61 : Ref sig .tc := ⟨.hbm, 100, rfl⟩
abbrev main_cst_28 : Ref sig .tc := ⟨.hbm, 101, rfl⟩
abbrev main_call4_v0 : Ref sig .tc := ⟨.hbm, 102, rfl⟩
abbrev main_call4_v1 : Ref sig .tc := ⟨.hbm, 103, rfl⟩
abbrev main_v62 : Ref sig .tc := ⟨.hbm, 104, rfl⟩
abbrev main_cst_29 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_cst_30 : Ref sig .tc := ⟨.hbm, 109, rfl⟩
abbrev main_v66 : Ref sig .tc := ⟨.hbm, 110, rfl⟩
abbrev main_cst_31 : Ref sig .tc := ⟨.hbm, 111, rfl⟩
abbrev main_v67 : Ref sig .tc := ⟨.hbm, 112, rfl⟩
abbrev main_cst_32 : Ref sig .tc := ⟨.hbm, 113, rfl⟩
abbrev main_v68 : Ref sig .tc := ⟨.hbm, 114, rfl⟩
abbrev main_cst_33 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_cst_34 : Ref sig .tc := ⟨.hbm, 119, rfl⟩
abbrev main_v72 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v79 : BitVec 1 := Scalar.cmpi .eq arg1 c7_i32
  let v80 : BitVec 32 := Scalar.extui v79
  let c0_i32_51 : BitVec 32 := 0#32
  let v81 : BitVec 1 := Scalar.cmpi .ne v80 c0_i32_51
  v81

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S32x4x32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x1x32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S32x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S32x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S32x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S32x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  inb_S32x4_S32x4_0_0 : ∀ a, (![0, 0] : Fin 2 → Nat) a + S32x4.size a ≤ S32x4.size a
  h_S32x4 : 0 < S32x4.numel
  shapeCasts_S32x4_S32x4 : S32x4.ShapeCasts S32x4
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S32x4x32x256_S32x4x32x256_0_0_0_0 : ∀ a, (![0, 0, 0, 0] : Fin 4 → Nat) a + S32x4x32x256.size a ≤ S32x4x32x256.size a
  h_S32x4x32x256 : 0 < S32x4x32x256.numel
  inb_S32x1x32x256_S32x1x32x256_0_0_0_0 : ∀ a, (![0, 0, 0, 0] : Fin 4 → Nat) a + S32x1x32x256.size a ≤ S32x1x32x256.size a
  h_S32x1x32x256 : 0 < S32x1x32x256.numel
  shapeCasts_S32x1x32x256_S32x1x32x256 : S32x1x32x256.ShapeCasts S32x1x32x256
  broadcasts_S32x1x32x256_S32x4x32x256 : S32x1x32x256.Broadcasts S32x4x32x256
  reduces_S32x4x32x256_S32x4x32 : S32x4x32x256.Reduces [3] S32x4x32
  reduces_S32x4x32_S32x4 : S32x4x32.Reduces [2] S32x4
  natLt_1_32 : 1 < 32
  reduces_S32x1x32x256_S32x1x32 : S32x1x32x256.Reduces [3] S32x1x32
  reduces_S32x1x32_S32x1 : S32x1x32.Reduces [2] S32x1
  broadcasts_S32x1_S32x4 : S32x1.Broadcasts S32x4
  shapeCasts_S128x1_S128 : S128x1.ShapeCasts S128
  bcast_S_S128 : S_.BroadcastsInDim S128 (![] : Fin 0 → Fin S128.rank)
  bcast_S128_S128x1_0 : S128.BroadcastsInDim S128x1 (![0] : Fin 1 → Fin S128x1.rank)
  bcast_S4_S1x4_1 : S4.BroadcastsInDim S1x4 (![1] : Fin 1 → Fin S1x4.rank)
  bcast_S128x1_S128x4_0_1 : S128x1.BroadcastsInDim S128x4 (![0, 1] : Fin 2 → Fin S128x4.rank)
  bcast_S1x4_S128x4_0_1 : S1x4.BroadcastsInDim S128x4 (![0, 1] : Fin 2 → Fin S128x4.rank)
  reducesTo_S128x4_S128_d1 : S128x4.ReducesTo [1] S128
  h_S_ : 0 < S_.numel
  reducesTo_S128_S_d0 : S128.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x4x32x256.size a ≤ S128x4x256x256.size a
  hwx0_0 : ∀ i : grid0.Coords, EltTy.bits .f32 = 32 ∨ (Rect.block (s := S128x4x256x256) S32x4x32x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x1x32x256.size a ≤ S128x1x256x256.size a
  hwx0_1 : ∀ i : grid0.Coords, EltTy.bits .f32 = 32 ∨ (Rect.block (s := S128x1x256x256) S32x1x32x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x4.size a ≤ S128x4.size a
  hwx0_2 : ∀ i : grid0.Coords, EltTy.bits .f32 = 32 ∨ (Rect.block (s := S128x4) S32x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x4.size a ≤ S128x4.size a
  hwx0_3 : ∀ i : grid0.Coords, EltTy.bits .f32 = 32 ∨ (Rect.block (s := S128x4) S32x4.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x4.size a ≤ S128x4.size a
  hwx0_4 : ∀ i : grid0.Coords, EltTy.bits .f32 = 32 ∨ (Rect.block (s := S128x4) S32x4.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x4.size a ≤ S128x4.size a
  hwx0_5 : ∀ i : grid0.Coords, EltTy.bits .f32 = 32 ∨ (Rect.block (s := S128x4) S32x4.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S32x1.size a ≤ S128x1.size a
  hwx0_6 : ∀ i : grid0.Coords, EltTy.bits .f32 = 32 ∨ (Rect.block (s := S128x1) S32x1.size (cc0_transform_6 i) (hinb0_6 i)).WholeWords (EltTy.packing .f32)

variable [Facts₀]

abbrev win0_0 : Pipeline.Window sig grid0 :=
  Pipeline.Window.ofSpec (Memref.whole main_arg0) S32x4x32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S32x1x32x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S32x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S32x4.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S32x4.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S32x4.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_3) S32x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun i => !(k0_cond2 i == 1#1) | 4 => fun i => !(k0_cond2 i == 1#1) | 5 => fun i => !(k0_cond2 i == 1#1) | 6 => fun i => !(k0_cond2 i == 1#1) | ⟨_ + 7, h⟩ => absurd h (Nat.not_lt.2 (Nat.le_add_left _ _))

class Facts : Prop extends Facts₀ where

variable [Facts]
-- ==== ReferenceIdeal.lean ====
abbrev S128x4x256x256 : Shape := ⟨4, ![128, 4, 256, 256]⟩
abbrev S128x4 : Shape := ⟨2, ![128, 4]⟩
abbrev S128x1x256x256 : Shape := ⟨4, ![128, 1, 256, 256]⟩
abbrev S4 : Shape := ⟨1, ![4]⟩
abbrev S128x4x65536 : Shape := ⟨3, ![128, 4, 65536]⟩
abbrev S128x65536 : Shape := ⟨2, ![128, 65536]⟩
abbrev S_ : Shape := ⟨0, ![]⟩
abbrev S128 : Shape := ⟨1, ![128]⟩
abbrev S128x1 : Shape := ⟨2, ![128, 1]⟩
abbrev S1x4 : Shape := ⟨2, ![1, 4]⟩
abbrev S128x1x65536 : Shape := ⟨3, ![128, 1, 65536]⟩

abbrev nBuf : Space → Nat
  | .hbm => 214
  | .vmem => 0
  | .smem => 0
  | _ => 0

abbrev hbmTy0_0 (i : Nat) : BufTy := match i % 128 with
  | 0 => ⟨S128x4x256x256, .f32⟩
  | 1 => ⟨S128x4, .f32⟩
  | 2 => ⟨S128x1x256x256, .f32⟩
  | 3 => ⟨S4, .f32⟩
  | 4 => ⟨S4, .f32⟩
  | 5 => ⟨S128x4x65536, .f32⟩
  | 6 => ⟨S128x65536, .f32⟩
  | 7 => ⟨S_, .f32⟩
  | 8 => ⟨S128, .f32⟩
  | 9 => ⟨S_, .f32⟩
  | 10 => ⟨S128, .f32⟩
  | 11 => ⟨S128, .f32⟩
  | 12 => ⟨S128x1, .f32⟩
  | 13 => ⟨S1x4, .f32⟩
  | 14 => ⟨S128x4, .f32⟩
  | 15 => ⟨S128x4, .f32⟩
  | 16 => ⟨S128x4, .i1⟩
  | 17 => ⟨S128x1, .f32⟩
  | 18 => ⟨S1x4, .f32⟩
  | 19 => ⟨S128x4, .f32⟩
  | 20 => ⟨S128x4, .f32⟩
  | 21 => ⟨S128x4, .i1⟩
  | 22 => ⟨S128x4, .i1⟩
  | 23 => ⟨S128x4, .f32⟩
  | 24 => ⟨S128x1x65536, .f32⟩
  | 25 => ⟨S_, .f32⟩
  | 26 => ⟨S128x4x65536, .f32⟩
  | 27 => ⟨S128x4x65536, .f32⟩
  | 28 => ⟨S128x4x65536, .f32⟩
  | 29 => ⟨S128x4x65536, .f32⟩
  | 30 => ⟨S128x4x65536, .f32⟩
  | 31 => ⟨S128x4x65536, .f32⟩
  | 32 => ⟨S128x4x65536, .f32⟩
  | 33 => ⟨S128x4x65536, .f32⟩
  | 34 => ⟨S128x4x65536, .f32⟩
  | 35 => ⟨S128x4x65536, .f32⟩
  | 36 => ⟨S128x4x65536, .f32⟩
  | 37 => ⟨S128x4x65536, .f32⟩
  | 38 => ⟨S_, .f32⟩
  | 39 => ⟨S128x4x65536, .f32⟩
  | 40 => ⟨S128x4x65536, .f32⟩
  | 41 => ⟨S_, .f32⟩
  | 42 => ⟨S128x4x65536, .f32⟩
  | 43 => ⟨S128x4x65536, .f32⟩
  | 44 => ⟨S_, .f32⟩
  | 45 => ⟨S128x4x65536, .f32⟩
  | 46 => ⟨S128x4x65536, .f32⟩
  | 47 => ⟨S128x4x65536, .f32⟩
  | 48 => ⟨S_, .f32⟩
  | 49 => ⟨S128x4, .f32⟩
  | 50 => ⟨S_, .f32⟩
  | 51 => ⟨S128x4, .f32⟩
  | 52 => ⟨S128x4, .f32⟩
  | 53 => ⟨S_, .f32⟩
  | 54 => ⟨S128, .f32⟩
  | 55 => ⟨S128x4, .f32⟩
  | 56 => ⟨S_, .f32⟩
  | 57 => ⟨S128, .f32⟩
  | 58 => ⟨S_, .f32⟩
  | 59 => ⟨S128, .f32⟩
  | 60 => ⟨S128, .f32⟩
  | 61 => ⟨S128, .f32⟩
  | 62 => ⟨S_, .f32⟩
  | 63 => ⟨S128, .f32⟩
  | 64 => ⟨S128, .i1⟩
  | 65 => ⟨S_, .f32⟩
  | 66 => ⟨S_, .f32⟩
  | 67 => ⟨S128, .f32⟩
  | 68 => ⟨S128, .f32⟩
  | 69 => ⟨S_, .f32⟩
  | 70 => ⟨S128, .f32⟩
  | 71 => ⟨S128, .i1⟩
  | 72 => ⟨S128, .f32⟩
  | 73 => ⟨S_, .f32⟩
  | 74 => ⟨S_, .f32⟩
  | 75 => ⟨S_, .f32⟩
  | 76 => ⟨S_, .f32⟩
  | 77 => ⟨S_, .f32⟩
  | 78 => ⟨S_, .i1⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S128x4x65536, .f32⟩
  | 86 => ⟨S128x4x65536, .f32⟩
  | 87 => ⟨S_, .f32⟩
  | 88 => ⟨S128x4x65536, .f32⟩
  | 89 => ⟨S128x4x65536, .f32⟩
  | 90 => ⟨S_, .f32⟩
  | 91 => ⟨S128x4x65536, .f32⟩
  | 92 => ⟨S128x4x65536, .f32⟩
  | 93 => ⟨S_, .f32⟩
  | 94 => ⟨S_, .f32⟩
  | 95 => ⟨S_, .f32⟩
  | 96 => ⟨S128x4x65536, .f32⟩
  | 97 => ⟨S128x4x65536, .f32⟩
  | 98 => ⟨S_, .f32⟩
  | 99 => ⟨S128x4x65536, .f32⟩
  | 100 => ⟨S128x4x65536, .f32⟩
  | 101 => ⟨S128x4x65536, .f32⟩
  | 102 => ⟨S128x4x65536, .f32⟩
  | 103 => ⟨S_, .f32⟩
  | 104 => ⟨S128x4, .f32⟩
  | 105 => ⟨S_, .f32⟩
  | 106 => ⟨S128x4, .f32⟩
  | 107 => ⟨S128x4, .f32⟩
  | 108 => ⟨S_, .f32⟩
  | 109 => ⟨S128x4, .f32⟩
  | 110 => ⟨S128x4, .f32⟩
  | 111 => ⟨S_, .f32⟩
  | 112 => ⟨S128x4, .f32⟩
  | 113 => ⟨S_, .f32⟩
  | 114 => ⟨S128, .f32⟩
  | 115 => ⟨S128x1, .f32⟩
  | 116 => ⟨S128x4, .f32⟩
  | 117 => ⟨S128x4, .f32⟩
  | 118 => ⟨S_, .f32⟩
  | 119 => ⟨S128x4, .f32⟩
  | 120 => ⟨S128x4, .f32⟩
  | 121 => ⟨S128x4, .f32⟩
  | 122 => ⟨S_, .f32⟩
  | 123 => ⟨S128x4, .f32⟩
  | 124 => ⟨S128x4, .f32⟩
  | 125 => ⟨S_, .f32⟩
  | 126 => ⟨S128, .f32⟩
  | 127 => ⟨S128x4, .f32⟩
  | _ => ⟨S128x4x256x256, .f32⟩

abbrev hbmTy0_1 (i : Nat) : BufTy := match i % 128 with
  | 0 => ⟨S_, .f32⟩
  | 1 => ⟨S128, .f32⟩
  | 2 => ⟨S_, .f32⟩
  | 3 => ⟨S128, .f32⟩
  | 4 => ⟨S128, .f32⟩
  | 5 => ⟨S128, .f32⟩
  | 6 => ⟨S_, .f32⟩
  | 7 => ⟨S128, .f32⟩
  | 8 => ⟨S128, .i1⟩
  | 9 => ⟨S_, .f32⟩
  | 10 => ⟨S_, .f32⟩
  | 11 => ⟨S128, .f32⟩
  | 12 => ⟨S128, .f32⟩
  | 13 => ⟨S_, .f32⟩
  | 14 => ⟨S128, .f32⟩
  | 15 => ⟨S128, .i1⟩
  | 16 => ⟨S128, .f32⟩
  | 17 => ⟨S_, .f32⟩
  | 18 => ⟨S_, .f32⟩
  | 19 => ⟨S_, .f32⟩
  | 20 => ⟨S_, .f32⟩
  | 21 => ⟨S_, .f32⟩
  | 22 => ⟨S_, .i1⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S128x4x65536, .f32⟩
  | 31 => ⟨S128x4x65536, .i1⟩
  | 32 => ⟨S128x4x65536, .f32⟩
  | 33 => ⟨S128x4x65536, .f32⟩
  | 34 => ⟨S128x4x65536, .f32⟩
  | 35 => ⟨S_, .f32⟩
  | 36 => ⟨S128x4, .f32⟩
  | 37 => ⟨S_, .f32⟩
  | 38 => ⟨S128x4, .f32⟩
  | 39 => ⟨S128x4, .f32⟩
  | 40 => ⟨S_, .f32⟩
  | 41 => ⟨S128x4, .f32⟩
  | 42 => ⟨S_, .f32⟩
  | 43 => ⟨S128, .f32⟩
  | 44 => ⟨S128x1, .f32⟩
  | 45 => ⟨S128x4, .f32⟩
  | 46 => ⟨S128x4, .f32⟩
  | 47 => ⟨S128x4, .f32⟩
  | 48 => ⟨S_, .f32⟩
  | 49 => ⟨S128x4, .f32⟩
  | 50 => ⟨S128x4, .f32⟩
  | 51 => ⟨S128x4, .f32⟩
  | 52 => ⟨S128x4, .f32⟩
  | 53 => ⟨S128x4, .f32⟩
  | 54 => ⟨S_, .f32⟩
  | 55 => ⟨S128, .f32⟩
  | 56 => ⟨S128x4, .f32⟩
  | 57 => ⟨S_, .f32⟩
  | 58 => ⟨S128, .f32⟩
  | 59 => ⟨S_, .f32⟩
  | 60 => ⟨S128, .f32⟩
  | 61 => ⟨S128, .f32⟩
  | 62 => ⟨S128, .f32⟩
  | 63 => ⟨S_, .f32⟩
  | 64 => ⟨S128, .f32⟩
  | 65 => ⟨S128, .i1⟩
  | 66 => ⟨S_, .f32⟩
  | 67 => ⟨S_, .f32⟩
  | 68 => ⟨S128, .f32⟩
  | 69 => ⟨S128, .f32⟩
  | 70 => ⟨S_, .f32⟩
  | 71 => ⟨S128, .f32⟩
  | 72 => ⟨S128, .i1⟩
  | 73 => ⟨S128, .f32⟩
  | 74 => ⟨S_, .f32⟩
  | 75 => ⟨S_, .f32⟩
  | 76 => ⟨S_, .f32⟩
  | 77 => ⟨S_, .f32⟩
  | 78 => ⟨S_, .f32⟩
  | 79 => ⟨S_, .i1⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | _ => ⟨S128x4x256x256, .f32⟩

abbrev hbmTy (i : Nat) : BufTy := match i / 128 with
  | 0 => hbmTy0_0 i
  | 1 => hbmTy0_1 i
  | _ => ⟨S128x4x256x256, .f32⟩

abbrev bufTy : (tb : Table) → Fin (tcTables nBuf tb) → BufTy
  | .hbm, ⟨i, _⟩ => hbmTy i
  | _, _ => ⟨S128x4x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_cst_2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_4 : Ref sig .tc := ⟨.hbm, 38, rfl⟩
abbrev main_v30 : Ref sig .tc := ⟨.hbm, 39, rfl⟩
abbrev main_v31 : Ref sig .tc := ⟨.hbm, 40, rfl⟩
abbrev main_cst_5 : Ref sig .tc := ⟨.hbm, 41, rfl⟩
abbrev main_v32 : Ref sig .tc := ⟨.hbm, 42, rfl⟩
abbrev main_v33 : Ref sig .tc := ⟨.hbm, 43, rfl⟩
abbrev main_cst_6 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_7 : Ref sig .tc := ⟨.hbm, 48, rfl⟩
abbrev main_v37 : Ref sig .tc := ⟨.hbm, 49, rfl⟩
abbrev main_cst_8 : Ref sig .tc := ⟨.hbm, 50, rfl⟩
abbrev main_v38 : Ref sig .tc := ⟨.hbm, 51, rfl⟩
abbrev main_v39 : Ref sig .tc := ⟨.hbm, 52, rfl⟩
abbrev main_cst_9 : Ref sig .tc := ⟨.hbm, 53, rfl⟩
abbrev main_v40 : Ref sig .tc := ⟨.hbm, 54, rfl⟩
abbrev main_v41 : Ref sig .tc := ⟨.hbm, 55, rfl⟩
abbrev main_cst_10 : Ref sig .tc := ⟨.hbm, 56, rfl⟩
abbrev main_v42 : Ref sig .tc := ⟨.hbm, 57, rfl⟩
abbrev main_cst_11 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_12 : Ref sig .tc := ⟨.hbm, 62, rfl⟩
abbrev main_v46 : Ref sig .tc := ⟨.hbm, 63, rfl⟩
abbrev main_v47 : Ref sig .tc := ⟨.hbm, 64, rfl⟩
abbrev main_cst_13 : Ref sig .tc := ⟨.hbm, 65, rfl⟩
abbrev main_call0_v0 : Ref sig .tc := ⟨.hbm, 66, rfl⟩
abbrev main_call0_v1 : Ref sig .tc := ⟨.hbm, 67, rfl⟩
abbrev main_v48 : Ref sig .tc := ⟨.hbm, 68, rfl⟩
abbrev main_cst_14 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_15 : Ref sig .tc := ⟨.hbm, 73, rfl⟩
abbrev main_v52 : Ref sig .tc := ⟨.hbm, 74, rfl⟩
abbrev main_cst_16 : Ref sig .tc := ⟨.hbm, 75, rfl⟩
abbrev main_v53 : Ref sig .tc := ⟨.hbm, 76, rfl⟩
abbrev main_cst_17 : Ref sig .tc := ⟨.hbm, 77, rfl⟩
abbrev main_v54 : Ref sig .tc := ⟨.hbm, 78, rfl⟩
abbrev main_cst_18 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_19 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_20 : Ref sig .tc := ⟨.hbm, 87, rfl⟩
abbrev main_v61 : Ref sig .tc := ⟨.hbm, 88, rfl⟩
abbrev main_v62 : Ref sig .tc := ⟨.hbm, 89, rfl⟩
abbrev main_cst_21 : Ref sig .tc := ⟨.hbm, 90, rfl⟩
abbrev main_v63 : Ref sig .tc := ⟨.hbm, 91, rfl⟩
abbrev main_v64 : Ref sig .tc := ⟨.hbm, 92, rfl⟩
abbrev main_cst_22 : Ref sig .tc := ⟨.hbm, 93, rfl⟩
abbrev main_cst_23 : Ref sig .tc := ⟨.hbm, 94, rfl⟩
abbrev main_call2_v0 : Ref sig .tc := ⟨.hbm, 95, rfl⟩
abbrev main_call2_v1 : Ref sig .tc := ⟨.hbm, 96, rfl⟩
abbrev main_call2_v2 : Ref sig .tc := ⟨.hbm, 97, rfl⟩
abbrev main_call2_v3 : Ref sig .tc := ⟨.hbm, 98, rfl⟩
abbrev main_call2_v4 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_cst_24 : Ref sig .tc := ⟨.hbm, 103, rfl⟩
abbrev main_v68 : Ref sig .tc := ⟨.hbm, 104, rfl⟩
abbrev main_cst_25 : Ref sig .tc := ⟨.hbm, 105, rfl⟩
abbrev main_v69 : Ref sig .tc := ⟨.hbm, 106, rfl⟩
abbrev main_v70 : Ref sig .tc := ⟨.hbm, 107, rfl⟩
abbrev main_cst_26 : Ref sig .tc := ⟨.hbm, 108, rfl⟩
abbrev main_v71 : Ref sig .tc := ⟨.hbm, 109, rfl⟩
abbrev main_v72 : Ref sig .tc := ⟨.hbm, 110, rfl⟩
abbrev main_cst_27 : Ref sig .tc := ⟨.hbm, 111, rfl⟩
abbrev main_v73 : Ref sig .tc := ⟨.hbm, 112, rfl⟩
abbrev main_cst_28 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_cst_29 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_cst_30 : Ref sig .tc := ⟨.hbm, 122, rfl⟩
abbrev main_v81 : Ref sig .tc := ⟨.hbm, 123, rfl⟩
abbrev main_v82 : Ref sig .tc := ⟨.hbm, 124, rfl⟩
abbrev main_cst_31 : Ref sig .tc := ⟨.hbm, 125, rfl⟩
abbrev main_v83 : Ref sig .tc := ⟨.hbm, 126, rfl⟩
abbrev main_v84 : Ref sig .tc := ⟨.hbm, 127, rfl⟩
abbrev main_cst_32 : Ref sig .tc := ⟨.hbm, 128, rfl⟩
abbrev main_v85 : Ref sig .tc := ⟨.hbm, 129, rfl⟩
abbrev main_cst_33 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_cst_34 : Ref sig .tc := ⟨.hbm, 134, rfl⟩
abbrev main_v89 : Ref sig .tc := ⟨.hbm, 135, rfl⟩
abbrev main_v90 : Ref sig .tc := ⟨.hbm, 136, rfl⟩
abbrev main_cst_35 : Ref sig .tc := ⟨.hbm, 137, rfl⟩
abbrev main_call3_v0 : Ref sig .tc := ⟨.hbm, 138, rfl⟩
abbrev main_call3_v1 : Ref sig .tc := ⟨.hbm, 139, rfl⟩
abbrev main_v91 : Ref sig .tc := ⟨.hbm, 140, rfl⟩
abbrev main_cst_36 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_cst_37 : Ref sig .tc := ⟨.hbm, 145, rfl⟩
abbrev main_v95 : Ref sig .tc := ⟨.hbm, 146, rfl⟩
abbrev main_cst_38 : Ref sig .tc := ⟨.hbm, 147, rfl⟩
abbrev main_v96 : Ref sig .tc := ⟨.hbm, 148, rfl⟩
abbrev main_cst_39 : Ref sig .tc := ⟨.hbm, 149, rfl⟩
abbrev main_v97 : Ref sig .tc := ⟨.hbm, 150, rfl⟩
abbrev main_cst_40 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_cst_41 : Ref sig .tc := ⟨.hbm, 155, rfl⟩
abbrev main_v101 : Ref sig .tc := ⟨.hbm, 156, rfl⟩
abbrev main_cst_42 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_cst_43 : Ref sig .tc := ⟨.hbm, 163, rfl⟩
abbrev main_v107 : Ref sig .tc := ⟨.hbm, 164, rfl⟩
abbrev main_cst_44 : Ref sig .tc := ⟨.hbm, 165, rfl⟩
abbrev main_v108 : Ref sig .tc := ⟨.hbm, 166, rfl⟩
abbrev main_v109 : Ref sig .tc := ⟨.hbm, 167, rfl⟩
abbrev main_cst_45 : Ref sig .tc := ⟨.hbm, 168, rfl⟩
abbrev main_v110 : Ref sig .tc := ⟨.hbm, 169, rfl⟩
abbrev main_cst_46 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_cst_47 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_cst_48 : Ref sig .tc := ⟨.hbm, 182, rfl⟩
abbrev main_v121 : Ref sig .tc := ⟨.hbm, 183, rfl⟩
abbrev main_v122 : Ref sig .tc := ⟨.hbm, 184, rfl⟩
abbrev main_cst_49 : Ref sig .tc := ⟨.hbm, 185, rfl⟩
abbrev main_v123 : Ref sig .tc := ⟨.hbm, 186, rfl⟩
abbrev main_cst_50 : Ref sig .tc := ⟨.hbm, 187, rfl⟩
abbrev main_v124 : Ref sig .tc := ⟨.hbm, 188, rfl⟩
abbrev main_v125 : Ref sig .tc := ⟨.hbm, 189, rfl⟩
abbrev main_v126 : Ref sig .tc := ⟨.hbm, 190, rfl⟩
abbrev main_cst_51 : Ref sig .tc := ⟨.hbm, 191, rfl⟩
abbrev main_v127 : Ref sig .tc := ⟨.hbm, 192, rfl⟩
abbrev main_v128 : Ref sig .tc := ⟨.hbm, 193, rfl⟩
abbrev main_cst_52 : Ref sig .tc := ⟨.hbm, 194, rfl⟩
abbrev main_call5_v0 : Ref sig .tc := ⟨.hbm, 195, rfl⟩
abbrev main_call5_v1 : Ref sig .tc := ⟨.hbm, 196, rfl⟩
abbrev main_v129 : Ref sig .tc := ⟨.hbm, 197, rfl⟩
abbrev main_cst_53 : Ref sig .tc := ⟨.hbm, 198, rfl⟩
abbrev main_v130 : Ref sig .tc := ⟨.hbm, 199, rfl⟩
abbrev main_v131 : Ref sig .tc := ⟨.hbm, 200, rfl⟩
abbrev main_v132 : Ref sig .tc := ⟨.hbm, 201, rfl⟩
abbrev main_cst_54 : Ref sig .tc := ⟨.hbm, 202, rfl⟩
abbrev main_v133 : Ref sig .tc := ⟨.hbm, 203, rfl⟩
abbrev main_cst_55 : Ref sig .tc := ⟨.hbm, 204, rfl⟩
abbrev main_v134 : Ref sig .tc := ⟨.hbm, 205, rfl⟩
abbrev main_cst_56 : Ref sig .tc := ⟨.hbm, 206, rfl⟩
abbrev main_v135 : Ref sig .tc := ⟨.hbm, 207, rfl⟩
abbrev main_cst_57 : Ref sig .tc := ⟨.hbm, 208, rfl⟩
abbrev main_v136 : Ref sig .tc := ⟨.hbm, 209, rfl⟩
abbrev main_v137 : Ref sig .tc := ⟨.hbm, 210, rfl⟩
abbrev main_v138 : Ref sig .tc := ⟨.hbm, 211, rfl⟩
abbrev main_cst_58 : Ref sig .tc := ⟨.hbm, 212, rfl⟩
abbrev main_v139 : Ref sig .tc := ⟨.hbm, 213, rfl⟩

abbrev nD : Nat := 1
abbrev τ : Topo := Topo.v7x

variable {F : FTy → Type} [FloatOps F]

class Facts₀ : Prop where
  shapeCasts_S128x4x256x256_S128x4x65536 : S128x4x256x256.ShapeCasts S128x4x65536
  shapeCasts_S128x1x256x256_S128x65536 : S128x1x256x256.ShapeCasts S128x65536
  reducesTo_S128x65536_S128_d1 : S128x65536.ReducesTo [1] S128
  h_S_ : 0 < S_.numel
  bcast_S_S128 : S_.BroadcastsInDim S128 (![] : Fin 0 → Fin S128.rank)
  bcast_S128_S128x1_0 : S128.BroadcastsInDim S128x1 (![0] : Fin 1 → Fin S128x1.rank)
  bcast_S4_S1x4_1 : S4.BroadcastsInDim S1x4 (![1] : Fin 1 → Fin S1x4.rank)
  bcast_S128x1_S128x4_0_1 : S128x1.BroadcastsInDim S128x4 (![0, 1] : Fin 2 → Fin S128x4.rank)
  bcast_S1x4_S128x4_0_1 : S1x4.BroadcastsInDim S128x4 (![0, 1] : Fin 2 → Fin S128x4.rank)
  bcast_S128x65536_S128x1x65536_0_2 : S128x65536.BroadcastsInDim S128x1x65536 (![0, 2] : Fin 2 → Fin S128x1x65536.rank)
  bcast_S_S128x4x65536 : S_.BroadcastsInDim S128x4x65536 (![] : Fin 0 → Fin S128x4x65536.rank)
  bcast_S128x1x65536_S128x4x65536_0_1_2 : S128x1x65536.BroadcastsInDim S128x4x65536 (![0, 1, 2] : Fin 3 → Fin S128x4x65536.rank)
  reducesTo_S128x4x65536_S128x4_d2 : S128x4x65536.ReducesTo [2] S128x4
  bcast_S_S128x4 : S_.BroadcastsInDim S128x4 (![] : Fin 0 → Fin S128x4.rank)
  reducesTo_S128x4_S128_d1 : S128x4.ReducesTo [1] S128
  reducesTo_S128_S_d0 : S128.ReducesTo [0] S_

variable [Facts₀]

class Facts : Prop extends Facts₀ where

variable [Facts]
-- ==== Proof.K.Kit.lean ====
import proofs.«119910_j28707561407033_1_alg».proof.Proof.Gen.Kernel.Launch
import proofs.«119910_j28707561407033_1_alg».proof.Proof.Gen.Kernel.Skeleton
import proofs.«119910_j28707561407033_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev tailOps : List (List (HloOp τ sig (Elt F))) := [hostOps1, hostOps1_1, hostOps1_2, hostOps1_3, hostOps1_4, hostOps1_5, hostOps1_6, hostOps1_7, hostOps1_8, hostOps1_9, hostOps1_10, hostOps1_11, hostOps1_12]

abbrev V0 (c : Dev nD) : Valuation τ sig (Elt F) := StableHlo.after (List.flatten [hostOps0]) (fun b => m (c, b))

abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- What holds of every line of each stretch after the region holds of every later line. -/
theorem of_stretches {P : HloOp τ sig (Elt F) → Prop} (h0 : hostOps1.Forall P) (h1 : hostOps1_1.Forall P) (h2 : hostOps1_2.Forall P) (h3 : hostOps1_3.Forall P) (h4 : hostOps1_4.Forall P) (h5 : hostOps1_5.Forall P) (h6 : hostOps1_6.Forall P) (h7 : hostOps1_7.Forall P) (h8 : hostOps1_8.Forall P) (h9 : hostOps1_9.Forall P) (h10 : hostOps1_10.Forall P) (h11 : hostOps1_11.Forall P) (h12 : hostOps1_12.Forall P) :
    ∀ ops ∈ (tailOps : List (List (HloOp τ sig (Elt F)))), ∀ op ∈ ops, P op := by
  intro ops hops op hop
  simp only [List.mem_cons, List.mem_nil_iff, or_false] at hops
  rcases hops with rfl | rfl | rfl | rfl | rfl | rfl | rfl | rfl | rfl | rfl | rfl | rfl | rfl
  exacts [List.forall_iff_forall_mem.mp h0 op hop, List.forall_iff_forall_mem.mp h1 op hop, List.forall_iff_forall_mem.mp h2 op hop, List.forall_iff_forall_mem.mp h3 op hop, List.forall_iff_forall_mem.mp h4 op hop, List.forall_iff_forall_mem.mp h5 op hop, List.forall_iff_forall_mem.mp h6 op hop, List.forall_iff_forall_mem.mp h7 op hop, List.forall_iff_forall_mem.mp h8 op hop, List.forall_iff_forall_mem.mp h9 op hop, List.forall_iff_forall_mem.mp h10 op hop, List.forall_iff_forall_mem.mp h11 op hop, List.forall_iff_forall_mem.mp h12 op hop]

theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  exact fun ops ho op h => Pipeline.sub_ucRefs op (of_stretches hostOps1_sub hostOps1_1_sub hostOps1_2_sub hostOps1_3_sub hostOps1_4_sub hostOps1_5_sub hostOps1_6_sub hostOps1_7_sub hostOps1_8_sub hostOps1_9_sub hostOps1_10_sub hostOps1_11_sub hostOps1_12_sub ops ho op h)

/-- No line of a stretch allocates. -/
abbrev Fresh (ops : List (HloOp τ sig (Elt F))) : Prop := ops.Forall fun op => op.fresh = ∅
theorem fresh_0 : Fresh (F := F) hostOps1 := by
  simp only [Fresh, List.Forall]; repeat' constructor
theorem fresh_1 : Fresh (F := F) hostOps1_1 ∧ Fresh (F := F) hostOps1_2 ∧ Fresh (F := F) hostOps1_3 ∧ Fresh (F := F) hostOps1_4 := by
  simp only [Fresh, List.Forall]; repeat' constructor
theorem fresh_2 : Fresh (F := F) hostOps1_5 ∧ Fresh (F := F) hostOps1_6 ∧ Fresh (F := F) hostOps1_7 ∧ Fresh (F := F) hostOps1_8 := by
  simp only [Fresh, List.Forall]; repeat' constructor
theorem fresh_3 : Fresh (F := F) hostOps1_9 ∧ Fresh (F := F) hostOps1_10 ∧ Fresh (F := F) hostOps1_11 ∧ Fresh (F := F) hostOps1_12 := by
  simp only [Fresh, List.Forall]; repeat' constructor
theorem sfx_fresh : ∀ ops ∈ (tailOps : List (List (HloOp τ sig (Elt F)))), ∀ op ∈ ops, op.fresh = ∅ :=
  of_stretches fresh_0 fresh_1.1 fresh_1.2.1 fresh_1.2.2.1 fresh_1.2.2.2 fresh_2.1 fresh_2.2.1 fresh_2.2.2.1 fresh_2.2.2.2 fresh_3.1 fresh_3.2.1 fresh_3.2.2.1 fresh_3.2.2.2

/-- Each line of a stretch writes its own result buffer only, which is none of the region's seven arrays. -/
abbrev Keeps (ops : List (HloOp τ sig (Elt F))) : Prop := ops.Forall fun op => ∀ w, Proc.devRef .tc (Pipeline.arrRef spec0 w) ∉ op.writes
theorem keeps_0 : Keeps (F := F) hostOps1 := by
  simp only [Keeps, List.Forall]
  repeat' constructor
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem keeps_1 : Keeps (F := F) hostOps1_1 ∧ Keeps (F := F) hostOps1_2 ∧ Keeps (F := F) hostOps1_3 ∧ Keeps (F := F) hostOps1_4 := by
  simp only [Keeps, List.Forall]
  repeat' constructor
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem keeps_2 : Keeps (F := F) hostOps1_5 ∧ Keeps (F := F) hostOps1_6 ∧ Keeps (F := F) hostOps1_7 ∧ Keeps (F := F) hostOps1_8 := by
  simp only [Keeps, List.Forall]
  repeat' constructor
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem keeps_3 : Keeps (F := F) hostOps1_9 ∧ Keeps (F := F) hostOps1_10 ∧ Keeps (F := F) hostOps1_11 ∧ Keeps (F := F) hostOps1_12 := by
  simp only [Keeps, List.Forall]
  repeat' constructor
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem sfx_keeps : ∀ ops ∈ (tailOps : List (List (HloOp τ sig (Elt F)))), ∀ op ∈ ops,
    ∀ w, Proc.devRef .tc (Pipeline.arrRef spec0 w) ∉ op.writes :=
  of_stretches keeps_0 keeps_1.1 keeps_1.2.1 keeps_1.2.2.1 keeps_1.2.2.2 keeps_2.1 keeps_2.2.1 keeps_2.2.2.1 keeps_2.2.2.2 keeps_3.1 keeps_3.2.1 keeps_3.2.2.1 keeps_3.2.2.2

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats 0 c).arrAt_in 0 rfl _).trans ((hA c 0).trans (V_main_arg0 m c))),
    ((h c).1 2).trans (((dats 0 c).arrAt_in 2 rfl _).trans ((hA c 2).trans (V_main_arg1 m c))),
    ((h c).1 1).trans (((dats 0 c).arrAt_in 1 rfl _).trans ((hA c 1).trans (V_main_arg2 m c)))⟩) h

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

theorem liveIn0 : ∀ (t : Fin cfg0.N) (w : Fin cfg0.W), w.val < 3 → cfg0.idle w (grid0.coords t) = false := by decide +kernel
theorem idleOut0 : ∀ (t : Fin cfg0.N) (w : Fin cfg0.W), 3 ≤ w.val → ¬cond0_1 (grid0.coords t) →
    cfg0.idle w (grid0.coords t) = true ∧ (cfg0.win w).flush t = false := by decide +kernel
theorem liveOut0 : ∀ (t : Fin cfg0.N) (w : Fin cfg0.W), 3 ≤ w.val → cond0_1 (grid0.coords t) → cfg0.idle w (grid0.coords t) = false := by decide +kernel

abbrev VO0_3 : View sig .tc .vmem S32x4 .f32 := (Memref.whole cc0_stg3_0 : Memref sig .tc .vmem S32x4 .f32).view
abbrev VO0_4 : View sig .tc .vmem S32x4 .f32 := (Memref.whole cc0_stg4_0 : Memref sig .tc .vmem S32x4 .f32).view
abbrev VO0_5 : View sig .tc .vmem S32x4 .f32 := (Memref.whole cc0_stg5_0 : Memref sig .tc .vmem S32x4 .f32).view
abbrev VO0_6 : View sig .tc .vmem S32x1 .f32 := (Memref.whole cc0_stg6_0 : Memref sig .tc .vmem S32x1 .f32).view
abbrev ms0_0 (t : Fin cfg0.N) : Memref sig .tc .vmem S32x4x32x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32x1x32x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S32x4 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x4 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S32x4 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S32x4 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S32x1 .f32 := win0_6.stage (cfg0.slots t 6)
abbrev hs0_6 (t : Fin cfg0.N) : (ms0_6 t).IsWhole := hstage0_6 ((cfg0.slots t 6).cast nbuf0_6)
abbrev scM0_0 : Memref sig .tc .vmem S32x4 .f32 := Memref.whole cc0_scratch0
abbrev VS0_0 : View sig .tc .vmem S32x4 .f32 := scM0_0.view
abbrev scM0_1 : Memref sig .tc .vmem S32x4 .f32 := Memref.whole cc0_scratch1
abbrev VS0_1 : View sig .tc .vmem S32x4 .f32 := scM0_1.view
abbrev scM0_2 : Memref sig .tc .vmem S32x4 .f32 := Memref.whole cc0_scratch2
abbrev VS0_2 : View sig .tc .vmem S32x4 .f32 := scM0_2.view
abbrev scM0_3 : Memref sig .tc .vmem S32x4 .f32 := Memref.whole cc0_scratch3
abbrev VS0_3 : View sig .tc .vmem S32x4 .f32 := scM0_3.view
abbrev scM0_4 : Memref sig .tc .vmem S32x4 .f32 := Memref.whole cc0_scratch4
abbrev VS0_4 : View sig .tc .vmem S32x4 .f32 := scM0_4.view
abbrev scM0_5 : Memref sig .tc .vmem S32x1 .f32 := Memref.whole cc0_scratch5
abbrev VS0_5 : View sig .tc .vmem S32x1 .f32 := scM0_5.view

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.Kernel.Fr

end
-- ==== Proof.K.RunA.lean ====
import proofs.«119910_j28707561407033_1_alg».proof.Proof.K.Kit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the first point of a grid row: inputs and result buffers come back as handed, each accumulator at the pieces stored into it. -/
noncomputable def kernelRun0_A (c : Dev nD) (i : grid0.Coords) (arg2 : Memref sig .tc .vmem S32x4x32x256 .f32) (harg2 : arg2.IsWhole) (arg3 : Memref sig .tc .vmem S32x1x32x256 .f32) (harg3 : arg3.IsWhole) (arg4 : Memref sig .tc .vmem S32x4 .f32) (harg4 : arg4.IsWhole) (arg5 : Memref sig .tc .vmem S32x4 .f32) (harg5 : arg5.IsWhole) (arg6 : Memref sig .tc .vmem S32x4 .f32) (harg6 : arg6.IsWhole) (arg7 : Memref sig .tc .vmem S32x4 .f32) (harg7 : arg7.IsWhole) (arg8 : Memref sig .tc .vmem S32x1 .f32) (harg8 : arg8.IsWhole) (arg9 : Memref sig .tc .vmem S32x4 .f32) (harg9 : arg9.IsWhole) (arg10 : Memref sig .tc .vmem S32x4 .f32) (harg10 : arg10.IsWhole) (arg11 : Memref sig .tc .vmem S32x4 .f32) (harg11 : arg11.IsWhole) (arg12 : Memref sig .tc .vmem S32x4 .f32) (harg12 : arg12.IsWhole) (arg13 : Memref sig .tc .vmem S32x4 .f32) (harg13 : arg13.IsWhole) (arg14 : Memref sig .tc .vmem S32x1 .f32) (harg14 : arg14.IsWhole) (hc0 : cond0_0 i) (hc1 : ¬cond0_1 i)
    (x0 : Vec F S32x4x32x256 .f32) (x1 : Vec F S32x1x32x256 .f32) (x2 : Vec F S32x4 .f32) :
    Σ' (LS0 : List (View.Piece (Elt F) S32x4 .f32)) (LS1 : List (View.Piece (Elt F) S32x4 .f32)) (LS2 : List (View.Piece (Elt F) S32x4 .f32)) (LS3 : List (View.Piece (Elt F) S32x4 .f32)) (LS4 : List (View.Piece (Elt F) S32x4 .f32)), { LS5 : List (View.Piece (Elt F) S32x1 .f32) //
      ∀ (xi3 : Vec F S32x4 .f32) (xi4 : Vec F S32x4 .f32) (xi5 : Vec F S32x4 .f32) (xi6 : Vec F S32x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xi5 ∗ owns (c : Thread nD τ) arg8 fullShare xi6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3) ∗ (∃ f, arg13.view.loc (c : Thread nD τ) ↦[arg13.view.set]{fullShare} arg13.view.writes (Elt F) f LS4) ∗ (∃ f, arg14.view.loc (c : Thread nD τ) ↦[arg14.view.set]{fullShare} arg14.view.writes (Elt F) f LS5)) -∗ K ⟨⟩))
          ⊢ wp frame (wpE (defs₀ (F := F)) Variants.none c none) E (cc0__loss_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, fun xi3 xi4 xi5 xi6 E K => ?run⟩
  case run =>
    simp only [cc0__loss_kernel_eq_skeleton]; unfold cc0__loss_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.Kernel.Fr

end
-- ==== Proof.K.RunB.lean ====
import proofs.«119910_j28707561407033_1_alg».proof.Proof.K.Kit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a middle point of a grid row: inputs and result buffers come back as handed, each accumulator at the pieces stored into it. -/
noncomputable def kernelRun0_B (c : Dev nD) (i : grid0.Coords) (arg2 : Memref sig .tc .vmem S32x4x32x256 .f32) (harg2 : arg2.IsWhole) (arg3 : Memref sig .tc .vmem S32x1x32x256 .f32) (harg3 : arg3.IsWhole) (arg4 : Memref sig .tc .vmem S32x4 .f32) (harg4 : arg4.IsWhole) (arg5 : Memref sig .tc .vmem S32x4 .f32) (harg5 : arg5.IsWhole) (arg6 : Memref sig .tc .vmem S32x4 .f32) (harg6 : arg6.IsWhole) (arg7 : Memref sig .tc .vmem S32x4 .f32) (harg7 : arg7.IsWhole) (arg8 : Memref sig .tc .vmem S32x1 .f32) (harg8 : arg8.IsWhole) (arg9 : Memref sig .tc .vmem S32x4 .f32) (harg9 : arg9.IsWhole) (arg10 : Memref sig .tc .vmem S32x4 .f32) (harg10 : arg10.IsWhole) (arg11 : Memref sig .tc .vmem S32x4 .f32) (harg11 : arg11.IsWhole) (arg12 : Memref sig .tc .vmem S32x4 .f32) (harg12 : arg12.IsWhole) (arg13 : Memref sig .tc .vmem S32x4 .f32) (harg13 : arg13.IsWhole) (arg14 : Memref sig .tc .vmem S32x1 .f32) (harg14 : arg14.IsWhole) (hc0 : ¬cond0_0 i) (hc1 : ¬cond0_1 i)
    (x0 : Vec F S32x4x32x256 .f32) (x1 : Vec F S32x1x32x256 .f32) (x2 : Vec F S32x4 .f32) (xs0 : Vec F S32x4 .f32) (xs1 : Vec F S32x4 .f32) (xs2 : Vec F S32x4 .f32) (xs3 : Vec F S32x4 .f32) (xs4 : Vec F S32x4 .f32) (xs5 : Vec F S32x1 .f32) :
    Σ' (LS0 : List (View.Piece (Elt F) S32x4 .f32)) (LS1 : List (View.Piece (Elt F) S32x4 .f32)) (LS2 : List (View.Piece (Elt F) S32x4 .f32)) (LS3 : List (View.Piece (Elt F) S32x4 .f32)) (LS4 : List (View.Piece (Elt F) S32x4 .f32)), { LS5 : List (View.Piece (Elt F) S32x1 .f32) //
      ∀ (xi3 : Vec F S32x4 .f32) (xi4 : Vec F S32x4 .f32) (xi5 : Vec F S32x4 .f32) (xi6 : Vec F S32x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xi5 ∗ owns (c : Thread nD τ) arg8 fullShare xi6 ∗ owns (c : Thread nD τ) arg9 fullShare xs0 ∗ owns (c : Thread nD τ) arg10 fullShare xs1 ∗ owns (c : Thread nD τ) arg11 fullShare xs2 ∗ owns (c : Thread nD τ) arg12 fullShare xs3 ∗ owns (c : Thread nD τ) arg13 fullShare xs4 ∗ owns (c : Thread nD τ) arg14 fullShare xs5
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3) ∗ (∃ f, arg13.view.loc (c : Thread nD τ) ↦[arg13.view.set]{fullShare} arg13.view.writes (Elt F) f LS4) ∗ (∃ f, arg14.view.loc (c : Thread nD τ) ↦[arg14.view.set]{fullShare} arg14.view.writes (Elt F) f LS5)) -∗ K ⟨⟩))
          ⊢ wp frame (wpE (defs₀ (F := F)) Variants.none c none) E (cc0__loss_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, fun xi3 xi4 xi5 xi6 E K => ?run⟩
  case run =>
    simp only [cc0__loss_kernel_eq_skeleton]; unfold cc0__loss_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1; obtain rfl := harg11.eq_unread hfs2; obtain rfl := harg12.eq_unread hfs3; obtain rfl := harg13.eq_unread hfs4; obtain rfl := harg14.eq_unread hfs5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.Kernel.Fr

end
-- ==== Proof.K.RunC.lean ====
import proofs.«119910_j28707561407033_1_alg».proof.Proof.K.Kit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the last point of a grid row: besides the accumulators, the four result buffers are left at the pieces stored into them. -/
noncomputable def kernelRun0_C (c : Dev nD) (i : grid0.Coords) (arg2 : Memref sig .tc .vmem S32x4x32x256 .f32) (harg2 : arg2.IsWhole) (arg3 : Memref sig .tc .vmem S32x1x32x256 .f32) (harg3 : arg3.IsWhole) (arg4 : Memref sig .tc .vmem S32x4 .f32) (harg4 : arg4.IsWhole) (arg5 : Memref sig .tc .vmem S32x4 .f32) (harg5 : arg5.IsWhole) (arg6 : Memref sig .tc .vmem S32x4 .f32) (harg6 : arg6.IsWhole) (arg7 : Memref sig .tc .vmem S32x4 .f32) (harg7 : arg7.IsWhole) (arg8 : Memref sig .tc .vmem S32x1 .f32) (harg8 : arg8.IsWhole) (arg9 : Memref sig .tc .vmem S32x4 .f32) (harg9 : arg9.IsWhole) (arg10 : Memref sig .tc .vmem S32x4 .f32) (harg10 : arg10.IsWhole) (arg11 : Memref sig .tc .vmem S32x4 .f32) (harg11 : arg11.IsWhole) (arg12 : Memref sig .tc .vmem S32x4 .f32) (harg12 : arg12.IsWhole) (arg13 : Memref sig .tc .vmem S32x4 .f32) (harg13 : arg13.IsWhole) (arg14 : Memref sig .tc .vmem S32x1 .f32) (harg14 : arg14.IsWhole) (hc0 : ¬cond0_0 i) (hc1 : cond0_1 i)
    (x0 : Vec F S32x4x32x256 .f32) (x1 : Vec F S32x1x32x256 .f32) (x2 : Vec F S32x4 .f32) (xs0 : Vec F S32x4 .f32) (xs1 : Vec F S32x4 .f32) (xs2 : Vec F S32x4 .f32) (xs3 : Vec F S32x4 .f32) (xs4 : Vec F S32x4 .f32) (xs5 : Vec F S32x1 .f32) :
    Σ' (L3 : List (View.Piece (Elt F) S32x4 .f32)) (L4 : List (View.Piece (Elt F) S32x4 .f32)) (L5 : List (View.Piece (Elt F) S32x4 .f32)) (L6 : List (View.Piece (Elt F) S32x1 .f32)) (LS0 : List (View.Piece (Elt F) S32x4 .f32)) (LS1 : List (View.Piece (Elt F) S32x4 .f32)) (LS2 : List (View.Piece (Elt F) S32x4 .f32)) (LS3 : List (View.Piece (Elt F) S32x4 .f32)) (LS4 : List (View.Piece (Elt F) S32x4 .f32)), { LS5 : List (View.Piece (Elt F) S32x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1 ∗ owns (c : Thread nD τ) arg11 fullShare xs2 ∗ owns (c : Thread nD τ) arg12 fullShare xs3 ∗ owns (c : Thread nD τ) arg13 fullShare xs4 ∗ owns (c : Thread nD τ) arg14 fullShare xs5
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3) ∗ (∃ f, arg13.view.loc (c : Thread nD τ) ↦[arg13.view.set]{fullShare} arg13.view.writes (Elt F) f LS4) ∗ (∃ f, arg14.view.loc (c : Thread nD τ) ↦[arg14.view.set]{fullShare} arg14.view.writes (Elt F) f LS5)) -∗ K ⟨⟩))
          ⊢ wp frame (wpE (defs₀ (F := F)) Variants.none c none) E (cc0__loss_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, ?_, ?_, ?_, ?_, fun E K => ?run⟩
  case run =>
    simp only [cc0__loss_kernel_eq_skeleton]; unfold cc0__loss_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg2.eq_unread hf0; obtain rfl := harg3.eq_unread hf1; obtain rfl := harg4.eq_unread hf2; obtain rfl := harg9.eq_unread hfs0; obtain rfl := harg10.eq_unread hfs1; obtain rfl := harg11.eq_unread hfs2; obtain rfl := harg12.eq_unread hfs3; obtain rfl := harg13.eq_unread hfs4; obtain rfl := harg14.eq_unread hfs5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    isplitl [H6]; · iexists _; iexact H6
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.Kernel.Fr

end
-- ==== Proof.K.FrameDefs.lean ====
import proofs.«119910_j28707561407033_1_alg».proof.Proof.K.RunA
import proofs.«119910_j28707561407033_1_alg».proof.Proof.K.RunB
import proofs.«119910_j28707561407033_1_alg».proof.Proof.K.RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

structure Outs (F : FTy → Type) [FloatOps F] where
  o3 : Vec F S32x4 .f32
  o4 : Vec F S32x4 .f32
  o5 : Vec F S32x4 .f32
  o6 : Vec F S32x1 .f32
  s0 : Vec F S32x4 .f32
  s1 : Vec F S32x4 .f32
  s2 : Vec F S32x4 .f32
  s3 : Vec F S32x4 .f32
  s4 : Vec F S32x4 .f32
  s5 : Vec F S32x1 .f32

def idle3 : Vec F S32x4 .f32 := VO0_3.read (Elt F) VO0_3.junk
def idle4 : Vec F S32x4 .f32 := VO0_4.read (Elt F) VO0_4.junk
def idle5 : Vec F S32x4 .f32 := VO0_5.read (Elt F) VO0_5.junk
def idle6 : Vec F S32x1 .f32 := VO0_6.read (Elt F) VO0_6.junk

section cases

variable (c : Dev nD) (t : Fin cfg0.N)

section A
variable (hc0 : cond0_0 (grid0.coords t)) (hc1 : ¬cond0_1 (grid0.coords t))

/-- The body's run at grid point `t` over the point's three blocks, in the case that resets the accumulators. -/
abbrev runA := kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 (iblk m c 0 t) (iblk m c 1 t) (iblk m c 2 t)

theorem scover0_A_0 (y : S32x4.Idx) : ∃ pc ∈ (runA m c t hc0 hc1).1, y ∈ pc.1.set :=
  View.cover_of_tiledL _ S32x4.size (by sl_kernel_rfl) y
theorem scover0_A_1 (y : S32x4.Idx) : ∃ pc ∈ (runA m c t hc0 hc1).2.1, y ∈ pc.1.set :=
  View.cover_of_tiledL _ S32x4.size (by sl_kernel_rfl) y
theorem scover0_A_2 (y : S32x4.Idx) : ∃ pc ∈ (runA m c t hc0 hc1).2.2.1, y ∈ pc.1.set :=
  View.cover_of_tiledL _ S32x4.size (by sl_kernel_rfl) y
theorem scover0_A_3 (y : S32x4.Idx) : ∃ pc ∈ (runA m c t hc0 hc1).2.2.2.1, y ∈ pc.1.set :=
  View.cover_of_tiledL _ S32x4.size (by sl_kernel_rfl) y
theorem scover0_A_4 (y : S32x4.Idx) : ∃ pc ∈ (runA m c t hc0 hc1).2.2.2.2.1, y ∈ pc.1.set :=
  View.cover_of_tiledL _ S32x4.size (by sl_kernel_rfl) y
theorem scover0_A_5 (y : S32x1.Idx) : ∃ pc ∈ (runA m c t hc0 hc1).2.2.2.2.2.1, y ∈ pc.1.set :=
  View.cover_of_tiledL _ S32x1.size (by sl_kernel_rfl) y

def caseA : Outs F where
  o3 := idle3
  o4 := idle4
  o5 := idle5
  o6 := idle6
  s0 := VS0_0.read (Elt F) (VS0_0.writes (Elt F) VS0_0.junk (runA m c t hc0 hc1).1)
  s1 := VS0_1.read (Elt F) (VS0_1.writes (Elt F) VS0_1.junk (runA m c t hc0 hc1).2.1)
  s2 := VS0_2.read (Elt F) (VS0_2.writes (Elt F) VS0_2.junk (runA m c t hc0 hc1).2.2.1)
  s3 := VS0_3.read (Elt F) (VS0_3.writes (Elt F) VS0_3.junk (runA m c t hc0 hc1).2.2.2.1)
  s4 := VS0_4.read (Elt F) (VS0_4.writes (Elt F) VS0_4.junk (runA m c t hc0 hc1).2.2.2.2.1)
  s5 := VS0_5.read (Elt F) (VS0_5.writes (Elt F) VS0_5.junk (runA m c t hc0 hc1).2.2.2.2.2.1)

end A

section B
variable (hc0 : ¬cond0_0 (grid0.coords t)) (hc1 : ¬cond0_1 (grid0.coords t)) (p : Outs F)

/-- The same over what the point before left in the accumulators, where nothing is stored into the results. -/
abbrev runB := kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 (iblk m c 0 t) (iblk m c 1 t) (iblk m c 2 t) p.s0 p.s1 p.s2 p.s3 p.s4 p.s5

theorem scover0_B_0 (y : S32x4.Idx) : ∃ pc ∈ (runB m c t hc0 hc1 p).1, y ∈ pc.1.set :=
  View.cover_of_tiledL _ S32x4.size (by sl_kernel_rfl) y
theorem scover0_B_1 (y : S32x4.Idx) : ∃ pc ∈ (runB m c t hc0 hc1 p).2.1, y ∈ pc.1.set :=
  View.cover_of_tiledL _ S32x4.size (by sl_kernel_rfl) y
theorem scover0_B_2 (y : S32x4.Idx) : ∃ pc ∈ (runB m c t hc0 hc1 p).2.2.1, y ∈ pc.1.set :=
  View.cover_of_tiledL _ S32x4.size (by sl_kernel_rfl) y
theorem scover0_B_3 (y : S32x4.Idx) : ∃ pc ∈ (runB m c t hc0 hc1 p).2.2.2.1, y ∈ pc.1.set :=
  View.cover_of_tiledL _ S32x4.size (by sl_kernel_rfl) y
theorem scover0_B_4 (y : S32x4.Idx) : ∃ pc ∈ (runB m c t hc0 hc1 p).2.2.2.2.1, y ∈ pc.1.set :=
  View.cover_of_tiledL _ S32x4.size (by sl_kernel_rfl) y
theorem scover0_B_5 (y : S32x1.Idx) : ∃ pc ∈ (runB m c t hc0 hc1 p).2.2.2.2.2.1, y ∈ pc.1.set :=
  View.cover_of_tiledL _ S32x1.size (by sl_kernel_rfl) y

def caseB : Outs F where
  o3 := idle3
  o4 := idle4
  o5 := idle5
  o6 := idle6
  s0 := VS0_0.read (Elt F) (VS0_0.writes (Elt F) VS0_0.junk (runB m c t hc0 hc1 p).1)
  s1 := VS0_1.read (Elt F) (VS0_1.writes (Elt F) VS0_1.junk (runB m c t hc0 hc1 p).2.1)
  s2 := VS0_2.read (Elt F) (VS0_2.writes (Elt F) VS0_2.junk (runB m c t hc0 hc1 p).2.2.1)
  s3 := VS0_3.read (Elt F) (VS0_3.writes (Elt F) VS0_3.junk (runB m c t hc0 hc1 p).2.2.2.1)
  s4 := VS0_4.read (Elt F) (VS0_4.writes (Elt F) VS0_4.junk (runB m c t hc0 hc1 p).2.2.2.2.1)
  s5 := VS0_5.read (Elt F) (VS0_5.writes (Elt F) VS0_5.junk (runB m c t hc0 hc1 p).2.2.2.2.2.1)

end B

section C
variable (hc0 : ¬cond0_0 (grid0.coords t)) (hc1 : cond0_1 (grid0.coords t)) (p : Outs F)

/-- The same where the four results are stored. -/
abbrev runC := kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 (iblk m c 0 t) (iblk m c 1 t) (iblk m c 2 t) p.s0 p.s1 p.s2 p.s3 p.s4 p.s5

theorem scover0_C_0 (y : S32x4.Idx) : ∃ pc ∈ (runC m c t hc0 hc1 p).2.2.2.2.1, y ∈ pc.1.set :=
  View.cover_of_tiledL _ S32x4.size (by sl_kernel_rfl) y
theorem scover0_C_1 (y : S32x4.Idx) : ∃ pc ∈ (runC m c t hc0 hc1 p).2.2.2.2.2.1, y ∈ pc.1.set :=
  View.cover_of_tiledL _ S32x4.size (by sl_kernel_rfl) y
theorem scover0_C_2 (y : S32x4.Idx) : ∃ pc ∈ (runC m c t hc0 hc1 p).2.2.2.2.2.2.1, y ∈ pc.1.set :=
  View.cover_of_tiledL _ S32x4.size (by sl_kernel_rfl) y
theorem scover0_C_3 (y : S32x4.Idx) : ∃ pc ∈ (runC m c t hc0 hc1 p).2.2.2.2.2.2.2.1, y ∈ pc.1.set :=
  View.cover_of_tiledL _ S32x4.size (by sl_kernel_rfl) y
theorem scover0_C_4 (y : S32x4.Idx) : ∃ pc ∈ (runC m c t hc0 hc1 p).2.2.2.2.2.2.2.2.1, y ∈ pc.1.set :=
  View.cover_of_tiledL _ S32x4.size (by sl_kernel_rfl) y
theorem scover0_C_5 (y : S32x1.Idx) : ∃ pc ∈ (runC m c t hc0 hc1 p).2.2.2.2.2.2.2.2.2.1, y ∈ pc.1.set :=
  View.cover_of_tiledL _ S32x1.size (by sl_kernel_rfl) y
theorem cover0_C_3 (y : S32x4.Idx) : ∃ pc ∈ (runC m c t hc0 hc1 p).1, y ∈ pc.1.set :=
  View.cover_of_tiledL _ S32x4.size (by sl_kernel_rfl) y
theorem cover0_C_4 (y : S32x4.Idx) : ∃ pc ∈ (runC m c t hc0 hc1 p).2.1, y ∈ pc.1.set :=
  View.cover_of_tiledL _ S32x4.size (by sl_kernel_rfl) y
theorem cover0_C_5 (y : S32x4.Idx) : ∃ pc ∈ (runC m c t hc0 hc1 p).2.2.1, y ∈ pc.1.set :=
  View.cover_of_tiledL _ S32x4.size (by sl_kernel_rfl) y
theorem cover0_C_6 (y : S32x1.Idx) : ∃ pc ∈ (runC m c t hc0 hc1 p).2.2.2.1, y ∈ pc.1.set :=
  View.cover_of_tiledL _ S32x1.size (by sl_kernel_rfl) y

def caseC : Outs F where
  o3 := VO0_3.read (Elt F) (VO0_3.writes (Elt F) VO0_3.junk (runC m c t hc0 hc1 p).1)
  o4 := VO0_4.read (Elt F) (VO0_4.writes (Elt F) VO0_4.junk (runC m c t hc0 hc1 p).2.1)
  o5 := VO0_5.read (Elt F) (VO0_5.writes (Elt F) VO0_5.junk (runC m c t hc0 hc1 p).2.2.1)
  o6 := VO0_6.read (Elt F) (VO0_6.writes (Elt F) VO0_6.junk (runC m c t hc0 hc1 p).2.2.2.1)
  s0 := VS0_0.read (Elt F) (VS0_0.writes (Elt F) VS0_0.junk (runC m c t hc0 hc1 p).2.2.2.2.1)
  s1 := VS0_1.read (Elt F) (VS0_1.writes (Elt F) VS0_1.junk (runC m c t hc0 hc1 p).2.2.2.2.2.1)
  s2 := VS0_2.read (Elt F) (VS0_2.writes (Elt F) VS0_2.junk (runC m c t hc0 hc1 p).2.2.2.2.2.2.1)
  s3 := VS0_3.read (Elt F) (VS0_3.writes (Elt F) VS0_3.junk (runC m c t hc0 hc1 p).2.2.2.2.2.2.2.1)
  s4 := VS0_4.read (Elt F) (VS0_4.writes (Elt F) VS0_4.junk (runC m c t hc0 hc1 p).2.2.2.2.2.2.2.2.1)
  s5 := VS0_5.read (Elt F) (VS0_5.writes (Elt F) VS0_5.junk (runC m c t hc0 hc1 p).2.2.2.2.2.2.2.2.2.1)

end C

end cases

def outsAt0 (c : Dev nD) : (n : ℕ) → n < cfg0.N → Outs F
  | 0, hn => caseA m c ⟨0, hn⟩ ((hcond0_0 ⟨0, hn⟩).mpr (Nat.zero_mod _)) (fun h => (fun h => by (try dsimp only at h); omega) ((hcond0_1 ⟨0, hn⟩).mp h))
  | n + 1, hn =>
    if h0 : (n + 1) % 8 = 0 then
      if h1 : (n + 1) % 8 = 7 then
        False.elim (by omega)
      else
        caseA m c ⟨n + 1, hn⟩ ((hcond0_0 ⟨n + 1, hn⟩).mpr h0) (fun h => h1 ((hcond0_1 ⟨n + 1, hn⟩).mp h))
    else
      if h1 : (n + 1) % 8 = 7 then
        caseC m c ⟨n + 1, hn⟩ (fun h => h0 ((hcond0_0 ⟨n + 1, hn⟩).mp h)) ((hcond0_1 ⟨n + 1, hn⟩).mpr h1) (outsAt0 c n (Nat.lt_of_succ_lt hn))
      else
        caseB m c ⟨n + 1, hn⟩ (fun h => h0 ((hcond0_0 ⟨n + 1, hn⟩).mp h)) (fun h => h1 ((hcond0_1 ⟨n + 1, hn⟩).mp h)) (outsAt0 c n (Nat.lt_of_succ_lt hn))

theorem outsAt0_A (c : Dev nD) (t : Fin cfg0.N) (h0 : t.val % 8 = 0) (h1 : ¬t.val % 8 = 7) :
    outsAt0 m c t.val t.isLt = caseA m c t ((hcond0_0 t).mpr h0) (fun h => h1 ((hcond0_1 t).mp h)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt = caseB m c t (fun h => h0 ((hcond0_0 t).mp h)) (fun h => h1 ((hcond0_1 t).mp h)) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = caseC m c t (fun h => h0 ((hcond0_0 t).mp h)) ((hcond0_1 t).mpr h1) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The six accumulators at the contents `p` names, and the generator register. -/
def accs (c : Dev nD) (p : Outs F) : sProp 𝕄 :=
  iprop(iprop(owns (c : Thread nD τ) scM0_0 fullShare p.s0 ∗ owns (c : Thread nD τ) scM0_1 fullShare p.s1 ∗ owns (c : Thread nD τ) scM0_2 fullShare p.s2 ∗ owns (c : Thread nD τ) scM0_3 fullShare p.s3 ∗ owns (c : Thread nD τ) scM0_4 fullShare p.s4 ∗ owns (c : Thread nD τ) scM0_5 fullShare p.s5) ∗ (∃ r, prngReg c r))

def PhiS (c : Dev nD) : (n : ℕ) → n ≤ cfg0.N → sProp 𝕄
  | 0, _ => Pipeline.ΦA spec0 c
  | n + 1, hn => accs c (outsAt0 m c n hn)

theorem PhiS_succ (c : Dev nD) (n : ℕ) (hn : n < cfg0.N) : PhiS m c (n + 1) hn = accs c (outsAt0 m c n hn) := rfl

theorem PhiS_pos (c : Dev nD) (n : ℕ) (h : n ≤ cfg0.N) (hz : n ≠ 0) :
    PhiS m c n h = accs c (outsAt0 m c (n - 1) (by omega)) := by
  cases n with
  | zero => exact absurd rfl hz
  | succ n => rfl

/-- Whatever the accumulators hold, they are held: the invariant before any point gives the region's entry invariant back. -/
theorem PhiS_any (c : Dev nD) (n : ℕ) (h : n ≤ cfg0.N) : PhiS m c n h ⊢ Pipeline.ΦA spec0 c := by
  cases n with
  | zero => exact Idealize.SL.BI.Entails.refl _
  | succ n =>
    rw [PhiS_succ, PhiA0_eq]; unfold accs
    iintro ⟨⟨HS0, HS1, HS2, HS3, HS4, HS5⟩, Hg⟩
    isplitr [Hg]
    swap; · iexact Hg
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).o3
    | ⟨4, _⟩ => (outsAt0 m c t.val t.isLt).o4
    | ⟨5, _⟩ => (outsAt0 m c t.val t.isLt).o5
    | ⟨6, _⟩ => (outsAt0 m c t.val t.isLt).o6
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).o3 := by dsimp only [dats]
theorem after0_4 (c : Dev nD) (t : Fin cfg0.N) : (dats m 0 c).after 4 t = (outsAt0 m c t.val t.isLt).o4 := by dsimp only [dats]
theorem after0_5 (c : Dev nD) (t : Fin cfg0.N) : (dats m 0 c).after 5 t = (outsAt0 m c t.val t.isLt).o5 := by dsimp only [dats]
theorem after0_6 (c : Dev nD) (t : Fin cfg0.N) : (dats m 0 c).after 6 t = (outsAt0 m c t.val t.isLt).o6 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

end Cert.Kernel.Fr

end
-- ==== Proof.K.Body.lean ====
import proofs.«119910_j28707561407033_1_alg».proof.Proof.K.FrameDefs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A whole buffer every index of which some stored piece covers holds the pieces read back, whatever it held before. -/
theorem owns_of_cover {S : Shape} (c : Dev nD) (M : Memref sig .tc .vmem S .f32) (V' : View sig .tc .vmem S .f32)
    (L : List (View.Piece (Elt F) S .f32)) (hcov : ∀ y : S.Idx, ∃ pc ∈ L, y ∈ pc.1.set) :
    (iprop(∃ f, M.view.loc (c : Thread nD τ) ↦[M.view.set]{fullShare} M.view.writes (Elt F) f L) : sProp 𝕄)
      ⊢ owns (c : Thread nD τ) M fullShare (V'.read (Elt F) (V'.writes (Elt F) V'.junk L)) := by
  unfold owns
  iintro ⟨%f, H⟩
  iexists _; isplitr
  swap; · iexact H
  ipureintro; exact View.read_writes_of_cover _ _ _ _ _ hcov

set_option maxHeartbeats 4000000 in
/-- The first point of a row: the accumulators, at whatever they hold, are reset and take the point's tile sums. -/
theorem sound_A (c : Dev nD) (t : Fin cfg0.N) (h0 : t.val % 8 = 0) (h1 : ¬t.val % 8 = 7) :
    bodyPre m c t ⊢ wp frame (wpE (defs₀ (F := F)) Variants.none c none) Set.univ (bodyAt0 t) (fun _ => bodyPost m c t) := by
  have hc1 : ¬cond0_1 (grid0.coords t) := fun h => h1 ((hcond0_1 t).mp h)
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  unfold accs
  rw [show (dats m 0 c).leavesExact 0 t = owns (c : Thread nD τ) (ms0_0 t) fullShare ((dats m 0 c).after 0 t) from by
    unfold Dat.leavesExact; rw [liveIn0 t 0 (by decide)], after0_0]
  rw [show (dats m 0 c).leavesExact 1 t = owns (c : Thread nD τ) (ms0_1 t) fullShare ((dats m 0 c).after 1 t) from by
    unfold Dat.leavesExact; rw [liveIn0 t 1 (by decide)], after0_1]
  rw [show (dats m 0 c).leavesExact 2 t = owns (c : Thread nD τ) (ms0_2 t) fullShare ((dats m 0 c).after 2 t) from by
    unfold Dat.leavesExact; rw [liveIn0 t 2 (by decide)], after0_2]
  rw [Dat.leavesExact_idle (dats m 0 c) 3 t (idleOut0 t 3 (by decide) hc1).1 (idleOut0 t 3 (by decide) hc1).2]
  rw [Dat.leavesExact_idle (dats m 0 c) 4 t (idleOut0 t 4 (by decide) hc1).1 (idleOut0 t 4 (by decide) hc1).2]
  rw [Dat.leavesExact_idle (dats m 0 c) 5 t (idleOut0 t 5 (by decide) hc1).1 (idleOut0 t 5 (by decide) hc1).2]
  rw [Dat.leavesExact_idle (dats m 0 c) 6 t (idleOut0 t 6 (by decide) hc1).1 (idleOut0 t 6 (by decide) hc1).2]
  rw [outsAt0_A m c t h0 h1]
  unfold caseA; (try dsimp only)
  rw [PhiS_castSucc m c t]
  refine (sep_mono_left (PhiS_any m c _ _)).trans ?_
  rw [PhiA0_eq]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩⟩
  iapply ((runA m c t ((hcond0_0 t).mpr h0) hc1).2.2.2.2.2.2 _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, HS0, HS1, HS2, HS3, HS4, HS5⟩
  isplitl [HS0 HS1 HS2 HS3 HS4 HS5 Hg]
  · isplitr [Hg]
    swap; · iexact Hg
    isplitl [HS0]; · iapply (owns_of_cover c scM0_0 VS0_0 _ (scover0_A_0 m c t _ _)) $$ HS0
    isplitl [HS1]; · iapply (owns_of_cover c scM0_1 VS0_1 _ (scover0_A_1 m c t _ _)) $$ HS1
    isplitl [HS2]; · iapply (owns_of_cover c scM0_2 VS0_2 _ (scover0_A_2 m c t _ _)) $$ HS2
    isplitl [HS3]; · iapply (owns_of_cover c scM0_3 VS0_3 _ (scover0_A_3 m c t _ _)) $$ HS3
    isplitl [HS4]; · iapply (owns_of_cover c scM0_4 VS0_4 _ (scover0_A_4 m c t _ _)) $$ HS4
    iapply (owns_of_cover c scM0_5 VS0_5 _ (scover0_A_5 m c t _ _)) $$ HS5
  isplitl [Ho]; · iexact Ho
  isplitl [H0]; · iexact H0
  isplitl [H1]; · iexact H1
  isplitl [H2]; · iexact H2
  isplitl [H3]; · iexists _; iexact H3
  isplitl [H4]; · iexists _; iexact H4
  isplitl [H5]; · iexists _; iexact H5
  iexists _; iexact H6

set_option maxHeartbeats 4000000 in
/-- A middle point of a row: each accumulator takes the point's tile sum over what the point before left. -/
theorem sound_B (c : Dev nD) (t : Fin cfg0.N) (h0 : ¬t.val % 8 = 0) (h1 : ¬t.val % 8 = 7) :
    bodyPre m c t ⊢ wp frame (wpE (defs₀ (F := F)) Variants.none c none) Set.univ (bodyAt0 t) (fun _ => bodyPost m c t) := by
  have hz : t.val ≠ 0 := fun h => h0 (by rw [h])
  have hc1 : ¬cond0_1 (grid0.coords t) := fun h => h1 ((hcond0_1 t).mp h)
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  unfold accs
  rw [show (dats m 0 c).leavesExact 0 t = owns (c : Thread nD τ) (ms0_0 t) fullShare ((dats m 0 c).after 0 t) from by
    unfold Dat.leavesExact; rw [liveIn0 t 0 (by decide)], after0_0]
  rw [show (dats m 0 c).leavesExact 1 t = owns (c : Thread nD τ) (ms0_1 t) fullShare ((dats m 0 c).after 1 t) from by
    unfold Dat.leavesExact; rw [liveIn0 t 1 (by decide)], after0_1]
  rw [show (dats m 0 c).leavesExact 2 t = owns (c : Thread nD τ) (ms0_2 t) fullShare ((dats m 0 c).after 2 t) from by
    unfold Dat.leavesExact; rw [liveIn0 t 2 (by decide)], after0_2]
  rw [Dat.leavesExact_idle (dats m 0 c) 3 t (idleOut0 t 3 (by decide) hc1).1 (idleOut0 t 3 (by decide) hc1).2]
  rw [Dat.leavesExact_idle (dats m 0 c) 4 t (idleOut0 t 4 (by decide) hc1).1 (idleOut0 t 4 (by decide) hc1).2]
  rw [Dat.leavesExact_idle (dats m 0 c) 5 t (idleOut0 t 5 (by decide) hc1).1 (idleOut0 t 5 (by decide) hc1).2]
  rw [Dat.leavesExact_idle (dats m 0 c) 6 t (idleOut0 t 6 (by decide) hc1).1 (idleOut0 t 6 (by decide) hc1).2]
  rw [outsAt0_B m c t h0 h1]
  unfold caseB; (try dsimp only)
  rw [PhiS_castSucc m c t, PhiS_pos m c _ _ hz]
  unfold accs
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩⟩
  iapply ((runB m c t (fun h => h0 ((hcond0_0 t).mp h)) hc1 (outsAt0 m c (t.val - 1) (Nat.lt_of_le_of_lt (Nat.sub_le _ _) t.isLt))).2.2.2.2.2.2 _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, HS0, HS1, HS2, HS3, HS4, HS5⟩
  isplitl [HS0 HS1 HS2 HS3 HS4 HS5 Hg]
  · isplitr [Hg]
    swap; · iexact Hg
    isplitl [HS0]; · iapply (owns_of_cover c scM0_0 VS0_0 _ (scover0_B_0 m c t _ _ _)) $$ HS0
    isplitl [HS1]; · iapply (owns_of_cover c scM0_1 VS0_1 _ (scover0_B_1 m c t _ _ _)) $$ HS1
    isplitl [HS2]; · iapply (owns_of_cover c scM0_2 VS0_2 _ (scover0_B_2 m c t _ _ _)) $$ HS2
    isplitl [HS3]; · iapply (owns_of_cover c scM0_3 VS0_3 _ (scover0_B_3 m c t _ _ _)) $$ HS3
    isplitl [HS4]; · iapply (owns_of_cover c scM0_4 VS0_4 _ (scover0_B_4 m c t _ _ _)) $$ HS4
    iapply (owns_of_cover c scM0_5 VS0_5 _ (scover0_B_5 m c t _ _ _)) $$ HS5
  isplitl [Ho]; · iexact Ho
  isplitl [H0]; · iexact H0
  isplitl [H1]; · iexact H1
  isplitl [H2]; · iexact H2
  isplitl [H3]; · iexists _; iexact H3
  isplitl [H4]; · iexists _; iexact H4
  isplitl [H5]; · iexists _; iexact H5
  iexists _; iexact H6

set_option maxHeartbeats 4000000 in
/-- The last point of a row: the accumulators take the point's tile sums and the four results are stored whole. -/
theorem sound_C (c : Dev nD) (t : Fin cfg0.N) (h0 : ¬t.val % 8 = 0) (h1 : t.val % 8 = 7) :
    bodyPre m c t ⊢ wp frame (wpE (defs₀ (F := F)) Variants.none c none) Set.univ (bodyAt0 t) (fun _ => bodyPost m c t) := by
  have hz : t.val ≠ 0 := fun h => h0 (by rw [h])
  have hc1 : cond0_1 (grid0.coords t) := (hcond0_1 t).mpr h1
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [PhiS_castSucc m c t, PhiS_pos m c _ _ hz]
  unfold accs
  rw [show (dats m 0 c).leavesExact 0 t = owns (c : Thread nD τ) (ms0_0 t) fullShare ((dats m 0 c).after 0 t) from by
    unfold Dat.leavesExact; rw [liveIn0 t 0 (by decide)], after0_0]
  rw [show (dats m 0 c).leavesExact 1 t = owns (c : Thread nD τ) (ms0_1 t) fullShare ((dats m 0 c).after 1 t) from by
    unfold Dat.leavesExact; rw [liveIn0 t 1 (by decide)], after0_1]
  rw [show (dats m 0 c).leavesExact 2 t = owns (c : Thread nD τ) (ms0_2 t) fullShare ((dats m 0 c).after 2 t) from by
    unfold Dat.leavesExact; rw [liveIn0 t 2 (by decide)], after0_2]
  rw [show (dats m 0 c).leavesExact 3 t = owns (c : Thread nD τ) (ms0_3 t) fullShare ((dats m 0 c).after 3 t) from by
    unfold Dat.leavesExact; rw [liveOut0 t 3 (by decide) hc1], after0_3]
  rw [show (dats m 0 c).leavesExact 4 t = owns (c : Thread nD τ) (ms0_4 t) fullShare ((dats m 0 c).after 4 t) from by
    unfold Dat.leavesExact; rw [liveOut0 t 4 (by decide) hc1], after0_4]
  rw [show (dats m 0 c).leavesExact 5 t = owns (c : Thread nD τ) (ms0_5 t) fullShare ((dats m 0 c).after 5 t) from by
    unfold Dat.leavesExact; rw [liveOut0 t 5 (by decide) hc1], after0_5]
  rw [show (dats m 0 c).leavesExact 6 t = owns (c : Thread nD τ) (ms0_6 t) fullShare ((dats m 0 c).after 6 t) from by
    unfold Dat.leavesExact; rw [liveOut0 t 6 (by decide) hc1], after0_6]
  rw [outsAt0_C m c t h0 h1]
  unfold caseC; (try dsimp only)
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩⟩
  iapply ((runC m c t (fun h => h0 ((hcond0_0 t).mp h)) hc1 (outsAt0 m c (t.val - 1) (Nat.lt_of_le_of_lt (Nat.sub_le _ _) t.isLt))).2.2.2.2.2.2.2.2.2.2 Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, HS0, HS1, HS2, HS3, HS4, HS5⟩
  isplitl [HS0 HS1 HS2 HS3 HS4 HS5 Hg]
  · isplitr [Hg]
    swap; · iexact Hg
    isplitl [HS0]; · iapply (owns_of_cover c scM0_0 VS0_0 _ (scover0_C_0 m c t _ _ _)) $$ HS0
    isplitl [HS1]; · iapply (owns_of_cover c scM0_1 VS0_1 _ (scover0_C_1 m c t _ _ _)) $$ HS1
    isplitl [HS2]; · iapply (owns_of_cover c scM0_2 VS0_2 _ (scover0_C_2 m c t _ _ _)) $$ HS2
    isplitl [HS3]; · iapply (owns_of_cover c scM0_3 VS0_3 _ (scover0_C_3 m c t _ _ _)) $$ HS3
    isplitl [HS4]; · iapply (owns_of_cover c scM0_4 VS0_4 _ (scover0_C_4 m c t _ _ _)) $$ HS4
    iapply (owns_of_cover c scM0_5 VS0_5 _ (scover0_C_5 m c t _ _ _)) $$ HS5
  isplitl [Ho]; · iexact Ho
  isplitl [H0]; · iexact H0
  isplitl [H1]; · iexact H1
  isplitl [H2]; · iexact H2
  isplitl [H3]; · iapply (owns_of_cover c (ms0_3 t) VO0_3 _ (cover0_C_3 m c t _ _ _)) $$ H3
  isplitl [H4]; · iapply (owns_of_cover c (ms0_4 t) VO0_4 _ (cover0_C_4 m c t _ _ _)) $$ H4
  isplitl [H5]; · iapply (owns_of_cover c (ms0_5 t) VO0_5 _ (cover0_C_5 m c t _ _ _)) $$ H5
  iapply (owns_of_cover c (ms0_6 t) VO0_6 _ (cover0_C_6 m c t _ _ _)) $$ H6

end Cert.Kernel.Fr

end
-- ==== Proof.K.Frame.lean ====
import proofs.«119910_j28707561407033_1_alg».proof.Proof.K.Body

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem sound_body (c : Dev nD) (t : Fin cfg0.N) :
    bodyPre m c t ⊢ wp frame (wpE (defs₀ (F := F)) Variants.none c none) Set.univ (bodyAt0 t) (fun _ => bodyPost m c t) := by
  by_cases h0 : t.val % 8 = 0
  · exact sound_A m c t h0 (by omega)
  · by_cases h1 : t.val % 8 = 7
    · exact sound_C m c t h0 h1
    · exact sound_B m c t h0 h1

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := Idealize.SL.BI.Entails.refl _

theorem hout (c : Dev nD) : (dats m 0 c).Φ (Fin.last cfg0.N) ⊢ Pipeline.ΦA spec0 c :=
  PhiS_any m c _ (Nat.le_of_lt_succ (Fin.last cfg0.N).isLt)

set_option backward.isDefEq.respectTransparency.types false in
/-- Every weakly fair execution of the program terminates, the region's arrays ending at what the proof data name. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- The program runs to the end, faults nowhere, and leaves its three argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Fr

end
-- ==== Proof.KI.Kit.lean ====
import proofs.«119910_j28707561407033_1_alg».proof.Proof.Gen.KernelIdeal.Launch
import proofs.«119910_j28707561407033_1_alg».proof.Proof.Gen.KernelIdeal.Skeleton
import proofs.«119910_j28707561407033_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev tailOps : List (List (HloOp τ sig (Elt F))) := [hostOps1, hostOps1_1, hostOps1_2, hostOps1_3, hostOps1_4, hostOps1_5, hostOps1_6, hostOps1_7, hostOps1_8, hostOps1_9, hostOps1_10, hostOps1_11, hostOps1_12]

abbrev V0 (c : Dev nD) : Valuation τ sig (Elt F) := StableHlo.after (List.flatten [hostOps0]) (fun b => m (c, b))

abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- What holds of every line of each stretch after the region holds of every later line. -/
theorem of_stretches {P : HloOp τ sig (Elt F) → Prop} (h0 : hostOps1.Forall P) (h1 : hostOps1_1.Forall P) (h2 : hostOps1_2.Forall P) (h3 : hostOps1_3.Forall P) (h4 : hostOps1_4.Forall P) (h5 : hostOps1_5.Forall P) (h6 : hostOps1_6.Forall P) (h7 : hostOps1_7.Forall P) (h8 : hostOps1_8.Forall P) (h9 : hostOps1_9.Forall P) (h10 : hostOps1_10.Forall P) (h11 : hostOps1_11.Forall P) (h12 : hostOps1_12.Forall P) :
    ∀ ops ∈ (tailOps : List (List (HloOp τ sig (Elt F)))), ∀ op ∈ ops, P op := by
  intro ops hops op hop
  simp only [List.mem_cons, List.mem_nil_iff, or_false] at hops
  rcases hops with rfl | rfl | rfl | rfl | rfl | rfl | rfl | rfl | rfl | rfl | rfl | rfl | rfl
  exacts [List.forall_iff_forall_mem.mp h0 op hop, List.forall_iff_forall_mem.mp h1 op hop, List.forall_iff_forall_mem.mp h2 op hop, List.forall_iff_forall_mem.mp h3 op hop, List.forall_iff_forall_mem.mp h4 op hop, List.forall_iff_forall_mem.mp h5 op hop, List.forall_iff_forall_mem.mp h6 op hop, List.forall_iff_forall_mem.mp h7 op hop, List.forall_iff_forall_mem.mp h8 op hop, List.forall_iff_forall_mem.mp h9 op hop, List.forall_iff_forall_mem.mp h10 op hop, List.forall_iff_forall_mem.mp h11 op hop, List.forall_iff_forall_mem.mp h12 op hop]

theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  exact fun ops ho op h => Pipeline.sub_ucRefs op (of_stretches hostOps1_sub hostOps1_1_sub hostOps1_2_sub hostOps1_3_sub hostOps1_4_sub hostOps1_5_sub hostOps1_6_sub hostOps1_7_sub hostOps1_8_sub hostOps1_9_sub hostOps1_10_sub hostOps1_11_sub hostOps1_12_sub ops ho op h)

/-- No line of a stretch allocates. -/
abbrev Fresh (ops : List (HloOp τ sig (Elt F))) : Prop := ops.Forall fun op => op.fresh = ∅
theorem fresh_0 : Fresh (F := F) hostOps1 := by
  simp only [Fresh, List.Forall]; repeat' constructor
theorem fresh_1 : Fresh (F := F) hostOps1_1 ∧ Fresh (F := F) hostOps1_2 ∧ Fresh (F := F) hostOps1_3 ∧ Fresh (F := F) hostOps1_4 := by
  simp only [Fresh, List.Forall]; repeat' constructor
theorem fresh_2 : Fresh (F := F) hostOps1_5 ∧ Fresh (F := F) hostOps1_6 ∧ Fresh (F := F) hostOps1_7 ∧ Fresh (F := F) hostOps1_8 := by
  simp only [Fresh, List.Forall]; repeat' constructor
theorem fresh_3 : Fresh (F := F) hostOps1_9 ∧ Fresh (F := F) hostOps1_10 ∧ Fresh (F := F) hostOps1_11 ∧ Fresh (F := F) hostOps1_12 := by
  simp only [Fresh, List.Forall]; repeat' constructor
theorem sfx_fresh : ∀ ops ∈ (tailOps : List (List (HloOp τ sig (Elt F)))), ∀ op ∈ ops, op.fresh = ∅ :=
  of_stretches fresh_0 fresh_1.1 fresh_1.2.1 fresh_1.2.2.1 fresh_1.2.2.2 fresh_2.1 fresh_2.2.1 fresh_2.2.2.1 fresh_2.2.2.2 fresh_3.1 fresh_3.2.1 fresh_3.2.2.1 fresh_3.2.2.2

/-- Each line of a stretch writes its own result buffer only, which is none of the region's seven arrays. -/
abbrev Keeps (ops : List (HloOp τ sig (Elt F))) : Prop := ops.Forall fun op => ∀ w, Proc.devRef .tc (Pipeline.arrRef spec0 w) ∉ op.writes
theorem keeps_0 : Keeps (F := F) hostOps1 := by
  simp only [Keeps, List.Forall]
  repeat' constructor
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem keeps_1 : Keeps (F := F) hostOps1_1 ∧ Keeps (F := F) hostOps1_2 ∧ Keeps (F := F) hostOps1_3 ∧ Keeps (F := F) hostOps1_4 := by
  simp only [Keeps, List.Forall]
  repeat' constructor
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem keeps_2 : Keeps (F := F) hostOps1_5 ∧ Keeps (F := F) hostOps1_6 ∧ Keeps (F := F) hostOps1_7 ∧ Keeps (F := F) hostOps1_8 := by
  simp only [Keeps, List.Forall]
  repeat' constructor
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem keeps_3 : Keeps (F := F) hostOps1_9 ∧ Keeps (F := F) hostOps1_10 ∧ Keeps (F := F) hostOps1_11 ∧ Keeps (F := F) hostOps1_12 := by
  simp only [Keeps, List.Forall]
  repeat' constructor
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem sfx_keeps : ∀ ops ∈ (tailOps : List (List (HloOp τ sig (Elt F)))), ∀ op ∈ ops,
    ∀ w, Proc.devRef .tc (Pipeline.arrRef spec0 w) ∉ op.writes :=
  of_stretches keeps_0 keeps_1.1 keeps_1.2.1 keeps_1.2.2.1 keeps_1.2.2.2 keeps_2.1 keeps_2.2.1 keeps_2.2.2.1 keeps_2.2.2.2 keeps_3.1 keeps_3.2.1 keeps_3.2.2.1 keeps_3.2.2.2

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats 0 c).arrAt_in 0 rfl _).trans ((hA c 0).trans (V_main_arg0 m c))),
    ((h c).1 2).trans (((dats 0 c).arrAt_in 2 rfl _).trans ((hA c 2).trans (V_main_arg1 m c))),
    ((h c).1 1).trans (((dats 0 c).arrAt_in 1 rfl _).trans ((hA c 1).trans (V_main_arg2 m c)))⟩) h

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

theorem liveIn0 : ∀ (t : Fin cfg0.N) (w : Fin cfg0.W), w.val < 3 → cfg0.idle w (grid0.coords t) = false := by decide +kernel
theorem idleOut0 : ∀ (t : Fin cfg0.N) (w : Fin cfg0.W), 3 ≤ w.val → ¬cond0_1 (grid0.coords t) →
    cfg0.idle w (grid0.coords t) = true ∧ (cfg0.win w).flush t = false := by decide +kernel
theorem liveOut0 : ∀ (t : Fin cfg0.N) (w : Fin cfg0.W), 3 ≤ w.val → cond0_1 (grid0.coords t) → cfg0.idle w (grid0.coords t) = false := by decide +kernel

abbrev VO0_3 : View sig .tc .vmem S32x4 .f32 := (Memref.whole cc0_stg3_0 : Memref sig .tc .vmem S32x4 .f32).view
abbrev VO0_4 : View sig .tc .vmem S32x4 .f32 := (Memref.whole cc0_stg4_0 : Memref sig .tc .vmem S32x4 .f32).view
abbrev VO0_5 : View sig .tc .vmem S32x4 .f32 := (Memref.whole cc0_stg5_0 : Memref sig .tc .vmem S32x4 .f32).view
abbrev VO0_6 : View sig .tc .vmem S32x1 .f32 := (Memref.whole cc0_stg6_0 : Memref sig .tc .vmem S32x1 .f32).view
abbrev ms0_0 (t : Fin cfg0.N) : Memref sig .tc .vmem S32x4x32x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32x1x32x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S32x4 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x4 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S32x4 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S32x4 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S32x1 .f32 := win0_6.stage (cfg0.slots t 6)
abbrev hs0_6 (t : Fin cfg0.N) : (ms0_6 t).IsWhole := hstage0_6 ((cfg0.slots t 6).cast nbuf0_6)
abbrev scM0_0 : Memref sig .tc .vmem S32x4 .f32 := Memref.whole cc0_scratch0
abbrev VS0_0 : View sig .tc .vmem S32x4 .f32 := scM0_0.view
abbrev scM0_1 : Memref sig .tc .vmem S32x4 .f32 := Memref.whole cc0_scratch1
abbrev VS0_1 : View sig .tc .vmem S32x4 .f32 := scM0_1.view
abbrev scM0_2 : Memref sig .tc .vmem S32x4 .f32 := Memref.whole cc0_scratch2
abbrev VS0_2 : View sig .tc .vmem S32x4 .f32 := scM0_2.view
abbrev scM0_3 : Memref sig .tc .vmem S32x4 .f32 := Memref.whole cc0_scratch3
abbrev VS0_3 : View sig .tc .vmem S32x4 .f32 := scM0_3.view
abbrev scM0_4 : Memref sig .tc .vmem S32x4 .f32 := Memref.whole cc0_scratch4
abbrev VS0_4 : View sig .tc .vmem S32x4 .f32 := scM0_4.view
abbrev scM0_5 : Memref sig .tc .vmem S32x1 .f32 := Memref.whole cc0_scratch5
abbrev VS0_5 : View sig .tc .vmem S32x1 .f32 := scM0_5.view

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.KernelIdeal.Fr

end
-- ==== Proof.KI.RunA.lean ====
import proofs.«119910_j28707561407033_1_alg».proof.Proof.KI.Kit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the first point of a grid row: inputs and result buffers come back as handed, each accumulator at the pieces stored into it. -/
noncomputable def kernelRun0_A (c : Dev nD) (i : grid0.Coords) (arg2 : Memref sig .tc .vmem S32x4x32x256 .f32) (harg2 : arg2.IsWhole) (arg3 : Memref sig .tc .vmem S32x1x32x256 .f32) (harg3 : arg3.IsWhole) (arg4 : Memref sig .tc .vmem S32x4 .f32) (harg4 : arg4.IsWhole) (arg5 : Memref sig .tc .vmem S32x4 .f32) (harg5 : arg5.IsWhole) (arg6 : Memref sig .tc .vmem S32x4 .f32) (harg6 : arg6.IsWhole) (arg7 : Memref sig .tc .vmem S32x4 .f32) (harg7 : arg7.IsWhole) (arg8 : Memref sig .tc .vmem S32x1 .f32) (harg8 : arg8.IsWhole) (arg9 : Memref sig .tc .vmem S32x4 .f32) (harg9 : arg9.IsWhole) (arg10 : Memref sig .tc .vmem S32x4 .f32) (harg10 : arg10.IsWhole) (arg11 : Memref sig .tc .vmem S32x4 .f32) (harg11 : arg11.IsWhole) (arg12 : Memref sig .tc .vmem S32x4 .f32) (harg12 : arg12.IsWhole) (arg13 : Memref sig .tc .vmem S32x4 .f32) (harg13 : arg13.IsWhole) (arg14 : Memref sig .tc .vmem S32x1 .f32) (harg14 : arg14.IsWhole) (hc0 : cond0_0 i) (hc1 : ¬cond0_1 i)
    (x0 : Vec F S32x4x32x256 .f32) (x1 : Vec F S32x1x32x256 .f32) (x2 : Vec F S32x4 .f32) :
    Σ' (LS0 : List (View.Piece (Elt F) S32x4 .f32)) (LS1 : List (View.Piece (Elt F) S32x4 .f32)) (LS2 : List (View.Piece (Elt F) S32x4 .f32)) (LS3 : List (View.Piece (Elt F) S32x4 .f32)) (LS4 : List (View.Piece (Elt F) S32x4 .f32)), { LS5 : List (View.Piece (Elt F) S32x1 .f32) //
      ∀ (xi3 : Vec F S32x4 .f32) (xi4 : Vec F S32x4 .f32) (xi5 : Vec F S32x4 .f32) (xi6 : Vec F S32x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xi5 ∗ owns (c : Thread nD τ) arg8 fullShare xi6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3) ∗ (∃ f, arg13.view.loc (c : Thread nD τ) ↦[arg13.view.set]{fullShare} arg13.view.writes (Elt F) f LS4) ∗ (∃ f, arg14.view.loc (c : Thread nD τ) ↦[arg14.view.set]{fullShare} arg14.view.writes (Elt F) f LS5)) -∗ K ⟨⟩))
          ⊢ wp frame (wpE (defs₀ (F := F)) Variants.none c none) E (cc0__loss_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, fun xi3 xi4 xi5 xi6 E K => ?run⟩
  case run =>
    simp only [cc0__loss_kernel_eq_skeleton]; unfold cc0__loss_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.KernelIdeal.Fr

end
-- ==== Proof.KI.RunB.lean ====
import proofs.«119910_j28707561407033_1_alg».proof.Proof.KI.Kit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a middle point of a grid row: inputs and result buffers come back as handed, each accumulator at the pieces stored into it. -/
noncomputable def kernelRun0_B (c : Dev nD) (i : grid0.Coords) (arg2 : Memref sig .tc .vmem S32x4x32x256 .f32) (harg2 : arg2.IsWhole) (arg3 : Memref sig .tc .vmem S32x1x32x256 .f32) (harg3 : arg3.IsWhole) (arg4 : Memref sig .tc .vmem S32x4 .f32) (harg4 : arg4.IsWhole) (arg5 : Memref sig .tc .vmem S32x4 .f32) (harg5 : arg5.IsWhole) (arg6 : Memref sig .tc .vmem S32x4 .f32) (harg6 : arg6.IsWhole) (arg7 : Memref sig .tc .vmem S32x4 .f32) (harg7 : arg7.IsWhole) (arg8 : Memref sig .tc .vmem S32x1 .f32) (harg8 : arg8.IsWhole) (arg9 : Memref sig .tc .vmem S32x4 .f32) (harg9 : arg9.IsWhole) (arg10 : Memref sig .tc .vmem S32x4 .f32) (harg10 : arg10.IsWhole) (arg11 : Memref sig .tc .vmem S32x4 .f32) (harg11 : arg11.IsWhole) (arg12 : Memref sig .tc .vmem S32x4 .f32) (harg12 : arg12.IsWhole) (arg13 : Memref sig .tc .vmem S32x4 .f32) (harg13 : arg13.IsWhole) (arg14 : Memref sig .tc .vmem S32x1 .f32) (harg14 : arg14.IsWhole) (hc0 : ¬cond0_0 i) (hc1 : ¬cond0_1 i)
    (x0 : Vec F S32x4x32x256 .f32) (x1 : Vec F S32x1x32x256 .f32) (x2 : Vec F S32x4 .f32) (xs0 : Vec F S32x4 .f32) (xs1 : Vec F S32x4 .f32) (xs2 : Vec F S32x4 .f32) (xs3 : Vec F S32x4 .f32) (xs4 : Vec F S32x4 .f32) (xs5 : Vec F S32x1 .f32) :
    Σ' (LS0 : List (View.Piece (Elt F) S32x4 .f32)) (LS1 : List (View.Piece (Elt F) S32x4 .f32)) (LS2 : List (View.Piece (Elt F) S32x4 .f32)) (LS3 : List (View.Piece (Elt F) S32x4 .f32)) (LS4 : List (View.Piece (Elt F) S32x4 .f32)), { LS5 : List (View.Piece (Elt F) S32x1 .f32) //
      ∀ (xi3 : Vec F S32x4 .f32) (xi4 : Vec F S32x4 .f32) (xi5 : Vec F S32x4 .f32) (xi6 : Vec F S32x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xi5 ∗ owns (c : Thread nD τ) arg8 fullShare xi6 ∗ owns (c : Thread nD τ) arg9 fullShare xs0 ∗ owns (c : Thread nD τ) arg10 fullShare xs1 ∗ owns (c : Thread nD τ) arg11 fullShare xs2 ∗ owns (c : Thread nD τ) arg12 fullShare xs3 ∗ owns (c : Thread nD τ) arg13 fullShare xs4 ∗ owns (c : Thread nD τ) arg14 fullShare xs5
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3) ∗ (∃ f, arg13.view.loc (c : Thread nD τ) ↦[arg13.view.set]{fullShare} arg13.view.writes (Elt F) f LS4) ∗ (∃ f, arg14.view.loc (c : Thread nD τ) ↦[arg14.view.set]{fullShare} arg14.view.writes (Elt F) f LS5)) -∗ K ⟨⟩))
          ⊢ wp frame (wpE (defs₀ (F := F)) Variants.none c none) E (cc0__loss_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, fun xi3 xi4 xi5 xi6 E K => ?run⟩
  case run =>
    simp only [cc0__loss_kernel_eq_skeleton]; unfold cc0__loss_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1; obtain rfl := harg11.eq_unread hfs2; obtain rfl := harg12.eq_unread hfs3; obtain rfl := harg13.eq_unread hfs4; obtain rfl := harg14.eq_unread hfs5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.KernelIdeal.Fr

end
-- ==== Proof.KI.RunC.lean ====
import proofs.«119910_j28707561407033_1_alg».proof.Proof.KI.Kit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the last point of a grid row: besides the accumulators, the four result buffers are left at the pieces stored into them. -/
noncomputable def kernelRun0_C (c : Dev nD) (i : grid0.Coords) (arg2 : Memref sig .tc .vmem S32x4x32x256 .f32) (harg2 : arg2.IsWhole) (arg3 : Memref sig .tc .vmem S32x1x32x256 .f32) (harg3 : arg3.IsWhole) (arg4 : Memref sig .tc .vmem S32x4 .f32) (harg4 : arg4.IsWhole) (arg5 : Memref sig .tc .vmem S32x4 .f32) (harg5 : arg5.IsWhole) (arg6 : Memref sig .tc .vmem S32x4 .f32) (harg6 : arg6.IsWhole) (arg7 : Memref sig .tc .vmem S32x4 .f32) (harg7 : arg7.IsWhole) (arg8 : Memref sig .tc .vmem S32x1 .f32) (harg8 : arg8.IsWhole) (arg9 : Memref sig .tc .vmem S32x4 .f32) (harg9 : arg9.IsWhole) (arg10 : Memref sig .tc .vmem S32x4 .f32) (harg10 : arg10.IsWhole) (arg11 : Memref sig .tc .vmem S32x4 .f32) (harg11 : arg11.IsWhole) (arg12 : Memref sig .tc .vmem S32x4 .f32) (harg12 : arg12.IsWhole) (arg13 : Memref sig .tc .vmem S32x4 .f32) (harg13 : arg13.IsWhole) (arg14 : Memref sig .tc .vmem S32x1 .f32) (harg14 : arg14.IsWhole) (hc0 : ¬cond0_0 i) (hc1 : cond0_1 i)
    (x0 : Vec F S32x4x32x256 .f32) (x1 : Vec F S32x1x32x256 .f32) (x2 : Vec F S32x4 .f32) (xs0 : Vec F S32x4 .f32) (xs1 : Vec F S32x4 .f32) (xs2 : Vec F S32x4 .f32) (xs3 : Vec F S32x4 .f32) (xs4 : Vec F S32x4 .f32) (xs5 : Vec F S32x1 .f32) :
    Σ' (L3 : List (View.Piece (Elt F) S32x4 .f32)) (L4 : List (View.Piece (Elt F) S32x4 .f32)) (L5 : List (View.Piece (Elt F) S32x4 .f32)) (L6 : List (View.Piece (Elt F) S32x1 .f32)) (LS0 : List (View.Piece (Elt F) S32x4 .f32)) (LS1 : List (View.Piece (Elt F) S32x4 .f32)) (LS2 : List (View.Piece (Elt F) S32x4 .f32)) (LS3 : List (View.Piece (Elt F) S32x4 .f32)) (LS4 : List (View.Piece (Elt F) S32x4 .f32)), { LS5 : List (View.Piece (Elt F) S32x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1 ∗ owns (c : Thread nD τ) arg11 fullShare xs2 ∗ owns (c : Thread nD τ) arg12 fullShare xs3 ∗ owns (c : Thread nD τ) arg13 fullShare xs4 ∗ owns (c : Thread nD τ) arg14 fullShare xs5
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3) ∗ (∃ f, arg13.view.loc (c : Thread nD τ) ↦[arg13.view.set]{fullShare} arg13.view.writes (Elt F) f LS4) ∗ (∃ f, arg14.view.loc (c : Thread nD τ) ↦[arg14.view.set]{fullShare} arg14.view.writes (Elt F) f LS5)) -∗ K ⟨⟩))
          ⊢ wp frame (wpE (defs₀ (F := F)) Variants.none c none) E (cc0__loss_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, ?_, ?_, ?_, ?_, fun E K => ?run⟩
  case run =>
    simp only [cc0__loss_kernel_eq_skeleton]; unfold cc0__loss_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg2.eq_unread hf0; obtain rfl := harg3.eq_unread hf1; obtain rfl := harg4.eq_unread hf2; obtain rfl := harg9.eq_unread hfs0; obtain rfl := harg10.eq_unread hfs1; obtain rfl := harg11.eq_unread hfs2; obtain rfl := harg12.eq_unread hfs3; obtain rfl := harg13.eq_unread hfs4; obtain rfl := harg14.eq_unread hfs5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    isplitl [H6]; · iexists _; iexact H6
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.KernelIdeal.Fr

end
-- ==== Proof.KI.FrameDefs.lean ====
import proofs.«119910_j28707561407033_1_alg».proof.Proof.KI.RunA
import proofs.«119910_j28707561407033_1_alg».proof.Proof.KI.RunB
import proofs.«119910_j28707561407033_1_alg».proof.Proof.KI.RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

structure Outs (F : FTy → Type) [FloatOps F] where
  o3 : Vec F S32x4 .f32
  o4 : Vec F S32x4 .f32
  o5 : Vec F S32x4 .f32
  o6 : Vec F S32x1 .f32
  s0 : Vec F S32x4 .f32
  s1 : Vec F S32x4 .f32
  s2 : Vec F S32x4 .f32
  s3 : Vec F S32x4 .f32
  s4 : Vec F S32x4 .f32
  s5 : Vec F S32x1 .f32

def idle3 : Vec F S32x4 .f32 := VO0_3.read (Elt F) VO0_3.junk
def idle4 : Vec F S32x4 .f32 := VO0_4.read (Elt F) VO0_4.junk
def idle5 : Vec F S32x4 .f32 := VO0_5.read (Elt F) VO0_5.junk
def idle6 : Vec F S32x1 .f32 := VO0_6.read (Elt F) VO0_6.junk

section cases

variable (c : Dev nD) (t : Fin cfg0.N)

section A
variable (hc0 : cond0_0 (grid0.coords t)) (hc1 : ¬cond0_1 (grid0.coords t))

/-- The body's run at grid point `t` over the point's three blocks, in the case that resets the accumulators. -/
abbrev runA := kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 (iblk m c 0 t) (iblk m c 1 t) (iblk m c 2 t)

theorem scover0_A_0 (y : S32x4.Idx) : ∃ pc ∈ (runA m c t hc0 hc1).1, y ∈ pc.1.set :=
  View.cover_of_tiledL _ S32x4.size (by sl_kernel_rfl) y
theorem scover0_A_1 (y : S32x4.Idx) : ∃ pc ∈ (runA m c t hc0 hc1).2.1, y ∈ pc.1.set :=
  View.cover_of_tiledL _ S32x4.size (by sl_kernel_rfl) y
theorem scover0_A_2 (y : S32x4.Idx) : ∃ pc ∈ (runA m c t hc0 hc1).2.2.1, y ∈ pc.1.set :=
  View.cover_of_tiledL _ S32x4.size (by sl_kernel_rfl) y
theorem scover0_A_3 (y : S32x4.Idx) : ∃ pc ∈ (runA m c t hc0 hc1).2.2.2.1, y ∈ pc.1.set :=
  View.cover_of_tiledL _ S32x4.size (by sl_kernel_rfl) y
theorem scover0_A_4 (y : S32x4.Idx) : ∃ pc ∈ (runA m c t hc0 hc1).2.2.2.2.1, y ∈ pc.1.set :=
  View.cover_of_tiledL _ S32x4.size (by sl_kernel_rfl) y
theorem scover0_A_5 (y : S32x1.Idx) : ∃ pc ∈ (runA m c t hc0 hc1).2.2.2.2.2.1, y ∈ pc.1.set :=
  View.cover_of_tiledL _ S32x1.size (by sl_kernel_rfl) y

def caseA : Outs F where
  o3 := idle3
  o4 := idle4
  o5 := idle5
  o6 := idle6
  s0 := VS0_0.read (Elt F) (VS0_0.writes (Elt F) VS0_0.junk (runA m c t hc0 hc1).1)
  s1 := VS0_1.read (Elt F) (VS0_1.writes (Elt F) VS0_1.junk (runA m c t hc0 hc1).2.1)
  s2 := VS0_2.read (Elt F) (VS0_2.writes (Elt F) VS0_2.junk (runA m c t hc0 hc1).2.2.1)
  s3 := VS0_3.read (Elt F) (VS0_3.writes (Elt F) VS0_3.junk (runA m c t hc0 hc1).2.2.2.1)
  s4 := VS0_4.read (Elt F) (VS0_4.writes (Elt F) VS0_4.junk (runA m c t hc0 hc1).2.2.2.2.1)
  s5 := VS0_5.read (Elt F) (VS0_5.writes (Elt F) VS0_5.junk (runA m c t hc0 hc1).2.2.2.2.2.1)

end A

section B
variable (hc0 : ¬cond0_0 (grid0.coords t)) (hc1 : ¬cond0_1 (grid0.coords t)) (p : Outs F)

/-- The same over what the point before left in the accumulators, where nothing is stored into the results. -/
abbrev runB := kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 (iblk m c 0 t) (iblk m c 1 t) (iblk m c 2 t) p.s0 p.s1 p.s2 p.s3 p.s4 p.s5

theorem scover0_B_0 (y : S32x4.Idx) : ∃ pc ∈ (runB m c t hc0 hc1 p).1, y ∈ pc.1.set :=
  View.cover_of_tiledL _ S32x4.size (by sl_kernel_rfl) y
theorem scover0_B_1 (y : S32x4.Idx) : ∃ pc ∈ (runB m c t hc0 hc1 p).2.1, y ∈ pc.1.set :=
  View.cover_of_tiledL _ S32x4.size (by sl_kernel_rfl) y
theorem scover0_B_2 (y : S32x4.Idx) : ∃ pc ∈ (runB m c t hc0 hc1 p).2.2.1, y ∈ pc.1.set :=
  View.cover_of_tiledL _ S32x4.size (by sl_kernel_rfl) y
theorem scover0_B_3 (y : S32x4.Idx) : ∃ pc ∈ (runB m c t hc0 hc1 p).2.2.2.1, y ∈ pc.1.set :=
  View.cover_of_tiledL _ S32x4.size (by sl_kernel_rfl) y
theorem scover0_B_4 (y : S32x4.Idx) : ∃ pc ∈ (runB m c t hc0 hc1 p).2.2.2.2.1, y ∈ pc.1.set :=
  View.cover_of_tiledL _ S32x4.size (by sl_kernel_rfl) y
theorem scover0_B_5 (y : S32x1.Idx) : ∃ pc ∈ (runB m c t hc0 hc1 p).2.2.2.2.2.1, y ∈ pc.1.set :=
  View.cover_of_tiledL _ S32x1.size (by sl_kernel_rfl) y

def caseB : Outs F where
  o3 := idle3
  o4 := idle4
  o5 := idle5
  o6 := idle6
  s0 := VS0_0.read (Elt F) (VS0_0.writes (Elt F) VS0_0.junk (runB m c t hc0 hc1 p).1)
  s1 := VS0_1.read (Elt F) (VS0_1.writes (Elt F) VS0_1.junk (runB m c t hc0 hc1 p).2.1)
  s2 := VS0_2.read (Elt F) (VS0_2.writes (Elt F) VS0_2.junk (runB m c t hc0 hc1 p).2.2.1)
  s3 := VS0_3.read (Elt F) (VS0_3.writes (Elt F) VS0_3.junk (runB m c t hc0 hc1 p).2.2.2.1)
  s4 := VS0_4.read (Elt F) (VS0_4.writes (Elt F) VS0_4.junk (runB m c t hc0 hc1 p).2.2.2.2.1)
  s5 := VS0_5.read (Elt F) (VS0_5.writes (Elt F) VS0_5.junk (runB m c t hc0 hc1 p).2.2.2.2.2.1)

end B

section C
variable (hc0 : ¬cond0_0 (grid0.coords t)) (hc1 : cond0_1 (grid0.coords t)) (p : Outs F)

/-- The same where the four results are stored. -/
abbrev runC := kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 (iblk m c 0 t) (iblk m c 1 t) (iblk m c 2 t) p.s0 p.s1 p.s2 p.s3 p.s4 p.s5

theorem scover0_C_0 (y : S32x4.Idx) : ∃ pc ∈ (runC m c t hc0 hc1 p).2.2.2.2.1, y ∈ pc.1.set :=
  View.cover_of_tiledL _ S32x4.size (by sl_kernel_rfl) y
theorem scover0_C_1 (y : S32x4.Idx) : ∃ pc ∈ (runC m c t hc0 hc1 p).2.2.2.2.2.1, y ∈ pc.1.set :=
  View.cover_of_tiledL _ S32x4.size (by sl_kernel_rfl) y
theorem scover0_C_2 (y : S32x4.Idx) : ∃ pc ∈ (runC m c t hc0 hc1 p).2.2.2.2.2.2.1, y ∈ pc.1.set :=
  View.cover_of_tiledL _ S32x4.size (by sl_kernel_rfl) y
theorem scover0_C_3 (y : S32x4.Idx) : ∃ pc ∈ (runC m c t hc0 hc1 p).2.2.2.2.2.2.2.1, y ∈ pc.1.set :=
  View.cover_of_tiledL _ S32x4.size (by sl_kernel_rfl) y
theorem scover0_C_4 (y : S32x4.Idx) : ∃ pc ∈ (runC m c t hc0 hc1 p).2.2.2.2.2.2.2.2.1, y ∈ pc.1.set :=
  View.cover_of_tiledL _ S32x4.size (by sl_kernel_rfl) y
theorem scover0_C_5 (y : S32x1.Idx) : ∃ pc ∈ (runC m c t hc0 hc1 p).2.2.2.2.2.2.2.2.2.1, y ∈ pc.1.set :=
  View.cover_of_tiledL _ S32x1.size (by sl_kernel_rfl) y
theorem cover0_C_3 (y : S32x4.Idx) : ∃ pc ∈ (runC m c t hc0 hc1 p).1, y ∈ pc.1.set :=
  View.cover_of_tiledL _ S32x4.size (by sl_kernel_rfl) y
theorem cover0_C_4 (y : S32x4.Idx) : ∃ pc ∈ (runC m c t hc0 hc1 p).2.1, y ∈ pc.1.set :=
  View.cover_of_tiledL _ S32x4.size (by sl_kernel_rfl) y
theorem cover0_C_5 (y : S32x4.Idx) : ∃ pc ∈ (runC m c t hc0 hc1 p).2.2.1, y ∈ pc.1.set :=
  View.cover_of_tiledL _ S32x4.size (by sl_kernel_rfl) y
theorem cover0_C_6 (y : S32x1.Idx) : ∃ pc ∈ (runC m c t hc0 hc1 p).2.2.2.1, y ∈ pc.1.set :=
  View.cover_of_tiledL _ S32x1.size (by sl_kernel_rfl) y

def caseC : Outs F where
  o3 := VO0_3.read (Elt F) (VO0_3.writes (Elt F) VO0_3.junk (runC m c t hc0 hc1 p).1)
  o4 := VO0_4.read (Elt F) (VO0_4.writes (Elt F) VO0_4.junk (runC m c t hc0 hc1 p).2.1)
  o5 := VO0_5.read (Elt F) (VO0_5.writes (Elt F) VO0_5.junk (runC m c t hc0 hc1 p).2.2.1)
  o6 := VO0_6.read (Elt F) (VO0_6.writes (Elt F) VO0_6.junk (runC m c t hc0 hc1 p).2.2.2.1)
  s0 := VS0_0.read (Elt F) (VS0_0.writes (Elt F) VS0_0.junk (runC m c t hc0 hc1 p).2.2.2.2.1)
  s1 := VS0_1.read (Elt F) (VS0_1.writes (Elt F) VS0_1.junk (runC m c t hc0 hc1 p).2.2.2.2.2.1)
  s2 := VS0_2.read (Elt F) (VS0_2.writes (Elt F) VS0_2.junk (runC m c t hc0 hc1 p).2.2.2.2.2.2.1)
  s3 := VS0_3.read (Elt F) (VS0_3.writes (Elt F) VS0_3.junk (runC m c t hc0 hc1 p).2.2.2.2.2.2.2.1)
  s4 := VS0_4.read (Elt F) (VS0_4.writes (Elt F) VS0_4.junk (runC m c t hc0 hc1 p).2.2.2.2.2.2.2.2.1)
  s5 := VS0_5.read (Elt F) (VS0_5.writes (Elt F) VS0_5.junk (runC m c t hc0 hc1 p).2.2.2.2.2.2.2.2.2.1)

end C

end cases

def outsAt0 (c : Dev nD) : (n : ℕ) → n < cfg0.N → Outs F
  | 0, hn => caseA m c ⟨0, hn⟩ ((hcond0_0 ⟨0, hn⟩).mpr (Nat.zero_mod _)) (fun h => (fun h => by (try dsimp only at h); omega) ((hcond0_1 ⟨0, hn⟩).mp h))
  | n + 1, hn =>
    if h0 : (n + 1) % 8 = 0 then
      if h1 : (n + 1) % 8 = 7 then
        False.elim (by omega)
      else
        caseA m c ⟨n + 1, hn⟩ ((hcond0_0 ⟨n + 1, hn⟩).mpr h0) (fun h => h1 ((hcond0_1 ⟨n + 1, hn⟩).mp h))
    else
      if h1 : (n + 1) % 8 = 7 then
        caseC m c ⟨n + 1, hn⟩ (fun h => h0 ((hcond0_0 ⟨n + 1, hn⟩).mp h)) ((hcond0_1 ⟨n + 1, hn⟩).mpr h1) (outsAt0 c n (Nat.lt_of_succ_lt hn))
      else
        caseB m c ⟨n + 1, hn⟩ (fun h => h0 ((hcond0_0 ⟨n + 1, hn⟩).mp h)) (fun h => h1 ((hcond0_1 ⟨n + 1, hn⟩).mp h)) (outsAt0 c n (Nat.lt_of_succ_lt hn))

theorem outsAt0_A (c : Dev nD) (t : Fin cfg0.N) (h0 : t.val % 8 = 0) (h1 : ¬t.val % 8 = 7) :
    outsAt0 m c t.val t.isLt = caseA m c t ((hcond0_0 t).mpr h0) (fun h => h1 ((hcond0_1 t).mp h)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt = caseB m c t (fun h => h0 ((hcond0_0 t).mp h)) (fun h => h1 ((hcond0_1 t).mp h)) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = caseC m c t (fun h => h0 ((hcond0_0 t).mp h)) ((hcond0_1 t).mpr h1) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The six accumulators at the contents `p` names, and the generator register. -/
def accs (c : Dev nD) (p : Outs F) : sProp 𝕄 :=
  iprop(iprop(owns (c : Thread nD τ) scM0_0 fullShare p.s0 ∗ owns (c : Thread nD τ) scM0_1 fullShare p.s1 ∗ owns (c : Thread nD τ) scM0_2 fullShare p.s2 ∗ owns (c : Thread nD τ) scM0_3 fullShare p.s3 ∗ owns (c : Thread nD τ) scM0_4 fullShare p.s4 ∗ owns (c : Thread nD τ) scM0_5 fullShare p.s5) ∗ (∃ r, prngReg c r))

def PhiS (c : Dev nD) : (n : ℕ) → n ≤ cfg0.N → sProp 𝕄
  | 0, _ => Pipeline.ΦA spec0 c
  | n + 1, hn => accs c (outsAt0 m c n hn)

theorem PhiS_succ (c : Dev nD) (n : ℕ) (hn : n < cfg0.N) : PhiS m c (n + 1) hn = accs c (outsAt0 m c n hn) := rfl

theorem PhiS_pos (c : Dev nD) (n : ℕ) (h : n ≤ cfg0.N) (hz : n ≠ 0) :
    PhiS m c n h = accs c (outsAt0 m c (n - 1) (by omega)) := by
  cases n with
  | zero => exact absurd rfl hz
  | succ n => rfl

/-- Whatever the accumulators hold, they are held: the invariant before any point gives the region's entry invariant back. -/
theorem PhiS_any (c : Dev nD) (n : ℕ) (h : n ≤ cfg0.N) : PhiS m c n h ⊢ Pipeline.ΦA spec0 c := by
  cases n with
  | zero => exact Idealize.SL.BI.Entails.refl _
  | succ n =>
    rw [PhiS_succ, PhiA0_eq]; unfold accs
    iintro ⟨⟨HS0, HS1, HS2, HS3, HS4, HS5⟩, Hg⟩
    isplitr [Hg]
    swap; · iexact Hg
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).o3
    | ⟨4, _⟩ => (outsAt0 m c t.val t.isLt).o4
    | ⟨5, _⟩ => (outsAt0 m c t.val t.isLt).o5
    | ⟨6, _⟩ => (outsAt0 m c t.val t.isLt).o6
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).o3 := by dsimp only [dats]
theorem after0_4 (c : Dev nD) (t : Fin cfg0.N) : (dats m 0 c).after 4 t = (outsAt0 m c t.val t.isLt).o4 := by dsimp only [dats]
theorem after0_5 (c : Dev nD) (t : Fin cfg0.N) : (dats m 0 c).after 5 t = (outsAt0 m c t.val t.isLt).o5 := by dsimp only [dats]
theorem after0_6 (c : Dev nD) (t : Fin cfg0.N) : (dats m 0 c).after 6 t = (outsAt0 m c t.val t.isLt).o6 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

end Cert.KernelIdeal.Fr

end
-- ==== Proof.KI.Body.lean ====
import proofs.«119910_j28707561407033_1_alg».proof.Proof.KI.FrameDefs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A whole buffer every index of which some stored piece covers holds the pieces read back, whatever it held before. -/
theorem owns_of_cover {S : Shape} (c : Dev nD) (M : Memref sig .tc .vmem S .f32) (V' : View sig .tc .vmem S .f32)
    (L : List (View.Piece (Elt F) S .f32)) (hcov : ∀ y : S.Idx, ∃ pc ∈ L, y ∈ pc.1.set) :
    (iprop(∃ f, M.view.loc (c : Thread nD τ) ↦[M.view.set]{fullShare} M.view.writes (Elt F) f L) : sProp 𝕄)
      ⊢ owns (c : Thread nD τ) M fullShare (V'.read (Elt F) (V'.writes (Elt F) V'.junk L)) := by
  unfold owns
  iintro ⟨%f, H⟩
  iexists _; isplitr
  swap; · iexact H
  ipureintro; exact View.read_writes_of_cover _ _ _ _ _ hcov

set_option maxHeartbeats 4000000 in
/-- The first point of a row: the accumulators, at whatever they hold, are reset and take the point's tile sums. -/
theorem sound_A (c : Dev nD) (t : Fin cfg0.N) (h0 : t.val % 8 = 0) (h1 : ¬t.val % 8 = 7) :
    bodyPre m c t ⊢ wp frame (wpE (defs₀ (F := F)) Variants.none c none) Set.univ (bodyAt0 t) (fun _ => bodyPost m c t) := by
  have hc1 : ¬cond0_1 (grid0.coords t) := fun h => h1 ((hcond0_1 t).mp h)
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  unfold accs
  rw [show (dats m 0 c).leavesExact 0 t = owns (c : Thread nD τ) (ms0_0 t) fullShare ((dats m 0 c).after 0 t) from by
    unfold Dat.leavesExact; rw [liveIn0 t 0 (by decide)], after0_0]
  rw [show (dats m 0 c).leavesExact 1 t = owns (c : Thread nD τ) (ms0_1 t) fullShare ((dats m 0 c).after 1 t) from by
    unfold Dat.leavesExact; rw [liveIn0 t 1 (by decide)], after0_1]
  rw [show (dats m 0 c).leavesExact 2 t = owns (c : Thread nD τ) (ms0_2 t) fullShare ((dats m 0 c).after 2 t) from by
    unfold Dat.leavesExact; rw [liveIn0 t 2 (by decide)], after0_2]
  rw [Dat.leavesExact_idle (dats m 0 c) 3 t (idleOut0 t 3 (by decide) hc1).1 (idleOut0 t 3 (by decide) hc1).2]
  rw [Dat.leavesExact_idle (dats m 0 c) 4 t (idleOut0 t 4 (by decide) hc1).1 (idleOut0 t 4 (by decide) hc1).2]
  rw [Dat.leavesExact_idle (dats m 0 c) 5 t (idleOut0 t 5 (by decide) hc1).1 (idleOut0 t 5 (by decide) hc1).2]
  rw [Dat.leavesExact_idle (dats m 0 c) 6 t (idleOut0 t 6 (by decide) hc1).1 (idleOut0 t 6 (by decide) hc1).2]
  rw [outsAt0_A m c t h0 h1]
  unfold caseA; (try dsimp only)
  rw [PhiS_castSucc m c t]
  refine (sep_mono_left (PhiS_any m c _ _)).trans ?_
  rw [PhiA0_eq]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩⟩
  iapply ((runA m c t ((hcond0_0 t).mpr h0) hc1).2.2.2.2.2.2 _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, HS0, HS1, HS2, HS3, HS4, HS5⟩
  isplitl [HS0 HS1 HS2 HS3 HS4 HS5 Hg]
  · isplitr [Hg]
    swap; · iexact Hg
    isplitl [HS0]; · iapply (owns_of_cover c scM0_0 VS0_0 _ (scover0_A_0 m c t _ _)) $$ HS0
    isplitl [HS1]; · iapply (owns_of_cover c scM0_1 VS0_1 _ (scover0_A_1 m c t _ _)) $$ HS1
    isplitl [HS2]; · iapply (owns_of_cover c scM0_2 VS0_2 _ (scover0_A_2 m c t _ _)) $$ HS2
    isplitl [HS3]; · iapply (owns_of_cover c scM0_3 VS0_3 _ (scover0_A_3 m c t _ _)) $$ HS3
    isplitl [HS4]; · iapply (owns_of_cover c scM0_4 VS0_4 _ (scover0_A_4 m c t _ _)) $$ HS4
    iapply (owns_of_cover c scM0_5 VS0_5 _ (scover0_A_5 m c t _ _)) $$ HS5
  isplitl [Ho]; · iexact Ho
  isplitl [H0]; · iexact H0
  isplitl [H1]; · iexact H1
  isplitl [H2]; · iexact H2
  isplitl [H3]; · iexists _; iexact H3
  isplitl [H4]; · iexists _; iexact H4
  isplitl [H5]; · iexists _; iexact H5
  iexists _; iexact H6

set_option maxHeartbeats 4000000 in
/-- A middle point of a row: each accumulator takes the point's tile sum over what the point before left. -/
theorem sound_B (c : Dev nD) (t : Fin cfg0.N) (h0 : ¬t.val % 8 = 0) (h1 : ¬t.val % 8 = 7) :
    bodyPre m c t ⊢ wp frame (wpE (defs₀ (F := F)) Variants.none c none) Set.univ (bodyAt0 t) (fun _ => bodyPost m c t) := by
  have hz : t.val ≠ 0 := fun h => h0 (by rw [h])
  have hc1 : ¬cond0_1 (grid0.coords t) := fun h => h1 ((hcond0_1 t).mp h)
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  unfold accs
  rw [show (dats m 0 c).leavesExact 0 t = owns (c : Thread nD τ) (ms0_0 t) fullShare ((dats m 0 c).after 0 t) from by
    unfold Dat.leavesExact; rw [liveIn0 t 0 (by decide)], after0_0]
  rw [show (dats m 0 c).leavesExact 1 t = owns (c : Thread nD τ) (ms0_1 t) fullShare ((dats m 0 c).after 1 t) from by
    unfold Dat.leavesExact; rw [liveIn0 t 1 (by decide)], after0_1]
  rw [show (dats m 0 c).leavesExact 2 t = owns (c : Thread nD τ) (ms0_2 t) fullShare ((dats m 0 c).after 2 t) from by
    unfold Dat.leavesExact; rw [liveIn0 t 2 (by decide)], after0_2]
  rw [Dat.leavesExact_idle (dats m 0 c) 3 t (idleOut0 t 3 (by decide) hc1).1 (idleOut0 t 3 (by decide) hc1).2]
  rw [Dat.leavesExact_idle (dats m 0 c) 4 t (idleOut0 t 4 (by decide) hc1).1 (idleOut0 t 4 (by decide) hc1).2]
  rw [Dat.leavesExact_idle (dats m 0 c) 5 t (idleOut0 t 5 (by decide) hc1).1 (idleOut0 t 5 (by decide) hc1).2]
  rw [Dat.leavesExact_idle (dats m 0 c) 6 t (idleOut0 t 6 (by decide) hc1).1 (idleOut0 t 6 (by decide) hc1).2]
  rw [outsAt0_B m c t h0 h1]
  unfold caseB; (try dsimp only)
  rw [PhiS_castSucc m c t, PhiS_pos m c _ _ hz]
  unfold accs
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩⟩
  iapply ((runB m c t (fun h => h0 ((hcond0_0 t).mp h)) hc1 (outsAt0 m c (t.val - 1) (Nat.lt_of_le_of_lt (Nat.sub_le _ _) t.isLt))).2.2.2.2.2.2 _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, HS0, HS1, HS2, HS3, HS4, HS5⟩
  isplitl [HS0 HS1 HS2 HS3 HS4 HS5 Hg]
  · isplitr [Hg]
    swap; · iexact Hg
    isplitl [HS0]; · iapply (owns_of_cover c scM0_0 VS0_0 _ (scover0_B_0 m c t _ _ _)) $$ HS0
    isplitl [HS1]; · iapply (owns_of_cover c scM0_1 VS0_1 _ (scover0_B_1 m c t _ _ _)) $$ HS1
    isplitl [HS2]; · iapply (owns_of_cover c scM0_2 VS0_2 _ (scover0_B_2 m c t _ _ _)) $$ HS2
    isplitl [HS3]; · iapply (owns_of_cover c scM0_3 VS0_3 _ (scover0_B_3 m c t _ _ _)) $$ HS3
    isplitl [HS4]; · iapply (owns_of_cover c scM0_4 VS0_4 _ (scover0_B_4 m c t _ _ _)) $$ HS4
    iapply (owns_of_cover c scM0_5 VS0_5 _ (scover0_B_5 m c t _ _ _)) $$ HS5
  isplitl [Ho]; · iexact Ho
  isplitl [H0]; · iexact H0
  isplitl [H1]; · iexact H1
  isplitl [H2]; · iexact H2
  isplitl [H3]; · iexists _; iexact H3
  isplitl [H4]; · iexists _; iexact H4
  isplitl [H5]; · iexists _; iexact H5
  iexists _; iexact H6

set_option maxHeartbeats 4000000 in
/-- The last point of a row: the accumulators take the point's tile sums and the four results are stored whole. -/
theorem sound_C (c : Dev nD) (t : Fin cfg0.N) (h0 : ¬t.val % 8 = 0) (h1 : t.val % 8 = 7) :
    bodyPre m c t ⊢ wp frame (wpE (defs₀ (F := F)) Variants.none c none) Set.univ (bodyAt0 t) (fun _ => bodyPost m c t) := by
  have hz : t.val ≠ 0 := fun h => h0 (by rw [h])
  have hc1 : cond0_1 (grid0.coords t) := (hcond0_1 t).mpr h1
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [PhiS_castSucc m c t, PhiS_pos m c _ _ hz]
  unfold accs
  rw [show (dats m 0 c).leavesExact 0 t = owns (c : Thread nD τ) (ms0_0 t) fullShare ((dats m 0 c).after 0 t) from by
    unfold Dat.leavesExact; rw [liveIn0 t 0 (by decide)], after0_0]
  rw [show (dats m 0 c).leavesExact 1 t = owns (c : Thread nD τ) (ms0_1 t) fullShare ((dats m 0 c).after 1 t) from by
    unfold Dat.leavesExact; rw [liveIn0 t 1 (by decide)], after0_1]
  rw [show (dats m 0 c).leavesExact 2 t = owns (c : Thread nD τ) (ms0_2 t) fullShare ((dats m 0 c).after 2 t) from by
    unfold Dat.leavesExact; rw [liveIn0 t 2 (by decide)], after0_2]
  rw [show (dats m 0 c).leavesExact 3 t = owns (c : Thread nD τ) (ms0_3 t) fullShare ((dats m 0 c).after 3 t) from by
    unfold Dat.leavesExact; rw [liveOut0 t 3 (by decide) hc1], after0_3]
  rw [show (dats m 0 c).leavesExact 4 t = owns (c : Thread nD τ) (ms0_4 t) fullShare ((dats m 0 c).after 4 t) from by
    unfold Dat.leavesExact; rw [liveOut0 t 4 (by decide) hc1], after0_4]
  rw [show (dats m 0 c).leavesExact 5 t = owns (c : Thread nD τ) (ms0_5 t) fullShare ((dats m 0 c).after 5 t) from by
    unfold Dat.leavesExact; rw [liveOut0 t 5 (by decide) hc1], after0_5]
  rw [show (dats m 0 c).leavesExact 6 t = owns (c : Thread nD τ) (ms0_6 t) fullShare ((dats m 0 c).after 6 t) from by
    unfold Dat.leavesExact; rw [liveOut0 t 6 (by decide) hc1], after0_6]
  rw [outsAt0_C m c t h0 h1]
  unfold caseC; (try dsimp only)
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩⟩
  iapply ((runC m c t (fun h => h0 ((hcond0_0 t).mp h)) hc1 (outsAt0 m c (t.val - 1) (Nat.lt_of_le_of_lt (Nat.sub_le _ _) t.isLt))).2.2.2.2.2.2.2.2.2.2 Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, HS0, HS1, HS2, HS3, HS4, HS5⟩
  isplitl [HS0 HS1 HS2 HS3 HS4 HS5 Hg]
  · isplitr [Hg]
    swap; · iexact Hg
    isplitl [HS0]; · iapply (owns_of_cover c scM0_0 VS0_0 _ (scover0_C_0 m c t _ _ _)) $$ HS0
    isplitl [HS1]; · iapply (owns_of_cover c scM0_1 VS0_1 _ (scover0_C_1 m c t _ _ _)) $$ HS1
    isplitl [HS2]; · iapply (owns_of_cover c scM0_2 VS0_2 _ (scover0_C_2 m c t _ _ _)) $$ HS2
    isplitl [HS3]; · iapply (owns_of_cover c scM0_3 VS0_3 _ (scover0_C_3 m c t _ _ _)) $$ HS3
    isplitl [HS4]; · iapply (owns_of_cover c scM0_4 VS0_4 _ (scover0_C_4 m c t _ _ _)) $$ HS4
    iapply (owns_of_cover c scM0_5 VS0_5 _ (scover0_C_5 m c t _ _ _)) $$ HS5
  isplitl [Ho]; · iexact Ho
  isplitl [H0]; · iexact H0
  isplitl [H1]; · iexact H1
  isplitl [H2]; · iexact H2
  isplitl [H3]; · iapply (owns_of_cover c (ms0_3 t) VO0_3 _ (cover0_C_3 m c t _ _ _)) $$ H3
  isplitl [H4]; · iapply (owns_of_cover c (ms0_4 t) VO0_4 _ (cover0_C_4 m c t _ _ _)) $$ H4
  isplitl [H5]; · iapply (owns_of_cover c (ms0_5 t) VO0_5 _ (cover0_C_5 m c t _ _ _)) $$ H5
  iapply (owns_of_cover c (ms0_6 t) VO0_6 _ (cover0_C_6 m c t _ _ _)) $$ H6

end Cert.KernelIdeal.Fr

end
-- ==== Proof.KI.Frame.lean ====
import proofs.«119910_j28707561407033_1_alg».proof.Proof.KI.Body

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem sound_body (c : Dev nD) (t : Fin cfg0.N) :
    bodyPre m c t ⊢ wp frame (wpE (defs₀ (F := F)) Variants.none c none) Set.univ (bodyAt0 t) (fun _ => bodyPost m c t) := by
  by_cases h0 : t.val % 8 = 0
  · exact sound_A m c t h0 (by omega)
  · by_cases h1 : t.val % 8 = 7
    · exact sound_C m c t h0 h1
    · exact sound_B m c t h0 h1

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := Idealize.SL.BI.Entails.refl _

theorem hout (c : Dev nD) : (dats m 0 c).Φ (Fin.last cfg0.N) ⊢ Pipeline.ΦA spec0 c :=
  PhiS_any m c _ (Nat.le_of_lt_succ (Fin.last cfg0.N).isLt)

set_option backward.isDefEq.respectTransparency.types false in
/-- Every weakly fair execution of the program terminates, the region's arrays ending at what the proof data name. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- The program runs to the end, faults nowhere, and leaves its three argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Fr

end
-- ==== Proof.KI.VNames.lean ====
import proofs.«119910_j28707561407033_1_alg».proof.Proof.KI.Kit

noncomputable section

namespace Cert.KernelIdeal.KValue

open Cert.KernelIdeal Cert.KernelIdeal.Gen Cert.KernelIdeal.Fr
open Idealize.ShloMosaic Idealize.ShloMosaic.TcCoe Idealize.SL.Sem

variable {F : FTy → Type} [FloatOps F]
variable (m : (ℓ : Loc nD τ sig) → Buf (Elt F) ℓ)

abbrev xblk (c : Dev nD) (t : Fin cfg0.N) : Vec F S32x4x32x256 .f32 := iblk m c 0 t

abbrev tblk (c : Dev nD) (t : Fin cfg0.N) : Vec F S32x1x32x256 .f32 := iblk m c 1 t

abbrev qblk (c : Dev nD) (t : Fin cfg0.N) : Vec F S32x4 .f32 := iblk m c 2 t

abbrev xarr (c : Dev nD) : Vec F S128x4x256x256 .f32 := V m c main_arg0

abbrev tarr (c : Dev nD) : Vec F S128x1x256x256 .f32 := V m c main_arg2

abbrev qarr (c : Dev nD) : Vec F S128x4 .f32 := V m c main_arg1

end Cert.KernelIdeal.KValue

end
-- ==== Proof.KI.VPieceA.lean ====
import proofs.«119910_j28707561407033_1_alg».proof.Proof.KI.RunA
import Idealize.ShloMosaic.Lib.Pipeline.Value

set_option maxRecDepth 16384

noncomputable section

namespace Cert.KernelIdeal.KValue

open Cert.KernelIdeal Cert.KernelIdeal.Gen Cert.KernelIdeal.Fr
open Idealize.ShloMosaic Idealize.ShloMosaic.TcCoe Idealize.ShloMosaic.Tactic
open Idealize.SL.Sem

variable {F : FTy → Type} [FloatOps F]

private theorem hz2 : (![0, 0] : Fin 2 → Nat) = fun _ => 0 := funext fun a => by fin_cases a <;> rfl
private theorem hz4 : (![0, 0, 0, 0] : Fin 4 → Nat) = fun _ => 0 := funext fun a => by fin_cases a <;> rfl

section A

variable (c : Dev nD) (i : grid0.Coords)
  (arg2 : Memref sig .tc .vmem S32x4x32x256 .f32) (harg2 : arg2.IsWhole)
  (arg3 : Memref sig .tc .vmem S32x1x32x256 .f32) (harg3 : arg3.IsWhole)
  (arg4 : Memref sig .tc .vmem S32x4 .f32) (harg4 : arg4.IsWhole)
  (arg5 : Memref sig .tc .vmem S32x4 .f32) (harg5 : arg5.IsWhole)
  (arg6 : Memref sig .tc .vmem S32x4 .f32) (harg6 : arg6.IsWhole)
  (arg7 : Memref sig .tc .vmem S32x4 .f32) (harg7 : arg7.IsWhole)
  (arg8 : Memref sig .tc .vmem S32x1 .f32) (harg8 : arg8.IsWhole)
  (arg9 : Memref sig .tc .vmem S32x4 .f32) (harg9 : arg9.IsWhole)
  (arg10 : Memref sig .tc .vmem S32x4 .f32) (harg10 : arg10.IsWhole)
  (arg11 : Memref sig .tc .vmem S32x4 .f32) (harg11 : arg11.IsWhole)
  (arg12 : Memref sig .tc .vmem S32x4 .f32) (harg12 : arg12.IsWhole)
  (arg13 : Memref sig .tc .vmem S32x4 .f32) (harg13 : arg13.IsWhole)
  (arg14 : Memref sig .tc .vmem S32x1 .f32) (harg14 : arg14.IsWhole)
  (hc0 : cond0_0 i) (hc1 : ¬cond0_1 i)
  (x0 : Vec F S32x4x32x256 .f32) (x1 : Vec F S32x1x32x256 .f32) (x2 : Vec F S32x4 .f32)

local notation "runA" => (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2)

/-- Each buffer's pieces read back are the skeleton's payloads of what the run loaded: every store of the run is whole, so the last one decides. -/
theorem runA_pieces :
    ((∀ y : S32x4.Idx, ∃ pc ∈ (runA).1, y ∈ pc.1.set) →
      arg9.view.read (Elt F) (arg9.view.writes (Elt F) arg9.view.junk (runA).1) = k0_pay13 x0 x1 k0_pay6) ∧
    ((∀ y : S32x4.Idx, ∃ pc ∈ (runA).2.1, y ∈ pc.1.set) →
      arg10.view.read (Elt F) (arg10.view.writes (Elt F) arg10.view.junk (runA).2.1)
        = k0_pay17 (k0_pay14 x0) (Scalar.ofBits .f32 0x38D1B717#32) k0_pay7) ∧
    ((∀ y : S32x4.Idx, ∃ pc ∈ (runA).2.2.1, y ∈ pc.1.set) →
      arg11.view.read (Elt F) (arg11.view.writes (Elt F) arg11.view.junk (runA).2.2.1)
        = k0_pay16 (k0_pay12 x1) (k0_pay14 x0) (Scalar.ofBits .f32 0x38D1B717#32) k0_pay8) ∧
    ((∀ y : S32x4.Idx, ∃ pc ∈ (runA).2.2.2.1, y ∈ pc.1.set) →
      arg12.view.read (Elt F) (arg12.view.writes (Elt F) arg12.view.junk (runA).2.2.2.1)
        = k0_pay1 (k0_pay20 x0) k0_pay9) ∧
    ((∀ y : S32x4.Idx, ∃ pc ∈ (runA).2.2.2.2.1, y ∈ pc.1.set) →
      arg13.view.read (Elt F) (arg13.view.writes (Elt F) arg13.view.junk (runA).2.2.2.2.1)
        = k0_pay19 x0 (k0_pay12 x1) k0_pay10) ∧
    ((∀ y : S32x1.Idx, ∃ pc ∈ (runA).2.2.2.2.2.1, y ∈ pc.1.set) →
      arg14.view.read (Elt F) (arg14.view.writes (Elt F) arg14.view.junk (runA).2.2.2.2.2.1)
        = k0_pay2 x1 k0_pay11) := by
  refine ⟨?_, ?_, ?_, ?_, ?_, ?_⟩
  all_goals
    intros
    rename_i hcov
    rw [View.read_writes_eq_canon _ _ _ hcov]
    unfold kernelRun0_A
    dsimp only
    sl_unfold_words
    first
      | rw [View.canon_cons_unit_zero (S := S32x4) hz2, View.readCov_unit_zero (S := S32x4) _ hz2]
      | rw [View.canon_cons_unit_zero (S := S32x1) hz2, View.readCov_unit_zero (S := S32x1) _ hz2]
    simp only [View.readAt_eq_ld, harg2.read_unread, harg3.read_unread, View.ld_unit_zero (S := S32x4) hz2, View.ld_unit_zero (S := S32x4x32x256) hz4, View.ld_unit_zero (S := S32x1x32x256) hz4, View.ld_unit_zero (S := S32x1) hz2]

end A

end Cert.KernelIdeal.KValue

end
-- ==== Proof.KI.VPieceB.lean ====
import proofs.«119910_j28707561407033_1_alg».proof.Proof.KI.RunB
import Idealize.ShloMosaic.Lib.Pipeline.Value

set_option maxRecDepth 16384

noncomputable section

namespace Cert.KernelIdeal.KValue

open Cert.KernelIdeal Cert.KernelIdeal.Gen Cert.KernelIdeal.Fr
open Idealize.ShloMosaic Idealize.ShloMosaic.TcCoe Idealize.ShloMosaic.Tactic
open Idealize.SL.Sem

variable {F : FTy → Type} [FloatOps F]

private theorem hz2 : (![0, 0] : Fin 2 → Nat) = fun _ => 0 := funext fun a => by fin_cases a <;> rfl
private theorem hz4 : (![0, 0, 0, 0] : Fin 4 → Nat) = fun _ => 0 := funext fun a => by fin_cases a <;> rfl

section B

variable (c : Dev nD) (i : grid0.Coords)
  (arg2 : Memref sig .tc .vmem S32x4x32x256 .f32) (harg2 : arg2.IsWhole)
  (arg3 : Memref sig .tc .vmem S32x1x32x256 .f32) (harg3 : arg3.IsWhole)
  (arg4 : Memref sig .tc .vmem S32x4 .f32) (harg4 : arg4.IsWhole)
  (arg5 : Memref sig .tc .vmem S32x4 .f32) (harg5 : arg5.IsWhole)
  (arg6 : Memref sig .tc .vmem S32x4 .f32) (harg6 : arg6.IsWhole)
  (arg7 : Memref sig .tc .vmem S32x4 .f32) (harg7 : arg7.IsWhole)
  (arg8 : Memref sig .tc .vmem S32x1 .f32) (harg8 : arg8.IsWhole)
  (arg9 : Memref sig .tc .vmem S32x4 .f32) (harg9 : arg9.IsWhole)
  (arg10 : Memref sig .tc .vmem S32x4 .f32) (harg10 : arg10.IsWhole)
  (arg11 : Memref sig .tc .vmem S32x4 .f32) (harg11 : arg11.IsWhole)
  (arg12 : Memref sig .tc .vmem S32x4 .f32) (harg12 : arg12.IsWhole)
  (arg13 : Memref sig .tc .vmem S32x4 .f32) (harg13 : arg13.IsWhole)
  (arg14 : Memref sig .tc .vmem S32x1 .f32) (harg14 : arg14.IsWhole)
  (hc0 : ¬cond0_0 i) (hc1 : ¬cond0_1 i)
  (x0 : Vec F S32x4x32x256 .f32) (x1 : Vec F S32x1x32x256 .f32) (x2 : Vec F S32x4 .f32)
  (xs0 xs1 xs2 xs3 xs4 : Vec F S32x4 .f32) (xs5 : Vec F S32x1 .f32)

local notation "runB" => (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 xs0 xs1 xs2 xs3 xs4 xs5)

/-- Each buffer's pieces read back are the skeleton's payloads of what the run loaded: every store of the run is whole, so the last one decides. -/
theorem runB_pieces :
    ((∀ y : S32x4.Idx, ∃ pc ∈ (runB).1, y ∈ pc.1.set) →
      arg9.view.read (Elt F) (arg9.view.writes (Elt F) arg9.view.junk (runB).1) = k0_pay13 x0 x1 xs0) ∧
    ((∀ y : S32x4.Idx, ∃ pc ∈ (runB).2.1, y ∈ pc.1.set) →
      arg10.view.read (Elt F) (arg10.view.writes (Elt F) arg10.view.junk (runB).2.1)
        = k0_pay17 (k0_pay14 x0) (Scalar.ofBits .f32 0x38D1B717#32) xs1) ∧
    ((∀ y : S32x4.Idx, ∃ pc ∈ (runB).2.2.1, y ∈ pc.1.set) →
      arg11.view.read (Elt F) (arg11.view.writes (Elt F) arg11.view.junk (runB).2.2.1)
        = k0_pay16 (k0_pay12 x1) (k0_pay14 x0) (Scalar.ofBits .f32 0x38D1B717#32) xs2) ∧
    ((∀ y : S32x4.Idx, ∃ pc ∈ (runB).2.2.2.1, y ∈ pc.1.set) →
      arg12.view.read (Elt F) (arg12.view.writes (Elt F) arg12.view.junk (runB).2.2.2.1)
        = k0_pay1 (k0_pay20 x0) xs3) ∧
    ((∀ y : S32x4.Idx, ∃ pc ∈ (runB).2.2.2.2.1, y ∈ pc.1.set) →
      arg13.view.read (Elt F) (arg13.view.writes (Elt F) arg13.view.junk (runB).2.2.2.2.1)
        = k0_pay19 x0 (k0_pay12 x1) xs4) ∧
    ((∀ y : S32x1.Idx, ∃ pc ∈ (runB).2.2.2.2.2.1, y ∈ pc.1.set) →
      arg14.view.read (Elt F) (arg14.view.writes (Elt F) arg14.view.junk (runB).2.2.2.2.2.1)
        = k0_pay2 x1 xs5) := by
  refine ⟨?_, ?_, ?_, ?_, ?_, ?_⟩
  all_goals
    intros
    rename_i hcov
    rw [View.read_writes_eq_canon _ _ _ hcov]
    unfold kernelRun0_B
    dsimp only
    sl_unfold_words
    rw [View.canon_unit_zero hz2]
    simp only [View.readAt_eq_ld, harg2.read_unread, harg3.read_unread, harg9.read_unread, View.ld_unit_zero (S := S32x4) hz2, View.ld_unit_zero (S := S32x4x32x256) hz4, View.ld_unit_zero (S := S32x1x32x256) hz4, harg10.read_unread, harg11.read_unread, harg12.read_unread, harg13.read_unread, harg14.read_unread, View.ld_unit_zero (S := S32x1) hz2]

end B

end Cert.KernelIdeal.KValue

end
-- ==== Proof.KI.VPieceC.lean ====
import proofs.«119910_j28707561407033_1_alg».proof.Proof.KI.RunC
import Idealize.ShloMosaic.Lib.Pipeline.Value

set_option maxRecDepth 16384

noncomputable section

namespace Cert.KernelIdeal.KValue

open Cert.KernelIdeal Cert.KernelIdeal.Gen Cert.KernelIdeal.Fr
open Idealize.ShloMosaic Idealize.ShloMosaic.TcCoe Idealize.ShloMosaic.Tactic
open Idealize.SL.Sem

variable {F : FTy → Type} [FloatOps F]

private theorem hz2 : (![0, 0] : Fin 2 → Nat) = fun _ => 0 := funext fun a => by fin_cases a <;> rfl
private theorem hz4 : (![0, 0, 0, 0] : Fin 4 → Nat) = fun _ => 0 := funext fun a => by fin_cases a <;> rfl

section C

variable (c : Dev nD) (i : grid0.Coords)
  (arg2 : Memref sig .tc .vmem S32x4x32x256 .f32) (harg2 : arg2.IsWhole)
  (arg3 : Memref sig .tc .vmem S32x1x32x256 .f32) (harg3 : arg3.IsWhole)
  (arg4 : Memref sig .tc .vmem S32x4 .f32) (harg4 : arg4.IsWhole)
  (arg5 : Memref sig .tc .vmem S32x4 .f32) (harg5 : arg5.IsWhole)
  (arg6 : Memref sig .tc .vmem S32x4 .f32) (harg6 : arg6.IsWhole)
  (arg7 : Memref sig .tc .vmem S32x4 .f32) (harg7 : arg7.IsWhole)
  (arg8 : Memref sig .tc .vmem S32x1 .f32) (harg8 : arg8.IsWhole)
  (arg9 : Memref sig .tc .vmem S32x4 .f32) (harg9 : arg9.IsWhole)
  (arg10 : Memref sig .tc .vmem S32x4 .f32) (harg10 : arg10.IsWhole)
  (arg11 : Memref sig .tc .vmem S32x4 .f32) (harg11 : arg11.IsWhole)
  (arg12 : Memref sig .tc .vmem S32x4 .f32) (harg12 : arg12.IsWhole)
  (arg13 : Memref sig .tc .vmem S32x4 .f32) (harg13 : arg13.IsWhole)
  (arg14 : Memref sig .tc .vmem S32x1 .f32) (harg14 : arg14.IsWhole)
  (hc0 : ¬cond0_0 i) (hc1 : cond0_1 i)
  (x0 : Vec F S32x4x32x256 .f32) (x1 : Vec F S32x1x32x256 .f32) (x2 : Vec F S32x4 .f32)
  (xs0 xs1 xs2 xs3 xs4 : Vec F S32x4 .f32) (xs5 : Vec F S32x1 .f32)

local notation "runC" => (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 xs0 xs1 xs2 xs3 xs4 xs5)

/-- Each buffer's pieces read back are the skeleton's payloads of what the run loaded: every store of the run is whole, so the last one decides. -/
theorem runC_pieces :
    ((∀ y : S32x4.Idx, ∃ pc ∈ (runC).2.2.2.2.1, y ∈ pc.1.set) →
      arg9.view.read (Elt F) (arg9.view.writes (Elt F) arg9.view.junk (runC).2.2.2.2.1) = k0_pay13 x0 x1 xs0) ∧
    ((∀ y : S32x4.Idx, ∃ pc ∈ (runC).2.2.2.2.2.1, y ∈ pc.1.set) →
      arg10.view.read (Elt F) (arg10.view.writes (Elt F) arg10.view.junk (runC).2.2.2.2.2.1)
        = k0_pay17 (k0_pay14 x0) (Scalar.ofBits .f32 0x38D1B717#32) xs1) ∧
    ((∀ y : S32x4.Idx, ∃ pc ∈ (runC).2.2.2.2.2.2.1, y ∈ pc.1.set) →
      arg11.view.read (Elt F) (arg11.view.writes (Elt F) arg11.view.junk (runC).2.2.2.2.2.2.1)
        = k0_pay16 (k0_pay12 x1) (k0_pay14 x0) (Scalar.ofBits .f32 0x38D1B717#32) xs2) ∧
    ((∀ y : S32x4.Idx, ∃ pc ∈ (runC).2.2.2.2.2.2.2.1, y ∈ pc.1.set) →
      arg12.view.read (Elt F) (arg12.view.writes (Elt F) arg12.view.junk (runC).2.2.2.2.2.2.2.1)
        = k0_pay1 (k0_pay20 x0) xs3) ∧
    ((∀ y : S32x4.Idx, ∃ pc ∈ (runC).2.2.2.2.2.2.2.2.1, y ∈ pc.1.set) →
      arg13.view.read (Elt F) (arg13.view.writes (Elt F) arg13.view.junk (runC).2.2.2.2.2.2.2.2.1)
        = k0_pay19 x0 (k0_pay12 x1) xs4) ∧
    ((∀ y : S32x1.Idx, ∃ pc ∈ (runC).2.2.2.2.2.2.2.2.2.1, y ∈ pc.1.set) →
      arg14.view.read (Elt F) (arg14.view.writes (Elt F) arg14.view.junk (runC).2.2.2.2.2.2.2.2.2.1)
        = k0_pay2 x1 xs5) ∧
    (∀ VO : View sig .tc .vmem S32x4 .f32, (∀ y : S32x4.Idx, ∃ pc ∈ (runC).1, y ∈ pc.1.set) →
      VO.read (Elt F) (VO.writes (Elt F) VO.junk (runC).1) = k0_pay3 (k0_pay13 x0 x1 xs0)) ∧
    (∀ VO : View sig .tc .vmem S32x4 .f32, (∀ y : S32x4.Idx, ∃ pc ∈ (runC).2.1, y ∈ pc.1.set) →
      VO.read (Elt F) (VO.writes (Elt F) VO.junk (runC).2.1)
        = k0_pay4 (k0_pay2 x1 xs5) (k0_pay16 (k0_pay12 x1) (k0_pay14 x0) (Scalar.ofBits .f32 0x38D1B717#32) xs2)
        (k0_pay17 (k0_pay14 x0) (Scalar.ofBits .f32 0x38D1B717#32) xs1)) ∧
    (∀ VO : View sig .tc .vmem S32x4 .f32, (∀ y : S32x4.Idx, ∃ pc ∈ (runC).2.2.1, y ∈ pc.1.set) →
      VO.read (Elt F) (VO.writes (Elt F) VO.junk (runC).2.2.1)
        = k0_pay5 (k0_pay2 x1 xs5) (k0_pay19 x0 (k0_pay12 x1) xs4) (k0_pay1 (k0_pay20 x0) xs3)
        (k0_pay19 x0 (k0_pay12 x1) xs4) x2) ∧
    (∀ VO : View sig .tc .vmem S32x1 .f32, (∀ y : S32x1.Idx, ∃ pc ∈ (runC).2.2.2.1, y ∈ pc.1.set) →
      VO.read (Elt F) (VO.writes (Elt F) VO.junk (runC).2.2.2.1) = k0_pay2 x1 xs5) := by
  refine ⟨?_, ?_, ?_, ?_, ?_, ?_, ?_, ?_, ?_, ?_⟩
  all_goals
    intros
    rename_i hcov
    rw [View.read_writes_eq_canon _ _ _ hcov]
    unfold kernelRun0_C
    dsimp only
    sl_unfold_words
    rw [View.canon_unit_zero hz2]
    simp only [View.readAt_eq_ld, harg2.read_unread, harg3.read_unread, harg9.read_unread, View.ld_unit_zero (S := S32x4) hz2, View.ld_unit_zero (S := S32x4x32x256) hz4, View.ld_unit_zero (S := S32x1x32x256) hz4, harg10.read_unread, harg11.read_unread, harg12.read_unread, harg13.read_unread, harg14.read_unread, View.ld_unit_zero (S := S32x1) hz2, View.readCov_unit_zero (S := S32x4) _ hz2, View.readCov_unit_zero (S := S32x1) _ hz2, harg4.read_unread]

end C

end Cert.KernelIdeal.KValue

end
-- ==== Proof.KI.VCases.lean ====
import proofs.«119910_j28707561407033_1_alg».proof.Proof.KI.FrameDefs
import proofs.«119910_j28707561407033_1_alg».proof.Proof.KI.VNames
import proofs.«119910_j28707561407033_1_alg».proof.Proof.KI.VPieceA
import proofs.«119910_j28707561407033_1_alg».proof.Proof.KI.VPieceB
import proofs.«119910_j28707561407033_1_alg».proof.Proof.KI.VPieceC

noncomputable section

namespace Cert.KernelIdeal.KValue

open Cert.KernelIdeal Cert.KernelIdeal.Gen Cert.KernelIdeal.Fr
open Idealize.ShloMosaic Idealize.ShloMosaic.TcCoe Idealize.SL.Sem

variable {F : FTy → Type} [FloatOps F]
variable (m : (ℓ : Loc nD τ sig) → Buf (Elt F) ℓ)

abbrev epsK : F .f32 := Scalar.ofBits .f32 0x38D1B717#32

section A

variable (c : Dev nD) (t : Fin cfg0.N) (hc0 : cond0_0 (grid0.coords t)) (hc1 : ¬cond0_1 (grid0.coords t))

local notation "atA" f:max => f c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 (iblk m c 0 t) (iblk m c 1 t) (iblk m c 2 t)

theorem caseA_s0 : (caseA m c t hc0 hc1).s0 = k0_pay13 (xblk m c t) (tblk m c t) k0_pay6 :=
  (atA runA_pieces).1 (scover0_A_0 m c t hc0 hc1)
theorem caseA_s1 : (caseA m c t hc0 hc1).s1 = k0_pay17 (k0_pay14 (xblk m c t)) epsK k0_pay7 :=
  (atA runA_pieces).2.1 (scover0_A_1 m c t hc0 hc1)
theorem caseA_s2 : (caseA m c t hc0 hc1).s2 = k0_pay16 (k0_pay12 (tblk m c t)) (k0_pay14 (xblk m c t)) epsK k0_pay8 :=
  (atA runA_pieces).2.2.1 (scover0_A_2 m c t hc0 hc1)
theorem caseA_s3 : (caseA m c t hc0 hc1).s3 = k0_pay1 (k0_pay20 (xblk m c t)) k0_pay9 :=
  (atA runA_pieces).2.2.2.1 (scover0_A_3 m c t hc0 hc1)
theorem caseA_s4 : (caseA m c t hc0 hc1).s4 = k0_pay19 (xblk m c t) (k0_pay12 (tblk m c t)) k0_pay10 :=
  (atA runA_pieces).2.2.2.2.1 (scover0_A_4 m c t hc0 hc1)
theorem caseA_s5 : (caseA m c t hc0 hc1).s5 = k0_pay2 (tblk m c t) k0_pay11 :=
  (atA runA_pieces).2.2.2.2.2 (scover0_A_5 m c t hc0 hc1)

end A

section B

variable (c : Dev nD) (t : Fin cfg0.N) (hc0 : ¬cond0_0 (grid0.coords t)) (hc1 : ¬cond0_1 (grid0.coords t)) (p : Outs F)

local notation "atB" f:max => f c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 (iblk m c 0 t) (iblk m c 1 t) (iblk m c 2 t) p.s0 p.s1 p.s2 p.s3 p.s4 p.s5

theorem caseB_s0 : (caseB m c t hc0 hc1 p).s0 = k0_pay13 (xblk m c t) (tblk m c t) p.s0 :=
  (atB runB_pieces).1 (scover0_B_0 m c t hc0 hc1 p)
theorem caseB_s1 : (caseB m c t hc0 hc1 p).s1 = k0_pay17 (k0_pay14 (xblk m c t)) epsK p.s1 :=
  (atB runB_pieces).2.1 (scover0_B_1 m c t hc0 hc1 p)
theorem caseB_s2 : (caseB m c t hc0 hc1 p).s2 = k0_pay16 (k0_pay12 (tblk m c t)) (k0_pay14 (xblk m c t)) epsK p.s2 :=
  (atB runB_pieces).2.2.1 (scover0_B_2 m c t hc0 hc1 p)
theorem caseB_s3 : (caseB m c t hc0 hc1 p).s3 = k0_pay1 (k0_pay20 (xblk m c t)) p.s3 :=
  (atB runB_pieces).2.2.2.1 (scover0_B_3 m c t hc0 hc1 p)
theorem caseB_s4 : (caseB m c t hc0 hc1 p).s4 = k0_pay19 (xblk m c t) (k0_pay12 (tblk m c t)) p.s4 :=
  (atB runB_pieces).2.2.2.2.1 (scover0_B_4 m c t hc0 hc1 p)
theorem caseB_s5 : (caseB m c t hc0 hc1 p).s5 = k0_pay2 (tblk m c t) p.s5 :=
  (atB runB_pieces).2.2.2.2.2 (scover0_B_5 m c t hc0 hc1 p)

end B

section C

variable (c : Dev nD) (t : Fin cfg0.N) (hc0 : ¬cond0_0 (grid0.coords t)) (hc1 : cond0_1 (grid0.coords t)) (p : Outs F)

local notation "atC" f:max => f c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 (iblk m c 0 t) (iblk m c 1 t) (iblk m c 2 t) p.s0 p.s1 p.s2 p.s3 p.s4 p.s5

theorem caseC_s0 : (caseC m c t hc0 hc1 p).s0 = k0_pay13 (xblk m c t) (tblk m c t) p.s0 :=
  (atC runC_pieces).1 (scover0_C_0 m c t hc0 hc1 p)
theorem caseC_s1 : (caseC m c t hc0 hc1 p).s1 = k0_pay17 (k0_pay14 (xblk m c t)) epsK p.s1 :=
  (atC runC_pieces).2.1 (scover0_C_1 m c t hc0 hc1 p)
theorem caseC_s2 : (caseC m c t hc0 hc1 p).s2 = k0_pay16 (k0_pay12 (tblk m c t)) (k0_pay14 (xblk m c t)) epsK p.s2 :=
  (atC runC_pieces).2.2.1 (scover0_C_2 m c t hc0 hc1 p)
theorem caseC_s3 : (caseC m c t hc0 hc1 p).s3 = k0_pay1 (k0_pay20 (xblk m c t)) p.s3 :=
  (atC runC_pieces).2.2.2.1 (scover0_C_3 m c t hc0 hc1 p)
theorem caseC_s4 : (caseC m c t hc0 hc1 p).s4 = k0_pay19 (xblk m c t) (k0_pay12 (tblk m c t)) p.s4 :=
  (atC runC_pieces).2.2.2.2.1 (scover0_C_4 m c t hc0 hc1 p)
theorem caseC_s5 : (caseC m c t hc0 hc1 p).s5 = k0_pay2 (tblk m c t) p.s5 :=
  (atC runC_pieces).2.2.2.2.2.1 (scover0_C_5 m c t hc0 hc1 p)

theorem caseC_o3 : (caseC m c t hc0 hc1 p).o3 = k0_pay3 (caseC m c t hc0 hc1 p).s0 := by
  rw [caseC_s0 m c t hc0 hc1 p]
  exact (atC runC_pieces).2.2.2.2.2.2.1 VO0_3 (cover0_C_3 m c t hc0 hc1 p)
theorem caseC_o4 : (caseC m c t hc0 hc1 p).o4
    = k0_pay4 (caseC m c t hc0 hc1 p).s5 (caseC m c t hc0 hc1 p).s2 (caseC m c t hc0 hc1 p).s1 := by
  rw [caseC_s5 m c t hc0 hc1 p, caseC_s2 m c t hc0 hc1 p, caseC_s1 m c t hc0 hc1 p]
  exact (atC runC_pieces).2.2.2.2.2.2.2.1 VO0_4 (cover0_C_4 m c t hc0 hc1 p)
theorem caseC_o5 : (caseC m c t hc0 hc1 p).o5
    = k0_pay5 (caseC m c t hc0 hc1 p).s5 (caseC m c t hc0 hc1 p).s4 (caseC m c t hc0 hc1 p).s3
        (caseC m c t hc0 hc1 p).s4 (qblk m c t) := by
  rw [caseC_s5 m c t hc0 hc1 p, caseC_s4 m c t hc0 hc1 p, caseC_s3 m c t hc0 hc1 p]
  exact (atC runC_pieces).2.2.2.2.2.2.2.2.1 VO0_5 (cover0_C_5 m c t hc0 hc1 p)
theorem caseC_o6 : (caseC m c t hc0 hc1 p).o6 = (caseC m c t hc0 hc1 p).s5 := by
  rw [caseC_s5 m c t hc0 hc1 p]
  exact (atC runC_pieces).2.2.2.2.2.2.2.2.2 VO0_6 (cover0_C_6 m c t hc0 hc1 p)

end C

end Cert.KernelIdeal.KValue

end
-- ==== Proof.KI.VAccInv.lean ====
import proofs.«119910_j28707561407033_1_alg».proof.Proof.KI.FrameDefs
import Idealize.ShloMosaic.PureOps.Ideal
import Mathlib.Algebra.BigOperators.Group.Finset.Basic

noncomputable section

open scoped BigOperators

namespace Cert.KernelIdeal.KValue

open Cert.KernelIdeal Cert.KernelIdeal.Gen Cert.KernelIdeal.Fr
open Idealize.ShloMosaic Idealize.ShloMosaic.TcCoe Idealize.SL.Sem

variable (m : (ℓ : Loc nD τ sig) → Buf (Elt Ideal) ℓ)

/-- By induction on the grid point: a row's first point restarts the sum, each later point adds its tile. -/
theorem acc_inv (c : Dev nD) (proj : Outs Ideal → EReal) (tile : ℕ → ℕ → EReal)
    (hA : ∀ (t : Fin cfg0.N) hc0 hc1, proj (caseA m c t hc0 hc1) = 0 + tile (t.val / 8) (t.val % 8))
    (hB : ∀ (t : Fin cfg0.N) hc0 hc1 p, proj (caseB m c t hc0 hc1 p) = proj p + tile (t.val / 8) (t.val % 8))
    (hC : ∀ (t : Fin cfg0.N) hc0 hc1 p, proj (caseC m c t hc0 hc1 p) = proj p + tile (t.val / 8) (t.val % 8)) :
    ∀ (n : ℕ) (hn : n < cfg0.N), proj (outsAt0 m c n hn) = ∑ h ∈ Finset.range (n % 8 + 1), tile (n / 8) h
  | 0, hn => by
    rw [outsAt0_A m c ⟨0, hn⟩ (Nat.zero_mod 8) (by show ¬(0 : ℕ) % 8 = 7; decide), hA]
    show 0 + tile (0 / 8) (0 % 8) = _
    rw [zero_add, Nat.zero_mod, Finset.sum_range_one]
  | n + 1, hn => by
    by_cases h0 : (n + 1) % 8 = 0
    · have h1 : ¬(n + 1) % 8 = 7 := by omega
      rw [outsAt0_A m c ⟨n + 1, hn⟩ h0 h1, hA]
      show 0 + tile ((n + 1) / 8) ((n + 1) % 8) = _
      rw [h0, zero_add, Finset.sum_range_one]
    · have e1 : (n + 1) / 8 = n / 8 := by omega
      have e2 : (n + 1) % 8 = n % 8 + 1 := by omega
      by_cases h1 : (n + 1) % 8 = 7
      · rw [outsAt0_C m c ⟨n + 1, hn⟩ h0 h1, hC]
        show proj (outsAt0 m c n _) + tile ((n + 1) / 8) ((n + 1) % 8) = _
        rw [acc_inv c proj tile hA hB hC n (Nat.lt_of_succ_lt hn), e1, e2, Finset.sum_range_succ _ (n % 8 + 1)]
      · rw [outsAt0_B m c ⟨n + 1, hn⟩ h0 h1, hB]
        show proj (outsAt0 m c n _) + tile ((n + 1) / 8) ((n + 1) % 8) = _
        rw [acc_inv c proj tile hA hB hC n (Nat.lt_of_succ_lt hn), e1, e2, Finset.sum_range_succ _ (n % 8 + 1)]

end Cert.KernelIdeal.KValue

end
-- ==== Proof.LibFocalLaws.lean ====
import Idealize.ShloMosaic.Lib.IdealHost
import Mathlib.Analysis.SpecialFunctions.Pow.Real
import Mathlib.Analysis.SpecialFunctions.Log.Basic

noncomputable section

namespace Cert.LibFocalLaws

open Idealize.ShloMosaic

abbrev zeroLit : Ideal .f32 := FloatOps.ofBits (F := Ideal) .f32 0x00000000#32

abbrev oneLit : Ideal .f32 := FloatOps.ofBits (F := Ideal) .f32 0x3F800000#32

abbrev twoLit : Ideal .f32 := FloatOps.ofBits (F := Ideal) .f32 0x40000000#32

abbrev cLit : Ideal .f32 := FloatOps.ofBits (F := Ideal) .f32 0x3F4CCCCD#32

theorem zeroLit_eq : zeroLit = 0 := Ideal.ofBits_zero_f32
theorem oneLit_eq : oneLit = 1 := Ideal.ofBits_one_f32

theorem twoLit_eq : twoLit = ((2 : ℝ) : EReal) := by
  show Ideal.ofBits .f32 0x40000000#32 = ((2 : ℝ) : EReal)
  simp [Ideal.ofBits, Ideal.ieee, -EReal.coe_mul]; norm_num

theorem coe_max (a b : ℝ) : ((max a b : ℝ) : EReal) = max (a : EReal) (b : EReal) := by
  rcases le_total a b with h | h
  · rw [max_eq_right h, max_eq_right (EReal.coe_le_coe_iff.mpr h)]
  · rw [max_eq_left h, max_eq_left (EReal.coe_le_coe_iff.mpr h)]

theorem log1p_exp_coe (r : ℝ) : Ideal.log1p (Ideal.exp (r : EReal)) = ((Real.log (1 + Real.exp r) : ℝ) : EReal) := by
  have hpos : ¬ (1 + Real.exp r ≤ 0) := not_le.mpr (by positivity)
  rw [Ideal.exp_coe, Ideal.log1p, ← EReal.coe_one, ← EReal.coe_add, Ideal.log_coe, if_neg hpos]

theorem zero_sub_abs_coe (x : ℝ) : (0 : EReal) - max (x : EReal) (-(x : EReal)) = ((-(max x (-x)) : ℝ) : EReal) := by
  rw [zero_sub, ← EReal.coe_neg x, ← coe_max, ← EReal.coe_neg]

def bceK (x t : Ideal .f32) : Ideal .f32 :=
  FloatOps.addf (FloatOps.subf (FloatOps.maximumf x zeroLit) (FloatOps.mulf x t))
    (FloatOps.log1p (FloatOps.exp (FloatOps.subf zeroLit (FloatOps.absf x))))

def bceR (x t : Ideal .f32) : Ideal .f32 :=
  FloatOps.addf (FloatOps.subf (FloatOps.maximumf x zeroLit) (FloatOps.mulf x t))
    (FloatOps.hostUnary .log1p (FloatOps.hostUnary .exp (FloatOps.hostNegf (FloatOps.hostAbsf x))))

def bceReal (x t : ℝ) : ℝ := max x 0 - x * t + Real.log (1 + Real.exp (-(max x (-x))))

theorem bceK_coe (x t : ℝ) : bceK (x : EReal) (t : EReal) = ((bceReal x t : ℝ) : EReal) := by
  show max (x : EReal) zeroLit - (x : EReal) * (t : EReal)
      + Ideal.log1p (Ideal.exp (zeroLit - max (x : EReal) (-(x : EReal)))) = _
  rw [zeroLit_eq, zero_sub_abs_coe, log1p_exp_coe, ← EReal.coe_zero, ← coe_max, ← EReal.coe_mul, ← EReal.coe_sub,
    ← EReal.coe_add]
  rfl

theorem bceR_coe (x t : ℝ) : bceR (x : EReal) (t : EReal) = ((bceReal x t : ℝ) : EReal) := by
  show max (x : EReal) zeroLit - (x : EReal) * (t : EReal)
      + Ideal.log1p (Ideal.exp (-(max (x : EReal) (-(x : EReal))))) = _
  rw [← zero_sub (max (x : EReal) (-(x : EReal))), zeroLit_eq, zero_sub_abs_coe, log1p_exp_coe, ← EReal.coe_zero,
    ← coe_max, ← EReal.coe_mul, ← EReal.coe_sub, ← EReal.coe_add]
  rfl
theorem bce_eq (x t : ℝ) : bceK (x : EReal) (t : EReal) = bceR (x : EReal) (t : EReal) := by
  rw [bceK_coe, bceR_coe]
theorem bceK_real (x t : ℝ) : ∃ r : ℝ, bceK (x : EReal) (t : EReal) = (r : EReal) := ⟨_, bceK_coe x t⟩

def omK (b : Ideal .f32) : Ideal .f32 := FloatOps.subf oneLit (FloatOps.exp (FloatOps.subf zeroLit b))

def omR (b : Ideal .f32) : Ideal .f32 := FloatOps.subf oneLit (FloatOps.hostUnary .exp (FloatOps.hostNegf b))

theorem omK_coe (b : ℝ) : omK (b : EReal) = ((1 - Real.exp (-b) : ℝ) : EReal) := by
  show oneLit - Ideal.exp (zeroLit - (b : EReal)) = _
  rw [oneLit_eq, zeroLit_eq, zero_sub, ← EReal.coe_neg, Ideal.exp_coe, ← EReal.coe_one, ← EReal.coe_sub]
theorem omR_coe (b : ℝ) : omR (b : EReal) = ((1 - Real.exp (-b) : ℝ) : EReal) := by
  show oneLit - Ideal.exp (-(b : EReal)) = _
  rw [oneLit_eq, ← EReal.coe_neg, Ideal.exp_coe, ← EReal.coe_one, ← EReal.coe_sub]
theorem om_eq (b : ℝ) : omK (b : EReal) = omR (b : EReal) := by
  rw [omK_coe, omR_coe]
theorem omK_real (b : ℝ) : ∃ r : ℝ, omK (b : EReal) = (r : EReal) := ⟨_, omK_coe b⟩

theorem pow_coe_two (om : ℝ) : Ideal.pow (om : EReal) twoLit = (om : EReal) * (om : EReal) := by
  rw [twoLit_eq, Ideal.pow_coe_coe, ← EReal.coe_mul]
  congr 1
  show om ^ (2 : ℝ) = om * om
  rw [Real.rpow_two, sq]

theorem powf_two (om : ℝ) :
    FloatOps.powf (F := Ideal) (φ := .f32) (om : EReal) twoLit = (om : EReal) * (om : EReal) :=
  pow_coe_two om

theorem hostPowf_two (om : ℝ) :
    FloatOps.hostPowf (F := Ideal) (φ := .f32) (om : EReal) twoLit = (om : EReal) * (om : EReal) :=
  pow_coe_two om

theorem mul_sq_eq (om : ℝ) (c b : Ideal .f32) :
    FloatOps.mulf (FloatOps.mulf (FloatOps.mulf c ((om : EReal) : Ideal .f32)) ((om : EReal) : Ideal .f32)) b
      = FloatOps.mulf (FloatOps.mulf c (FloatOps.hostPowf ((om : EReal) : Ideal .f32) twoLit)) b := by
  show c * (om : EReal) * (om : EReal) * b = c * Ideal.pow (om : EReal) twoLit * b
  rw [pow_coe_two, mul_assoc c]

def focalK (x t : Ideal .f32) : Ideal .f32 :=
  FloatOps.mulf (FloatOps.mulf (FloatOps.mulf cLit (omK (bceK x t))) (omK (bceK x t))) (bceK x t)

def focalR (x t : Ideal .f32) : Ideal .f32 :=
  FloatOps.mulf (FloatOps.mulf cLit (FloatOps.hostPowf (omR (bceR x t)) twoLit)) (bceR x t)

theorem focal_eq (x t : ℝ) : focalK (x : EReal) (t : EReal) = focalR (x : EReal) (t : EReal) := by
  unfold focalK focalR
  rw [← bce_eq, bceK_coe, ← om_eq, omK_coe]
  exact mul_sq_eq _ cLit _

theorem logistic_eq (x : Ideal .f32) :
    FloatOps.logistic x
      = FloatOps.hostDivf oneLit (FloatOps.addf oneLit (FloatOps.hostUnary .exp (FloatOps.hostNegf x))) := by
  show Ideal.div 1 (1 + Ideal.exp (-x)) = Ideal.div oneLit (oneLit + Ideal.exp (-x))
  rw [oneLit_eq]

theorem mask_bit_eq (b : BitVec 1) :
    FloatOps.sitofp (F := Ideal) .f32 (b.setWidth 32) = FloatOps.uitofp (F := Ideal) .f32 b := by
  show ((((b.setWidth 32).toInt : ℤ) : ℝ) : EReal) = (((b.toNat : ℕ) : ℝ) : EReal)
  have hb : (b.setWidth 32).toInt = (b.toNat : ℤ) := by revert b; decide
  rw [hb, Int.cast_natCast]

theorem mask_eq {s : Shape} (p : CmpFPredicate) (x y : FVec Ideal s .f32) (h : 1 < 32) :
    (sitofp .f32 (extui 32 (cmpf p x y) h) : FVec Ideal s .f32) = uitofp .f32 (cmpf p x y) :=
  funext fun i => mask_bit_eq (FloatOps.cmpf p (x i) (y i))

end Cert.LibFocalLaws
-- ==== Proof.Spec.lean ====
import proofs.«119910_j28707561407033_1_alg».proof.KernelIdeal
import proofs.«119910_j28707561407033_1_alg».proof.Proof.LibFocalLaws
import Idealize.ShloMosaic.Lib.ValueIdx

noncomputable section

namespace Cert.Spec

open Idealize.ShloMosaic Idealize.ShloMosaic.ValueIdx Cert.KernelIdeal Cert.LibFocalLaws

abbrev A0 := (⟨S128x4x256x256, .f32⟩ : BufTy).Contents (Elt Ideal)
abbrev A1 := (⟨S128x4, .f32⟩ : BufTy).Contents (Elt Ideal)
abbrev A2 := (⟨S128x1x256x256, .f32⟩ : BufTy).Contents (Elt Ideal)

abbrev epsLit : Ideal .f32 := FloatOps.ofBits (F := Ideal) .f32 0x38D1B717#32
abbrev hiLit : Ideal .f32 := FloatOps.ofBits (F := Ideal) .f32 0x3F7FF972#32
abbrev hwLit : Ideal .f32 := FloatOps.ofBits (F := Ideal) .f32 0x47800000#32

def probE (x : Ideal .f32) : Ideal .f32 :=
  FloatOps.minimumf (F := Ideal) (φ := .f32) hiLit (FloatOps.maximumf (F := Ideal) (φ := .f32) epsLit (FloatOps.logistic (F := Ideal) (φ := .f32) x))

def maskE (x : Ideal .f32) : Ideal .f32 :=
  FloatOps.sitofp (F := Ideal) .f32 ((FloatOps.cmpf (F := Ideal) (φ := .f32) .oge x zeroLit).setWidth 32)

def pixSum (g : Ideal .f32 → Ideal .f32 → Ideal .f32) (X : A0) (T : A2) (b : Fin 128) (k : Fin 4) : EReal :=
  ∑ r : Fin 256, ∑ w : Fin 256, g (X (ix4 b k r w)) (T (ix4 b (0 : Fin 1) r w))

def fSum (X : A0) (T : A2) (b : Fin 128) (k : Fin 4) : EReal := pixSum focalK X T b k
def pSum (X : A0) (T : A2) (b : Fin 128) (k : Fin 4) : EReal := pixSum (fun x _ => probE x) X T b k
def iSum (X : A0) (T : A2) (b : Fin 128) (k : Fin 4) : EReal :=
  pixSum (fun x t => FloatOps.mulf (F := Ideal) (φ := .f32) (probE x) t) X T b k
def mSum (X : A0) (T : A2) (b : Fin 128) (k : Fin 4) : EReal := pixSum (fun x _ => maskE x) X T b k
def i2Sum (X : A0) (T : A2) (b : Fin 128) (k : Fin 4) : EReal :=
  pixSum (fun x t => FloatOps.mulf (F := Ideal) (φ := .f32) (maskE x) t) X T b k

def tSum (T : A2) (b : Fin 128) : EReal := ∑ r : Fin 256, ∑ w : Fin 256, T (ix4 b (0 : Fin 1) r w)

def diceE (i p t : Ideal .f32) : Ideal .f32 :=
  FloatOps.subf (F := Ideal) (φ := .f32) oneLit
    (FloatOps.divf (F := Ideal) (φ := .f32) (FloatOps.addf (F := Ideal) (φ := .f32) (FloatOps.mulf (F := Ideal) (φ := .f32) twoLit i) epsLit)
      (FloatOps.addf (F := Ideal) (φ := .f32) (FloatOps.addf (F := Ideal) (φ := .f32) p t) epsLit))

def iouE (i2 mm t q : Ideal .f32) : Ideal .f32 :=
  let g := FloatOps.divf (F := Ideal) (φ := .f32) (FloatOps.addf (F := Ideal) (φ := .f32) i2 epsLit)
    (FloatOps.addf (F := Ideal) (φ := .f32) (FloatOps.subf (F := Ideal) (φ := .f32) (FloatOps.addf (F := Ideal) (φ := .f32) mm t) i2) epsLit)
  let d := FloatOps.subf (F := Ideal) (φ := .f32) q g
  FloatOps.mulf (F := Ideal) (φ := .f32) d d

def focalS (X : A0) (T : A2) : A1 := fun j => FloatOps.divf (F := Ideal) (φ := .f32) (fSum X T (j 0) (j 1)) hwLit
def diceS (X : A0) (T : A2) : A1 := fun j => diceE (iSum X T (j 0) (j 1)) (pSum X T (j 0) (j 1)) (tSum T (j 0))
def iouS (X : A0) (Q : A1) (T : A2) : A1 := fun j => iouE (i2Sum X T (j 0) (j 1)) (mSum X T (j 0) (j 1)) (tSum T (j 0)) (Q j)
def tsumS (T : A2) : (⟨S128, .f32⟩ : BufTy).Contents (Elt Ideal) := fun j => tSum T (j 0)

end Cert.Spec

end
-- ==== Proof.LibSumTiles.lean ====
import Mathlib.Algebra.BigOperators.Fin
import Mathlib.Algebra.BigOperators.Group.Finset.Basic
import Mathlib.Logic.Equiv.Fin.Basic

open scoped BigOperators

namespace Cert.LibSumTiles

variable {M : Type*} [AddCommMonoid M]

theorem sum_rows_tiled (g : Fin 256 → M) :
    ∑ h : Fin 8, ∑ r : Fin 32, g ⟨32 * h.val + r.val, by omega⟩ = ∑ r : Fin 256, g r := by
  rw [← Fintype.sum_prod_type']
  refine Fintype.sum_equiv (finProdFinEquiv (m := 8) (n := 32)) _ _ fun p => ?_
  congr 1
  ext
  simp [finProdFinEquiv] <;> omega

theorem sum_flat (g : Fin 256 → Fin 256 → M) :
    ∑ j : Fin 65536, g ⟨j.val / 256, by omega⟩ ⟨j.val % 256, by omega⟩ = ∑ r : Fin 256, ∑ w : Fin 256, g r w := by
  rw [← Fintype.sum_prod_type']
  refine (Fintype.sum_equiv (finProdFinEquiv (m := 256) (n := 256)) _ _ fun p => ?_).symm
  have hq : (finProdFinEquiv p).val / 256 = p.1.val := by
    simp [finProdFinEquiv] <;> omega
  have hr : (finProdFinEquiv p).val % 256 = p.2.val := by
    simp [finProdFinEquiv] <;> omega
  congr 1 <;> ext <;> simp only [hq, hr]

theorem acc_closed (s : ℕ → M) (acc : ℕ → M) (h0 : acc 0 = 0 + s 0) (hs : ∀ n, acc (n + 1) = acc n + s (n + 1))
    (n : ℕ) : acc n = ∑ k ∈ Finset.range (n + 1), s k := by
  induction n with
  | zero => rw [h0, zero_add, Finset.sum_range_one]
  | succ n ih => rw [hs, ih, Finset.sum_range_succ _ (n + 1)]

theorem acc_closed_fin8 (s : ℕ → M) (acc : ℕ → M) (h0 : acc 0 = 0 + s 0)
    (hs : ∀ n, acc (n + 1) = acc n + s (n + 1)) : acc 7 = ∑ h : Fin 8, s h.val := by
  rw [acc_closed s acc h0 hs 7, Finset.sum_range]

end Cert.LibSumTiles
-- ==== Proof.KI.VTiles.lean ====
import proofs.«119910_j28707561407033_1_alg».proof.Proof.Spec
import proofs.«119910_j28707561407033_1_alg».proof.Proof.LibSumTiles

noncomputable section

open scoped BigOperators

namespace Cert.KernelIdeal.KValue

open Idealize.ShloMosaic Idealize.ShloMosaic.ValueIdx Cert.Spec Cert.LibSumTiles

def rowOf (i : ℕ) (b : Fin 32) : Fin 128 := ⟨(32 * i + b.val) % 128, Nat.mod_lt _ (by decide)⟩

def pixOf (h : ℕ) (r : Fin 32) : Fin 256 := ⟨(32 * h + r.val) % 256, Nat.mod_lt _ (by decide)⟩

theorem rowOf_val (i : ℕ) (hi : i < 4) (b : Fin 32) : (rowOf i b).val = 32 * i + b.val := by
  have := b.isLt
  show (32 * i + b.val) % 128 = _
  omega
theorem pixOf_val (h : ℕ) (hh : h < 8) (r : Fin 32) : (pixOf h r).val = 32 * h + r.val := by
  have := r.isLt
  show (32 * h + r.val) % 256 = _
  omega

def tileOf (g : Ideal .f32 → Ideal .f32 → Ideal .f32) (X : A0) (T : A2) (b : Fin 32) (k : Fin 4) (i h : ℕ) : EReal :=
  ∑ r : Fin 32, ∑ w : Fin 256, g (X (ix4 (rowOf i b) k (pixOf h r) w)) (T (ix4 (rowOf i b) (0 : Fin 1) (pixOf h r) w))

def tileT (T : A2) (b : Fin 32) (i h : ℕ) : EReal :=
  ∑ r : Fin 32, ∑ w : Fin 256, T (ix4 (rowOf i b) (0 : Fin 1) (pixOf h r) w)

theorem tile_total (g : Ideal .f32 → Ideal .f32 → Ideal .f32) (X : A0) (T : A2) (b : Fin 32) (k : Fin 4) (i : ℕ) :
    ∑ h ∈ Finset.range 8, tileOf g X T b k i h = pixSum g X T (rowOf i b) k := by
  rw [Finset.sum_range]
  unfold tileOf pixSum
  rw [← sum_rows_tiled (fun R : Fin 256 =>
    ∑ w : Fin 256, g (X (ix4 (rowOf i b) k R w)) (T (ix4 (rowOf i b) (0 : Fin 1) R w)))]
  refine Finset.sum_congr rfl fun h _ => Finset.sum_congr rfl fun r _ => ?_
  have hh := h.isLt
  have hr := r.isLt
  have e : pixOf h.val r = ⟨32 * h.val + r.val, by omega⟩ := Fin.ext (pixOf_val h.val h.isLt r)
  rw [e]

theorem tileT_total (T : A2) (b : Fin 32) (i : ℕ) :
    ∑ h ∈ Finset.range 8, tileT T b i h = tSum T (rowOf i b) := by
  rw [Finset.sum_range]
  unfold tileT tSum
  rw [← sum_rows_tiled (fun R : Fin 256 => ∑ w : Fin 256, T (ix4 (rowOf i b) (0 : Fin 1) R w))]
  refine Finset.sum_congr rfl fun h _ => Finset.sum_congr rfl fun r _ => ?_
  have hh := h.isLt
  have hr := r.isLt
  have e : pixOf h.val r = ⟨32 * h.val + r.val, by omega⟩ := Fin.ext (pixOf_val h.val h.isLt r)
  rw [e]

end Cert.KernelIdeal.KValue

end
-- ==== Proof.KI.VBlocks.lean ====
import proofs.«119910_j28707561407033_1_alg».proof.Proof.KI.VNames
import Idealize.ShloMosaic.Lib.ValueIdx

noncomputable section

namespace Cert.KernelIdeal.KValue

open Cert.KernelIdeal Cert.KernelIdeal.Gen Cert.KernelIdeal.Fr
open Idealize.ShloMosaic Idealize.ShloMosaic.TcCoe Idealize.SL.Sem Idealize.ShloMosaic.ValueIdx

variable {F : FTy → Type} [FloatOps F]
variable (m : (ℓ : Loc nD τ sig) → Buf (Elt F) ℓ)

theorem xidx : ∀ t : Fin cfg0.N, win0_0.index t (0 : Fin 4) = t.val / 8 ∧ win0_0.index t (1 : Fin 4) = 0
    ∧ win0_0.index t (2 : Fin 4) = t.val % 8 ∧ win0_0.index t (3 : Fin 4) = 0 :=
  (by decide +kernel : ∀ t : Fin grid0.N, _)

theorem tidx : ∀ t : Fin cfg0.N, win0_1.index t (0 : Fin 4) = t.val / 8 ∧ win0_1.index t (1 : Fin 4) = 0
    ∧ win0_1.index t (2 : Fin 4) = t.val % 8 ∧ win0_1.index t (3 : Fin 4) = 0 :=
  (by decide +kernel : ∀ t : Fin grid0.N, _)

theorem qidx : ∀ t : Fin cfg0.N, win0_2.index t (0 : Fin 2) = t.val / 8 ∧ win0_2.index t (1 : Fin 2) = 0 :=
  (by decide +kernel : ∀ t : Fin grid0.N, _)

theorem xblk_read (c : Dev nD) (t : Fin cfg0.N) (b : Fin 32) (k : Fin 4) (r : Fin 32) (w : Fin 256) (B : Fin 128) (R : Fin 256)
    (hB : B.val = 32 * (t.val / 8) + b.val) (hR : R.val = 32 * (t.val % 8) + r.val) :
    xblk m c t (ix4 b k r w) = xarr m c (ix4 B k R w) := by
  obtain ⟨e0, e1, e2, e3⟩ := xidx t
  show iblk m c 0 t (ix4 b k r w) = V m c main_arg0 (ix4 B k R w)
  unfold iblk
  rw [View.read_apply]
  show V m c main_arg0 _ = V m c main_arg0 _
  congr 1
  funext a
  apply Fin.ext
  match a with
  | ⟨0, _⟩ => show win0_0.index t (0 : Fin 4) * 32 + 1 * b.val = B.val; rw [e0]; omega
  | ⟨1, _⟩ => show win0_0.index t (1 : Fin 4) * 4 + 1 * k.val = k.val; rw [e1]; omega
  | ⟨2, _⟩ => show win0_0.index t (2 : Fin 4) * 32 + 1 * r.val = R.val; rw [e2]; omega
  | ⟨3, _⟩ => show win0_0.index t (3 : Fin 4) * 256 + 1 * w.val = w.val; rw [e3]; omega

theorem tblk_read (c : Dev nD) (t : Fin cfg0.N) (b : Fin 32) (r : Fin 32) (w : Fin 256) (B : Fin 128) (R : Fin 256)
    (hB : B.val = 32 * (t.val / 8) + b.val) (hR : R.val = 32 * (t.val % 8) + r.val) :
    tblk m c t (ix4 b (0 : Fin 1) r w) = tarr m c (ix4 B (0 : Fin 1) R w) := by
  obtain ⟨e0, e1, e2, e3⟩ := tidx t
  show iblk m c 1 t (ix4 b (0 : Fin 1) r w) = V m c main_arg2 (ix4 B (0 : Fin 1) R w)
  unfold iblk
  rw [View.read_apply]
  show V m c main_arg2 _ = V m c main_arg2 _
  congr 1
  funext a
  apply Fin.ext
  match a with
  | ⟨0, _⟩ => show win0_1.index t (0 : Fin 4) * 32 + 1 * b.val = B.val; rw [e0]; omega
  | ⟨1, _⟩ => show win0_1.index t (1 : Fin 4) * 1 + 1 * (0 : Fin 1).val = (0 : Fin 1).val; rw [e1]; rfl
  | ⟨2, _⟩ => show win0_1.index t (2 : Fin 4) * 32 + 1 * r.val = R.val; rw [e2]; omega
  | ⟨3, _⟩ => show win0_1.index t (3 : Fin 4) * 256 + 1 * w.val = w.val; rw [e3]; omega

theorem qblk_read (c : Dev nD) (t : Fin cfg0.N) (b : Fin 32) (k : Fin 4) (B : Fin 128)
    (hB : B.val = 32 * (t.val / 8) + b.val) : qblk m c t (ix2 b k) = qarr m c (ix2 B k) := by
  obtain ⟨e0, e1⟩ := qidx t
  show iblk m c 2 t (ix2 b k) = V m c main_arg1 (ix2 B k)
  unfold iblk
  rw [View.read_apply]
  show V m c main_arg1 _ = V m c main_arg1 _
  congr 1
  funext a
  apply Fin.ext
  match a with
  | ⟨0, _⟩ => show win0_2.index t (0 : Fin 2) * 32 + 1 * b.val = B.val; rw [e0]; omega
  | ⟨1, _⟩ => show win0_2.index t (1 : Fin 2) * 4 + 1 * k.val = k.val; rw [e1]; omega

end Cert.KernelIdeal.KValue

end
-- ==== Proof.KI.Pay.lean ====
import proofs.«119910_j28707561407033_1_alg».proof.Proof.Gen.KernelIdeal.Skeleton
import proofs.«119910_j28707561407033_1_alg».proof.Proof.Spec
import proofs.«119910_j28707561407033_1_alg».proof.Proof.LibFocalLaws
import Idealize.ShloMosaic.Lib.ValueIdx
import Idealize.ShloMosaic.PureOps.Ideal.Laws
import Idealize.ShloMosaic.Lib.Pipeline.Value

noncomputable section

open scoped BigOperators

namespace Cert.KernelIdeal.Pay

open Idealize.ShloMosaic Idealize.SL.Sem Idealize.ShloMosaic.ValueIdx
open Cert.KernelIdeal Cert.KernelIdeal.Gen Cert.LibFocalLaws Cert.Spec

theorem lift_col {n1 : Nat} (h : (⟨4, ![32, n1, 32, 256]⟩ : Shape).Reduces [3] ⟨3, ![32, n1, 32]⟩)
    (b : Fin 32) (k : Fin n1) (r : Fin 32) (w : Fin 256) : h.lift (ix3 b k r) w = ix4 b k r w := by
  funext c
  match c with
  | ⟨0, _⟩ => exact Fin.ext rfl
  | ⟨1, _⟩ => exact Fin.ext rfl
  | ⟨2, _⟩ => exact Fin.ext rfl
  | ⟨3, _⟩ => exact Fin.ext rfl

theorem lift_row {n1 : Nat} (h : (⟨3, ![32, n1, 32]⟩ : Shape).Reduces [2] ⟨2, ![32, n1]⟩)
    (b : Fin 32) (k : Fin n1) (r : Fin 32) : h.lift (ix2 b k) r = ix3 b k r := by
  funext c
  match c with
  | ⟨0, _⟩ => exact Fin.ext rfl
  | ⟨1, _⟩ => exact Fin.ext rfl
  | ⟨2, _⟩ => exact Fin.ext rfl

theorem rows_cols_sum {n1 : Nat} (g : FVec Ideal ⟨4, ![32, n1, 32, 256]⟩ .f32)
    (h3 : (⟨4, ![32, n1, 32, 256]⟩ : Shape).Reduces [3] ⟨3, ![32, n1, 32]⟩)
    (h2 : (⟨3, ![32, n1, 32]⟩ : Shape).Reduces [2] ⟨2, ![32, n1]⟩)
    (hφ3 hφ2 : FKind.Formats .f32) (ha3 : (0x00000000#32 : BitVec 32) = FKind.add.neutral .f32 hφ3)
    (ha2 : (0x00000000#32 : BitVec 32) = FKind.add.neutral .f32 hφ2) (b : Fin 32) (k : Fin n1) :
    multiReduction (F := Ideal) .add [2] ⟨2, ![32, n1]⟩
        (multiReduction (F := Ideal) .add [3] ⟨3, ![32, n1, 32]⟩ g 0x00000000#32 h3 hφ3 ha3) 0x00000000#32 h2 hφ2 ha2 (ix2 b k)
      = ∑ r : Fin 32, ∑ w : Fin 256, g (ix4 b k r w) := by
  refine (Ideal.multiReduction_add_single _ _ h2 hφ2 ha2 (ix2 b k)).trans ?_
  refine Finset.sum_congr rfl fun r _ => ?_
  rw [lift_row h2 b k r]
  refine (Ideal.multiReduction_add_single g _ h3 hφ3 ha3 (ix3 b k r)).trans ?_
  refine Finset.sum_congr rfl fun w _ => ?_
  rw [lift_col h3 b k r w]

theorem acc_apply {n1 : Nat} (g : FVec Ideal ⟨4, ![32, n1, 32, 256]⟩ .f32) (acc : FVec Ideal ⟨2, ![32, n1]⟩ .f32)
    (h3 : (⟨4, ![32, n1, 32, 256]⟩ : Shape).Reduces [3] ⟨3, ![32, n1, 32]⟩)
    (h2 : (⟨3, ![32, n1, 32]⟩ : Shape).Reduces [2] ⟨2, ![32, n1]⟩)
    (hφ3 hφ2 : FKind.Formats .f32) (ha3 : (0x00000000#32 : BitVec 32) = FKind.add.neutral .f32 hφ3)
    (ha2 : (0x00000000#32 : BitVec 32) = FKind.add.neutral .f32 hφ2)
    (hc : (⟨2, ![32, n1]⟩ : Shape).ShapeCasts ⟨2, ![32, n1]⟩) (b : Fin 32) (k : Fin n1) :
    shapeCast ⟨2, ![32, n1]⟩ (addf acc (multiReduction (F := Ideal) .add [2] ⟨2, ![32, n1]⟩
        (multiReduction (F := Ideal) .add [3] ⟨3, ![32, n1, 32]⟩ g 0x00000000#32 h3 hφ3 ha3) 0x00000000#32 h2 hφ2 ha2)) hc
        (ix2 b k)
      = acc (ix2 b k) + ∑ r : Fin 32, ∑ w : Fin 256, g (ix4 b k r w) := by
  rw [shapeCast_self]
  exact congrArg (acc (ix2 b k) + ·) (rows_cols_sum g h3 h2 hφ3 hφ2 ha3 ha2 b k)

theorem pay12_apply (v4 : Vec Ideal S32x1x32x256 .f32) (b : Fin 32) (k : Fin 4) (r : Fin 32) (w : Fin 256) :
    k0_pay12 (F := Ideal) v4 (ix4 b k r w) = v4 (ix4 b (0 : Fin 1) r w) := by
  show broadcastTo S32x4x32x256 (shapeCast S32x1x32x256 v4 shapeCasts_S32x1x32x256_S32x1x32x256)
      broadcasts_S32x1x32x256_S32x4x32x256 (ix4 b k r w) = _
  rw [shapeCast_self]
  exact broadcastTo_apply v4 _ (ix4 b k r w) (ix4 b (0 : Fin 1) r w) (fun a => by
    match a with
    | ⟨0, _⟩ => rfl
    | ⟨1, _⟩ => rfl
    | ⟨2, _⟩ => rfl
    | ⟨3, _⟩ => rfl)

variable (v3 : Vec Ideal S32x4x32x256 .f32) (v4 : Vec Ideal S32x1x32x256 .f32) (acc : Vec Ideal S32x4 .f32)
  (a14 : Vec Ideal S32x1 .f32) (b : Fin 32) (k : Fin 4)

theorem pay13_apply : k0_pay13 (F := Ideal) v3 v4 acc (ix2 b k)
    = acc (ix2 b k) + ∑ r : Fin 32, ∑ w : Fin 256, focalK (v3 (ix4 b k r w)) (v4 (ix4 b (0 : Fin 1) r w)) := by
  refine (acc_apply (fun i => focalK (v3 i) (k0_pay12 v4 i)) acc reduces_S32x4x32x256_S32x4x32 reduces_S32x4x32_S32x4 (.inl rfl) (.inl rfl) rfl rfl shapeCasts_S32x4_S32x4 b k).trans ?_
  refine congrArg (acc (ix2 b k) + ·) (Finset.sum_congr rfl fun r _ => Finset.sum_congr rfl fun w _ => ?_)
  show focalK (v3 (ix4 b k r w)) (k0_pay12 v4 (ix4 b k r w)) = _
  rw [pay12_apply]

theorem pay17_apply : k0_pay17 (F := Ideal) (k0_pay14 v3) epsLit acc (ix2 b k)
    = acc (ix2 b k) + ∑ r : Fin 32, ∑ w : Fin 256, probE (v3 (ix4 b k r w)) :=
  acc_apply (fun i => probE (v3 i)) acc reduces_S32x4x32x256_S32x4x32 reduces_S32x4x32_S32x4 (.inl rfl) (.inl rfl) rfl rfl shapeCasts_S32x4_S32x4 b k

theorem pay16_apply : k0_pay16 (F := Ideal) (k0_pay12 v4) (k0_pay14 v3) epsLit acc (ix2 b k)
    = acc (ix2 b k) + ∑ r : Fin 32, ∑ w : Fin 256,
        FloatOps.mulf (F := Ideal) (φ := .f32) (probE (v3 (ix4 b k r w))) (v4 (ix4 b (0 : Fin 1) r w)) := by
  refine (acc_apply (fun i => FloatOps.mulf (F := Ideal) (φ := .f32) (probE (v3 i)) (k0_pay12 v4 i)) acc
    reduces_S32x4x32x256_S32x4x32 reduces_S32x4x32_S32x4 (.inl rfl) (.inl rfl) rfl rfl shapeCasts_S32x4_S32x4 b k).trans ?_
  refine congrArg (acc (ix2 b k) + ·) (Finset.sum_congr rfl fun r _ => Finset.sum_congr rfl fun w _ => ?_)
  show FloatOps.mulf (F := Ideal) (φ := .f32) (probE (v3 (ix4 b k r w))) (k0_pay12 v4 (ix4 b k r w)) = _
  rw [pay12_apply]

theorem pay1_apply : k0_pay1 (F := Ideal) (k0_pay20 v3) acc (ix2 b k)
    = acc (ix2 b k) + ∑ r : Fin 32, ∑ w : Fin 256, maskE (v3 (ix4 b k r w)) :=
  acc_apply (fun i => maskE (v3 i)) acc reduces_S32x4x32x256_S32x4x32 reduces_S32x4x32_S32x4 (.inl rfl) (.inl rfl) rfl rfl shapeCasts_S32x4_S32x4 b k

theorem pay19_apply : k0_pay19 (F := Ideal) v3 (k0_pay12 v4) acc (ix2 b k)
    = acc (ix2 b k) + ∑ r : Fin 32, ∑ w : Fin 256,
        FloatOps.mulf (F := Ideal) (φ := .f32) (maskE (v3 (ix4 b k r w))) (v4 (ix4 b (0 : Fin 1) r w)) := by
  refine (acc_apply (fun i => FloatOps.mulf (F := Ideal) (φ := .f32) (maskE (v3 i)) (k0_pay12 v4 i)) acc
    reduces_S32x4x32x256_S32x4x32 reduces_S32x4x32_S32x4 (.inl rfl) (.inl rfl) rfl rfl shapeCasts_S32x4_S32x4 b k).trans ?_
  refine congrArg (acc (ix2 b k) + ·) (Finset.sum_congr rfl fun r _ => Finset.sum_congr rfl fun w _ => ?_)
  show FloatOps.mulf (F := Ideal) (φ := .f32) (maskE (v3 (ix4 b k r w))) (k0_pay12 v4 (ix4 b k r w)) = _
  rw [pay12_apply]

theorem pay2_apply : k0_pay2 (F := Ideal) v4 a14 (ix2 b (0 : Fin 1))
    = a14 (ix2 b (0 : Fin 1)) + ∑ r : Fin 32, ∑ w : Fin 256, v4 (ix4 b (0 : Fin 1) r w) :=
  acc_apply (n1 := 1) v4 a14 reduces_S32x1x32x256_S32x1x32 reduces_S32x1x32_S32x1 (.inl rfl) (.inl rfl) rfl rfl shapeCasts_S32x1_S32x1 b (0 : Fin 1)

theorem pay6_apply (j : S32x4.Idx) : k0_pay6 (F := Ideal) j = 0 := by
  show shapeCast S32x4 (broadcast S32x4 zeroLit) shapeCasts_S32x4_S32x4 j = 0
  rw [shapeCast_self]; exact zeroLit_eq
theorem pay7_apply (j : S32x4.Idx) : k0_pay7 (F := Ideal) j = 0 := by
  show shapeCast S32x4 (broadcast S32x4 zeroLit) shapeCasts_S32x4_S32x4 j = 0
  rw [shapeCast_self]; exact zeroLit_eq
theorem pay8_apply (j : S32x4.Idx) : k0_pay8 (F := Ideal) j = 0 := by
  show shapeCast S32x4 (broadcast S32x4 zeroLit) shapeCasts_S32x4_S32x4 j = 0
  rw [shapeCast_self]; exact zeroLit_eq
theorem pay9_apply (j : S32x4.Idx) : k0_pay9 (F := Ideal) j = 0 := by
  show shapeCast S32x4 (broadcast S32x4 zeroLit) shapeCasts_S32x4_S32x4 j = 0
  rw [shapeCast_self]; exact zeroLit_eq
theorem pay10_apply (j : S32x4.Idx) : k0_pay10 (F := Ideal) j = 0 := by
  show shapeCast S32x4 (broadcast S32x4 zeroLit) shapeCasts_S32x4_S32x4 j = 0
  rw [shapeCast_self]; exact zeroLit_eq
theorem pay11_apply (j : S32x1.Idx) : k0_pay11 (F := Ideal) j = 0 := by
  show shapeCast S32x1 (broadcast S32x1 zeroLit) shapeCasts_S32x1_S32x1 j = 0
  rw [shapeCast_self]; exact zeroLit_eq

theorem pay3_apply (v83 : Vec Ideal S32x4 .f32) (j : S32x4.Idx) :
    k0_pay3 (F := Ideal) v83 j = FloatOps.divf (F := Ideal) (φ := .f32) (v83 j) hwLit := rfl

theorem bcast_col_apply (v82 : Vec Ideal S32x1 .f32) (b : Fin 32) (k : Fin 4) :
    broadcastTo S32x4 v82 broadcasts_S32x1_S32x4 (ix2 b k) = v82 (ix2 b (0 : Fin 1)) :=
  broadcastTo_apply v82 _ (ix2 b k) (ix2 b (0 : Fin 1)) (fun a => by
    match a with
    | ⟨0, _⟩ => rfl
    | ⟨1, _⟩ => rfl)

theorem pay4_apply (v82 : Vec Ideal S32x1 .f32) (v86 v91 : Vec Ideal S32x4 .f32) :
    k0_pay4 (F := Ideal) v82 v86 v91 (ix2 b k) = diceE (v86 (ix2 b k)) (v91 (ix2 b k)) (v82 (ix2 b (0 : Fin 1))) := by
  show diceE (v86 (ix2 b k)) (v91 (ix2 b k)) (broadcastTo S32x4 v82 broadcasts_S32x1_S32x4 (ix2 b k)) = _
  rw [bcast_col_apply]

theorem pay5_apply (v82 : Vec Ideal S32x1 .f32) (v99 v102 v105 v110 : Vec Ideal S32x4 .f32) :
    k0_pay5 (F := Ideal) v82 v99 v102 v105 v110 (ix2 b k)
      = (let g := FloatOps.divf (F := Ideal) (φ := .f32) (FloatOps.addf (F := Ideal) (φ := .f32) (v99 (ix2 b k)) epsLit)
          (FloatOps.addf (F := Ideal) (φ := .f32) (FloatOps.subf (F := Ideal) (φ := .f32)
            (FloatOps.addf (F := Ideal) (φ := .f32) (v102 (ix2 b k)) (v82 (ix2 b (0 : Fin 1)))) (v105 (ix2 b k))) epsLit)
         let d := FloatOps.subf (F := Ideal) (φ := .f32) (v110 (ix2 b k)) g
         FloatOps.mulf (F := Ideal) (φ := .f32) d d) := by
  show (let g := FloatOps.divf (F := Ideal) (φ := .f32) (FloatOps.addf (F := Ideal) (φ := .f32) (v99 (ix2 b k)) epsLit)
          (FloatOps.addf (F := Ideal) (φ := .f32) (FloatOps.subf (F := Ideal) (φ := .f32)
            (FloatOps.addf (F := Ideal) (φ := .f32) (v102 (ix2 b k))
              (broadcastTo S32x4 v82 broadcasts_S32x1_S32x4 (ix2 b k))) (v105 (ix2 b k))) epsLit)
         let d := FloatOps.subf (F := Ideal) (φ := .f32) (v110 (ix2 b k)) g
         FloatOps.mulf (F := Ideal) (φ := .f32) d d) = _
  rw [bcast_col_apply]

theorem pay5_apply_same (v82 : Vec Ideal S32x1 .f32) (v99 v102 v110 : Vec Ideal S32x4 .f32) :
    k0_pay5 (F := Ideal) v82 v99 v102 v99 v110 (ix2 b k)
      = iouE (v99 (ix2 b k)) (v102 (ix2 b k)) (v82 (ix2 b (0 : Fin 1))) (v110 (ix2 b k)) :=
  pay5_apply b k v82 v99 v102 v99 v110

end Cert.KernelIdeal.Pay
-- ==== Proof.KI.VInv.lean ====
import proofs.«119910_j28707561407033_1_alg».proof.Proof.KI.VCases
import proofs.«119910_j28707561407033_1_alg».proof.Proof.KI.VAccInv
import proofs.«119910_j28707561407033_1_alg».proof.Proof.KI.VTiles
import proofs.«119910_j28707561407033_1_alg».proof.Proof.KI.VBlocks
import proofs.«119910_j28707561407033_1_alg».proof.Proof.KI.Pay

noncomputable section

open scoped BigOperators

namespace Cert.KernelIdeal.KValue

open Cert.KernelIdeal Cert.KernelIdeal.Gen Cert.KernelIdeal.Fr Cert.KernelIdeal.Pay
open Idealize.ShloMosaic Idealize.ShloMosaic.TcCoe Idealize.SL.Sem Idealize.ShloMosaic.ValueIdx
open Cert.Spec Cert.LibFocalLaws

variable (m : (ℓ : Loc nD τ sig) → Buf (Elt Ideal) ℓ)

theorem tile_blk (g : Ideal .f32 → Ideal .f32 → Ideal .f32) (c : Dev nD) (t : Fin cfg0.N) (b : Fin 32) (k : Fin 4) :
    ∑ r : Fin 32, ∑ w : Fin 256, g (xblk m c t (ix4 b k r w)) (tblk m c t (ix4 b (0 : Fin 1) r w))
      = tileOf g (xarr m c) (tarr m c) b k (t.val / 8) (t.val % 8) := by
  have hN : cfg0.N = 32 := N_0
  have ht := t.isLt
  unfold tileOf
  refine Finset.sum_congr rfl fun r _ => Finset.sum_congr rfl fun w _ => ?_
  rw [xblk_read m c t b k r w (rowOf (t.val / 8) b) (pixOf (t.val % 8) r) (rowOf_val _ (by omega) b)
      (pixOf_val _ (by omega) r),
    tblk_read m c t b r w (rowOf (t.val / 8) b) (pixOf (t.val % 8) r) (rowOf_val _ (by omega) b)
      (pixOf_val _ (by omega) r)]

theorem tileT_blk (c : Dev nD) (t : Fin cfg0.N) (b : Fin 32) :
    ∑ r : Fin 32, ∑ w : Fin 256, tblk m c t (ix4 b (0 : Fin 1) r w) = tileT (tarr m c) b (t.val / 8) (t.val % 8) := by
  have hN : cfg0.N = 32 := N_0
  have ht := t.isLt
  unfold tileT
  refine Finset.sum_congr rfl fun r _ => Finset.sum_congr rfl fun w _ => ?_
  rw [tblk_read m c t b r w (rowOf (t.val / 8) b) (pixOf (t.val % 8) r) (rowOf_val _ (by omega) b)
      (pixOf_val _ (by omega) r)]

/-- An accumulator entry that every point updates by adding its tile sum, starting from zero at the first point of a
    row, holds the sum of the row's tiles so far. -/
theorem acc_inv' (c : Dev nD) {S : Shape} (sel : Outs Ideal → Vec Ideal S .f32) (idx : S.Idx) (tile : ℕ → ℕ → EReal)
    (upd : Fin cfg0.N → Vec Ideal S .f32 → Vec Ideal S .f32) (zero : Vec Ideal S .f32) (hz : zero idx = 0)
    (hupd : ∀ t acc, upd t acc idx = acc idx + tile (t.val / 8) (t.val % 8))
    (hA : ∀ t hc0 hc1, sel (caseA m c t hc0 hc1) = upd t zero)
    (hB : ∀ t hc0 hc1 p, sel (caseB m c t hc0 hc1 p) = upd t (sel p))
    (hC : ∀ t hc0 hc1 p, sel (caseC m c t hc0 hc1 p) = upd t (sel p)) (n : ℕ) (hn : n < cfg0.N) :
    sel (outsAt0 m c n hn) idx = ∑ h ∈ Finset.range (n % 8 + 1), tile (n / 8) h :=
  acc_inv m c (fun o => sel o idx) tile
    (fun t hc0 hc1 => (congrFun (hA t hc0 hc1) idx).trans ((hupd t zero).trans (congrArg (· + _) hz)))
    (fun t hc0 hc1 p => (congrFun (hB t hc0 hc1 p) idx).trans (hupd t (sel p)))
    (fun t hc0 hc1 p => (congrFun (hC t hc0 hc1 p) idx).trans (hupd t (sel p))) n hn

section Acc

variable (c : Dev nD) (b : Fin 32) (k : Fin 4)

theorem inv_s0 (n : ℕ) (hn : n < cfg0.N) : (outsAt0 m c n hn).s0 (ix2 b k)
    = ∑ h ∈ Finset.range (n % 8 + 1), tileOf focalK (xarr m c) (tarr m c) b k (n / 8) h :=
  acc_inv' m c (S := S32x4) (·.s0) (ix2 b k) _ (fun t acc => k0_pay13 (xblk m c t) (tblk m c t) acc) (k0_pay6 (F := Ideal)) (pay6_apply _)
    (fun t acc => (pay13_apply (xblk m c t) (tblk m c t) acc b k).trans (congrArg (acc (ix2 b k) + ·) (tile_blk m focalK c t b k)))
    (caseA_s0 m c) (caseB_s0 m c) (caseC_s0 m c) n hn

theorem inv_s1 (n : ℕ) (hn : n < cfg0.N) : (outsAt0 m c n hn).s1 (ix2 b k)
    = ∑ h ∈ Finset.range (n % 8 + 1), tileOf (fun x _ => probE x) (xarr m c) (tarr m c) b k (n / 8) h :=
  acc_inv' m c (S := S32x4) (·.s1) (ix2 b k) _ (fun t acc => k0_pay17 (k0_pay14 (xblk m c t)) epsK acc) (k0_pay7 (F := Ideal)) (pay7_apply _)
    (fun t acc => (pay17_apply (xblk m c t) acc b k).trans (congrArg (acc (ix2 b k) + ·) (tile_blk m (fun x _ => probE x) c t b k)))
    (caseA_s1 m c) (caseB_s1 m c) (caseC_s1 m c) n hn

theorem inv_s2 (n : ℕ) (hn : n < cfg0.N) : (outsAt0 m c n hn).s2 (ix2 b k)
    = ∑ h ∈ Finset.range (n % 8 + 1), tileOf (fun x t => FloatOps.mulf (F := Ideal) (φ := .f32) (probE x) t) (xarr m c) (tarr m c) b k (n / 8) h :=
  acc_inv' m c (S := S32x4) (·.s2) (ix2 b k) _ (fun t acc => k0_pay16 (k0_pay12 (tblk m c t)) (k0_pay14 (xblk m c t)) epsK acc) (k0_pay8 (F := Ideal)) (pay8_apply _)
    (fun t acc => (pay16_apply (xblk m c t) (tblk m c t) acc b k).trans (congrArg (acc (ix2 b k) + ·) (tile_blk m (fun x t => FloatOps.mulf (F := Ideal) (φ := .f32) (probE x) t) c t b k)))
    (caseA_s2 m c) (caseB_s2 m c) (caseC_s2 m c) n hn

theorem inv_s3 (n : ℕ) (hn : n < cfg0.N) : (outsAt0 m c n hn).s3 (ix2 b k)
    = ∑ h ∈ Finset.range (n % 8 + 1), tileOf (fun x _ => maskE x) (xarr m c) (tarr m c) b k (n / 8) h :=
  acc_inv' m c (S := S32x4) (·.s3) (ix2 b k) _ (fun t acc => k0_pay1 (k0_pay20 (xblk m c t)) acc) (k0_pay9 (F := Ideal)) (pay9_apply _)
    (fun t acc => (pay1_apply (xblk m c t) acc b k).trans (congrArg (acc (ix2 b k) + ·) (tile_blk m (fun x _ => maskE x) c t b k)))
    (caseA_s3 m c) (caseB_s3 m c) (caseC_s3 m c) n hn

theorem inv_s4 (n : ℕ) (hn : n < cfg0.N) : (outsAt0 m c n hn).s4 (ix2 b k)
    = ∑ h ∈ Finset.range (n % 8 + 1), tileOf (fun x t => FloatOps.mulf (F := Ideal) (φ := .f32) (maskE x) t) (xarr m c) (tarr m c) b k (n / 8) h :=
  acc_inv' m c (S := S32x4) (·.s4) (ix2 b k) _ (fun t acc => k0_pay19 (xblk m c t) (k0_pay12 (tblk m c t)) acc) (k0_pay10 (F := Ideal)) (pay10_apply _)
    (fun t acc => (pay19_apply (xblk m c t) (tblk m c t) acc b k).trans (congrArg (acc (ix2 b k) + ·) (tile_blk m (fun x t => FloatOps.mulf (F := Ideal) (φ := .f32) (maskE x) t) c t b k)))
    (caseA_s4 m c) (caseB_s4 m c) (caseC_s4 m c) n hn

theorem inv_s5 (n : ℕ) (hn : n < cfg0.N) : (outsAt0 m c n hn).s5 (ix2 b (0 : Fin 1))
    = ∑ h ∈ Finset.range (n % 8 + 1), tileT (tarr m c) b (n / 8) h :=
  acc_inv' m c (S := S32x1) (·.s5) (ix2 b (0 : Fin 1)) _ (fun t acc => k0_pay2 (tblk m c t) acc) (k0_pay11 (F := Ideal)) (pay11_apply _)
    (fun t acc => (pay2_apply (tblk m c t) acc b).trans (congrArg (acc (ix2 b (0 : Fin 1)) + ·) (tileT_blk m c t b)))
    (caseA_s5 m c) (caseB_s5 m c) (caseC_s5 m c) n hn

theorem row_eq (t : Fin cfg0.N) (B : Fin 128) (hB : B.val = 32 * (t.val / 8) + b.val) : rowOf (t.val / 8) b = B := by
  have hN : cfg0.N = 32 := N_0
  have ht := t.isLt
  exact Fin.ext ((rowOf_val _ (by omega) b).trans hB.symm)

theorem fin_s0 (t : Fin cfg0.N) (h7 : t.val % 8 = 7) (B : Fin 128) (hB : B.val = 32 * (t.val / 8) + b.val) :
    (outsAt0 m c t.val t.isLt).s0 (ix2 b k) = fSum (xarr m c) (tarr m c) B k := by
  rw [inv_s0 m c b k t.val t.isLt, h7]
  exact (tile_total focalK (xarr m c) (tarr m c) b k (t.val / 8)).trans
    (congrArg (fun B' => pixSum focalK (xarr m c) (tarr m c) B' k) (row_eq b t B hB))
theorem fin_s1 (t : Fin cfg0.N) (h7 : t.val % 8 = 7) (B : Fin 128) (hB : B.val = 32 * (t.val / 8) + b.val) :
    (outsAt0 m c t.val t.isLt).s1 (ix2 b k) = pSum (xarr m c) (tarr m c) B k := by
  rw [inv_s1 m c b k t.val t.isLt, h7]
  exact (tile_total (fun x _ => probE x) (xarr m c) (tarr m c) b k (t.val / 8)).trans
    (congrArg (fun B' => pixSum (fun x _ => probE x) (xarr m c) (tarr m c) B' k) (row_eq b t B hB))
theorem fin_s2 (t : Fin cfg0.N) (h7 : t.val % 8 = 7) (B : Fin 128) (hB : B.val = 32 * (t.val / 8) + b.val) :
    (outsAt0 m c t.val t.isLt).s2 (ix2 b k) = iSum (xarr m c) (tarr m c) B k := by
  rw [inv_s2 m c b k t.val t.isLt, h7]
  exact (tile_total (fun x t => FloatOps.mulf (F := Ideal) (φ := .f32) (probE x) t) (xarr m c) (tarr m c) b k
    (t.val / 8)).trans
    (congrArg (fun B' => pixSum (fun x t => FloatOps.mulf (F := Ideal) (φ := .f32) (probE x) t) (xarr m c) (tarr m c) B' k)
      (row_eq b t B hB))
theorem fin_s3 (t : Fin cfg0.N) (h7 : t.val % 8 = 7) (B : Fin 128) (hB : B.val = 32 * (t.val / 8) + b.val) :
    (outsAt0 m c t.val t.isLt).s3 (ix2 b k) = mSum (xarr m c) (tarr m c) B k := by
  rw [inv_s3 m c b k t.val t.isLt, h7]
  exact (tile_total (fun x _ => maskE x) (xarr m c) (tarr m c) b k (t.val / 8)).trans
    (congrArg (fun B' => pixSum (fun x _ => maskE x) (xarr m c) (tarr m c) B' k) (row_eq b t B hB))
theorem fin_s4 (t : Fin cfg0.N) (h7 : t.val % 8 = 7) (B : Fin 128) (hB : B.val = 32 * (t.val / 8) + b.val) :
    (outsAt0 m c t.val t.isLt).s4 (ix2 b k) = i2Sum (xarr m c) (tarr m c) B k := by
  rw [inv_s4 m c b k t.val t.isLt, h7]
  exact (tile_total (fun x t => FloatOps.mulf (F := Ideal) (φ := .f32) (maskE x) t) (xarr m c) (tarr m c) b k
    (t.val / 8)).trans
    (congrArg (fun B' => pixSum (fun x t => FloatOps.mulf (F := Ideal) (φ := .f32) (maskE x) t) (xarr m c) (tarr m c) B' k)
      (row_eq b t B hB))
theorem fin_s5 (t : Fin cfg0.N) (h7 : t.val % 8 = 7) (B : Fin 128) (hB : B.val = 32 * (t.val / 8) + b.val) :
    (outsAt0 m c t.val t.isLt).s5 (ix2 b (0 : Fin 1)) = tSum (tarr m c) B := by
  rw [inv_s5 m c b t.val t.isLt, h7]
  exact (tileT_total (tarr m c) b (t.val / 8)).trans (congrArg (fun B' => tSum (tarr m c) B') (row_eq b t B hB))

theorem res3 (t : Fin cfg0.N) (h7 : t.val % 8 = 7) : (outsAt0 m c t.val t.isLt).o3 = k0_pay3 (outsAt0 m c t.val t.isLt).s0 := by
  have h0 : ¬t.val % 8 = 0 := by omega
  rw [outsAt0_C m c t h0 h7]
  exact caseC_o3 m c t _ _ _
theorem res4 (t : Fin cfg0.N) (h7 : t.val % 8 = 7) : (outsAt0 m c t.val t.isLt).o4
    = k0_pay4 (outsAt0 m c t.val t.isLt).s5 (outsAt0 m c t.val t.isLt).s2 (outsAt0 m c t.val t.isLt).s1 := by
  have h0 : ¬t.val % 8 = 0 := by omega
  rw [outsAt0_C m c t h0 h7]
  exact caseC_o4 m c t _ _ _
theorem res5 (t : Fin cfg0.N) (h7 : t.val % 8 = 7) : (outsAt0 m c t.val t.isLt).o5
    = k0_pay5 (outsAt0 m c t.val t.isLt).s5 (outsAt0 m c t.val t.isLt).s4 (outsAt0 m c t.val t.isLt).s3
        (outsAt0 m c t.val t.isLt).s4 (qblk m c t) := by
  have h0 : ¬t.val % 8 = 0 := by omega
  rw [outsAt0_C m c t h0 h7]
  exact caseC_o5 m c t _ _ _
theorem res6 (t : Fin cfg0.N) (h7 : t.val % 8 = 7) : (outsAt0 m c t.val t.isLt).o6 = (outsAt0 m c t.val t.isLt).s5 := by
  have h0 : ¬t.val % 8 = 0 := by omega
  rw [outsAt0_C m c t h0 h7]
  exact caseC_o6 m c t _ _ _

theorem row3 (t : Fin cfg0.N) (h7 : t.val % 8 = 7) (B : Fin 128) (hB : B.val = 32 * (t.val / 8) + b.val) :
    (outsAt0 m c t.val t.isLt).o3 (ix2 b k) = focalS (xarr m c) (tarr m c) (ix2 B k) := by
  rw [res3 m c t h7, pay3_apply, fin_s0 m c b k t h7 B hB]
  rfl

theorem row4 (t : Fin cfg0.N) (h7 : t.val % 8 = 7) (B : Fin 128) (hB : B.val = 32 * (t.val / 8) + b.val) :
    (outsAt0 m c t.val t.isLt).o4 (ix2 b k) = diceS (xarr m c) (tarr m c) (ix2 B k) := by
  rw [res4 m c t h7, pay4_apply b k, fin_s2 m c b k t h7 B hB, fin_s1 m c b k t h7 B hB, fin_s5 m c b t h7 B hB]
  rfl

theorem row5 (t : Fin cfg0.N) (h7 : t.val % 8 = 7) (B : Fin 128) (hB : B.val = 32 * (t.val / 8) + b.val) :
    (outsAt0 m c t.val t.isLt).o5 (ix2 b k) = iouS (xarr m c) (qarr m c) (tarr m c) (ix2 B k) := by
  rw [res5 m c t h7, pay5_apply_same b k, fin_s4 m c b k t h7 B hB, fin_s3 m c b k t h7 B hB,
    fin_s5 m c b t h7 B hB, qblk_read m c t b k B hB]
  rfl

theorem row6 (t : Fin cfg0.N) (h7 : t.val % 8 = 7) (B : Fin 128) (hB : B.val = 32 * (t.val / 8) + b.val) :
    (outsAt0 m c t.val t.isLt).o6 (ix2 b (0 : Fin 1)) = tSum (tarr m c) B := by
  rw [res6 m c t h7, fin_s5 m c b t h7 B hB]

end Acc

end Cert.KernelIdeal.KValue

end
-- ==== Proof.KI.VArr.lean ====
import proofs.«119910_j28707561407033_1_alg».proof.Proof.KI.FrameDefs
import proofs.«119910_j28707561407033_1_alg».proof.Proof.KI.VNames
import Idealize.ShloMosaic.Lib.Pipeline.Value
import Idealize.ShloMosaic.Lib.ValueIdx

noncomputable section

namespace Cert.KernelIdeal.KValue

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- Row `i0` of 128 lies in the 32-row block stored at the last point of grid row `i0 / 32`; a block spans every column. -/
theorem rows_cover {K : ℕ} (idx : Fin cfg0.N → Fin 2 → ℕ) (hidx : ∀ t, idx t (0 : Fin 2) = t.val / 8 ∧ idx t (1 : Fin 2) = 0)
    {i0 i1 : ℕ} (h0 : i0 < 128) (h1 : i1 < K) :
    ∃ t : Fin cfg0.N, t.val % 8 = 7 ∧ (idx t (0 : Fin 2) * 32 ≤ i0 ∧ i0 < idx t (0 : Fin 2) * 32 + 32)
      ∧ (idx t (1 : Fin 2) * K ≤ i1 ∧ i1 < idx t (1 : Fin 2) * K + K) := by
  have hlt : 8 * (i0 / 32) + 7 < cfg0.N := by rw [show cfg0.N = 32 from N_0]; omega
  obtain ⟨e0, e1⟩ := hidx ⟨8 * (i0 / 32) + 7, hlt⟩
  refine ⟨⟨8 * (i0 / 32) + 7, hlt⟩, by show (8 * (i0 / 32) + 7) % 8 = 7; omega, ?_, ?_⟩
  · rw [e0]; show (8 * (i0 / 32) + 7) / 8 * 32 ≤ i0 ∧ i0 < (8 * (i0 / 32) + 7) / 8 * 32 + 32; omega
  · rw [e1]; omega

theorem oidx3 : ∀ t : Fin cfg0.N, win0_3.index t (0 : Fin 2) = t.val / 8 ∧ win0_3.index t (1 : Fin 2) = 0 :=
  (by decide +kernel : ∀ t : Fin grid0.N, _)

theorem flushed3_eq (c : Dev nD) (G : Vec Ideal S128x4 .f32)
    (h : ∀ t : Fin cfg0.N, t.val % 8 = 7 → ∀ (b : Fin 32) (k : Fin 4) (B : Fin 128), B.val = 32 * (t.val / 8) + b.val →
      (outsAt0 m c t.val t.isLt).o3 (ix2 b k) = G (ix2 B k))
    (t : Fin cfg0.N) (hf : (cfg0.win 3).flush t = true) :
    (dats (F := Ideal) m 0 c).flushed 3 t = ((cfg0.win 3).blk t).view.read (Elt Ideal) G := by
  have h7 : t.val % 8 = 7 := (flush0_3 t).mp hf
  have hN : t.val < 32 := Nat.lt_of_lt_of_eq t.isLt N_0
  obtain ⟨e0, e1⟩ := oidx3 t
  show (cfg0.win 3).cut (grid0.coords t) ((dats (F := Ideal) m 0 c).after 3 t) = _
  rw [after0_3]
  refine funext fun (y : S32x4.Idx) => ?_
  have hy0 : (y 0).val < 32 := (y 0).isLt
  have hy1 : (y 1).val < 4 := (y 1).isLt
  have key := h t h7 (y 0) (y 1) ⟨32 * (t.val / 8) + (y 0).val, by omega⟩ rfl
  refine (Eq.trans ?_ key).trans ?_
  · exact congrArg (outsAt0 m c t.val t.isLt).o3 (funext fun a => Fin.ext (by
      match a with
      | ⟨0, _⟩ => rfl
      | ⟨1, _⟩ => rfl))
  · rw [View.read_apply]
    show G _ = G _
    congr 1
    funext a
    apply Fin.ext
    match a with
    | ⟨0, _⟩ => show 32 * (t.val / 8) + (y 0).val = win0_3.index t (0 : Fin 2) * 32 + 1 * (y 0).val; rw [e0]; omega
    | ⟨1, _⟩ => show (y 1).val = win0_3.index t (1 : Fin 2) * 4 + 1 * (y 1).val; rw [e1]; omega

theorem mem_blk3 (t : Fin cfg0.N) (i : S128x4.Idx) :
    i ∈ ((cfg0.win 3).blk t).view.set
      ↔ ∀ a : Fin 2, win0_3.index t a * S32x4.size a ≤ (i a).val ∧ (i a).val < win0_3.index t a * S32x4.size a + S32x4.size a := by
  show i ∈ ((View.whole main_v0_0).slice (win0_3.rect t)).set ↔ _
  rw [View.set_slice_whole, Rect.mem_set_unit]
  exact Iff.rfl

theorem arr3_of_rows (c : Dev nD) (G : Vec Ideal S128x4 .f32)
    (h : ∀ t : Fin cfg0.N, t.val % 8 = 7 → ∀ (b : Fin 32) (k : Fin 4) (B : Fin 128), B.val = 32 * (t.val / 8) + b.val →
      (outsAt0 m c t.val t.isLt).o3 (ix2 b k) = G (ix2 B k)) :
    (dats (F := Ideal) m 0 c).arrAt 3 cfg0.N = G :=
  (dats (F := Ideal) m 0 c).arrAt_eq_of_cover 3 G (flushed3_eq m c G h) fun (i : S128x4.Idx) => by
    obtain ⟨t, h7, ha, hb⟩ := rows_cover (K := 4) win0_3.index oidx3 (i 0).isLt (i 1).isLt
    exact ⟨t, (flush0_3 t).mpr h7, (mem_blk3 t i).mpr fun a => by
      match a with
      | ⟨0, _⟩ => exact ha
      | ⟨1, _⟩ => exact hb⟩

theorem oidx4 : ∀ t : Fin cfg0.N, win0_4.index t (0 : Fin 2) = t.val / 8 ∧ win0_4.index t (1 : Fin 2) = 0 :=
  (by decide +kernel : ∀ t : Fin grid0.N, _)

theorem flushed4_eq (c : Dev nD) (G : Vec Ideal S128x4 .f32)
    (h : ∀ t : Fin cfg0.N, t.val % 8 = 7 → ∀ (b : Fin 32) (k : Fin 4) (B : Fin 128), B.val = 32 * (t.val / 8) + b.val →
      (outsAt0 m c t.val t.isLt).o4 (ix2 b k) = G (ix2 B k))
    (t : Fin cfg0.N) (hf : (cfg0.win 4).flush t = true) :
    (dats (F := Ideal) m 0 c).flushed 4 t = ((cfg0.win 4).blk t).view.read (Elt Ideal) G := by
  have h7 : t.val % 8 = 7 := (flush0_4 t).mp hf
  have hN : t.val < 32 := Nat.lt_of_lt_of_eq t.isLt N_0
  obtain ⟨e0, e1⟩ := oidx4 t
  show (cfg0.win 4).cut (grid0.coords t) ((dats (F := Ideal) m 0 c).after 4 t) = _
  rw [after0_4]
  refine funext fun (y : S32x4.Idx) => ?_
  have hy0 : (y 0).val < 32 := (y 0).isLt
  have hy1 : (y 1).val < 4 := (y 1).isLt
  have key := h t h7 (y 0) (y 1) ⟨32 * (t.val / 8) + (y 0).val, by omega⟩ rfl
  refine (Eq.trans ?_ key).trans ?_
  · exact congrArg (outsAt0 m c t.val t.isLt).o4 (funext fun a => Fin.ext (by
      match a with
      | ⟨0, _⟩ => rfl
      | ⟨1, _⟩ => rfl))
  · rw [View.read_apply]
    show G _ = G _
    congr 1
    funext a
    apply Fin.ext
    match a with
    | ⟨0, _⟩ => show 32 * (t.val / 8) + (y 0).val = win0_4.index t (0 : Fin 2) * 32 + 1 * (y 0).val; rw [e0]; omega
    | ⟨1, _⟩ => show (y 1).val = win0_4.index t (1 : Fin 2) * 4 + 1 * (y 1).val; rw [e1]; omega

theorem mem_blk4 (t : Fin cfg0.N) (i : S128x4.Idx) :
    i ∈ ((cfg0.win 4).blk t).view.set
      ↔ ∀ a : Fin 2, win0_4.index t a * S32x4.size a ≤ (i a).val ∧ (i a).val < win0_4.index t a * S32x4.size a + S32x4.size a := by
  show i ∈ ((View.whole main_v0_1).slice (win0_4.rect t)).set ↔ _
  rw [View.set_slice_whole, Rect.mem_set_unit]
  exact Iff.rfl

theorem arr4_of_rows (c : Dev nD) (G : Vec Ideal S128x4 .f32)
    (h : ∀ t : Fin cfg0.N, t.val % 8 = 7 → ∀ (b : Fin 32) (k : Fin 4) (B : Fin 128), B.val = 32 * (t.val / 8) + b.val →
      (outsAt0 m c t.val t.isLt).o4 (ix2 b k) = G (ix2 B k)) :
    (dats (F := Ideal) m 0 c).arrAt 4 cfg0.N = G :=
  (dats (F := Ideal) m 0 c).arrAt_eq_of_cover 4 G (flushed4_eq m c G h) fun (i : S128x4.Idx) => by
    obtain ⟨t, h7, ha, hb⟩ := rows_cover (K := 4) win0_4.index oidx4 (i 0).isLt (i 1).isLt
    exact ⟨t, (flush0_4 t).mpr h7, (mem_blk4 t i).mpr fun a => by
      match a with
      | ⟨0, _⟩ => exact ha
      | ⟨1, _⟩ => exact hb⟩

theorem oidx5 : ∀ t : Fin cfg0.N, win0_5.index t (0 : Fin 2) = t.val / 8 ∧ win0_5.index t (1 : Fin 2) = 0 :=
  (by decide +kernel : ∀ t : Fin grid0.N, _)

theorem flushed5_eq (c : Dev nD) (G : Vec Ideal S128x4 .f32)
    (h : ∀ t : Fin cfg0.N, t.val % 8 = 7 → ∀ (b : Fin 32) (k : Fin 4) (B : Fin 128), B.val = 32 * (t.val / 8) + b.val →
      (outsAt0 m c t.val t.isLt).o5 (ix2 b k) = G (ix2 B k))
    (t : Fin cfg0.N) (hf : (cfg0.win 5).flush t = true) :
    (dats (F := Ideal) m 0 c).flushed 5 t = ((cfg0.win 5).blk t).view.read (Elt Ideal) G := by
  have h7 : t.val % 8 = 7 := (flush0_5 t).mp hf
  have hN : t.val < 32 := Nat.lt_of_lt_of_eq t.isLt N_0
  obtain ⟨e0, e1⟩ := oidx5 t
  show (cfg0.win 5).cut (grid0.coords t) ((dats (F := Ideal) m 0 c).after 5 t) = _
  rw [after0_5]
  refine funext fun (y : S32x4.Idx) => ?_
  have hy0 : (y 0).val < 32 := (y 0).isLt
  have hy1 : (y 1).val < 4 := (y 1).isLt
  have key := h t h7 (y 0) (y 1) ⟨32 * (t.val / 8) + (y 0).val, by omega⟩ rfl
  refine (Eq.trans ?_ key).trans ?_
  · exact congrArg (outsAt0 m c t.val t.isLt).o5 (funext fun a => Fin.ext (by
      match a with
      | ⟨0, _⟩ => rfl
      | ⟨1, _⟩ => rfl))
  · rw [View.read_apply]
    show G _ = G _
    congr 1
    funext a
    apply Fin.ext
    match a with
    | ⟨0, _⟩ => show 32 * (t.val / 8) + (y 0).val = win0_5.index t (0 : Fin 2) * 32 + 1 * (y 0).val; rw [e0]; omega
    | ⟨1, _⟩ => show (y 1).val = win0_5.index t (1 : Fin 2) * 4 + 1 * (y 1).val; rw [e1]; omega

theorem mem_blk5 (t : Fin cfg0.N) (i : S128x4.Idx) :
    i ∈ ((cfg0.win 5).blk t).view.set
      ↔ ∀ a : Fin 2, win0_5.index t a * S32x4.size a ≤ (i a).val ∧ (i a).val < win0_5.index t a * S32x4.size a + S32x4.size a := by
  show i ∈ ((View.whole main_v0_2).slice (win0_5.rect t)).set ↔ _
  rw [View.set_slice_whole, Rect.mem_set_unit]
  exact Iff.rfl

theorem arr5_of_rows (c : Dev nD) (G : Vec Ideal S128x4 .f32)
    (h : ∀ t : Fin cfg0.N, t.val % 8 = 7 → ∀ (b : Fin 32) (k : Fin 4) (B : Fin 128), B.val = 32 * (t.val / 8) + b.val →
      (outsAt0 m c t.val t.isLt).o5 (ix2 b k) = G (ix2 B k)) :
    (dats (F := Ideal) m 0 c).arrAt 5 cfg0.N = G :=
  (dats (F := Ideal) m 0 c).arrAt_eq_of_cover 5 G (flushed5_eq m c G h) fun (i : S128x4.Idx) => by
    obtain ⟨t, h7, ha, hb⟩ := rows_cover (K := 4) win0_5.index oidx5 (i 0).isLt (i 1).isLt
    exact ⟨t, (flush0_5 t).mpr h7, (mem_blk5 t i).mpr fun a => by
      match a with
      | ⟨0, _⟩ => exact ha
      | ⟨1, _⟩ => exact hb⟩

theorem oidx6 : ∀ t : Fin cfg0.N, win0_6.index t (0 : Fin 2) = t.val / 8 ∧ win0_6.index t (1 : Fin 2) = 0 :=
  (by decide +kernel : ∀ t : Fin grid0.N, _)

theorem flushed6_eq (c : Dev nD) (G : Vec Ideal S128x1 .f32)
    (h : ∀ t : Fin cfg0.N, t.val % 8 = 7 → ∀ (b : Fin 32) (B : Fin 128), B.val = 32 * (t.val / 8) + b.val →
      (outsAt0 m c t.val t.isLt).o6 (ix2 b (0 : Fin 1)) = G (ix2 B (0 : Fin 1)))
    (t : Fin cfg0.N) (hf : (cfg0.win 6).flush t = true) :
    (dats (F := Ideal) m 0 c).flushed 6 t = ((cfg0.win 6).blk t).view.read (Elt Ideal) G := by
  have h7 : t.val % 8 = 7 := (flush0_6 t).mp hf
  have hN : t.val < 32 := Nat.lt_of_lt_of_eq t.isLt N_0
  obtain ⟨e0, e1⟩ := oidx6 t
  show (cfg0.win 6).cut (grid0.coords t) ((dats (F := Ideal) m 0 c).after 6 t) = _
  rw [after0_6]
  refine funext fun (y : S32x1.Idx) => ?_
  have hy0 : (y 0).val < 32 := (y 0).isLt
  have hy1 : (y 1).val < 1 := (y 1).isLt
  have key := h t h7 (y 0) ⟨32 * (t.val / 8) + (y 0).val, by omega⟩ rfl
  refine (Eq.trans ?_ key).trans ?_
  · exact congrArg (outsAt0 m c t.val t.isLt).o6 (funext fun a => Fin.ext (by
      match a with
      | ⟨0, _⟩ => rfl
      | ⟨1, _⟩ => show (y 1).val = (0 : Fin 1).val; omega))
  · rw [View.read_apply]
    show G _ = G _
    congr 1
    funext a
    apply Fin.ext
    match a with
    | ⟨0, _⟩ => show 32 * (t.val / 8) + (y 0).val = win0_6.index t (0 : Fin 2) * 32 + 1 * (y 0).val; rw [e0]; omega
    | ⟨1, _⟩ => show (0 : Fin 1).val = win0_6.index t (1 : Fin 2) * 1 + 1 * (y 1).val; rw [e1]; show (0 : ℕ) = 0 * 1 + 1 * (y 1).val; omega

theorem mem_blk6 (t : Fin cfg0.N) (i : S128x1.Idx) :
    i ∈ ((cfg0.win 6).blk t).view.set
      ↔ ∀ a : Fin 2, win0_6.index t a * S32x1.size a ≤ (i a).val ∧ (i a).val < win0_6.index t a * S32x1.size a + S32x1.size a := by
  show i ∈ ((View.whole main_v0_3).slice (win0_6.rect t)).set ↔ _
  rw [View.set_slice_whole, Rect.mem_set_unit]
  exact Iff.rfl

theorem arr6_of_rows (c : Dev nD) (G : Vec Ideal S128x1 .f32)
    (h : ∀ t : Fin cfg0.N, t.val % 8 = 7 → ∀ (b : Fin 32) (B : Fin 128), B.val = 32 * (t.val / 8) + b.val →
      (outsAt0 m c t.val t.isLt).o6 (ix2 b (0 : Fin 1)) = G (ix2 B (0 : Fin 1))) :
    (dats (F := Ideal) m 0 c).arrAt 6 cfg0.N = G :=
  (dats (F := Ideal) m 0 c).arrAt_eq_of_cover 6 G (flushed6_eq m c G h) fun (i : S128x1.Idx) => by
    obtain ⟨t, h7, ha, hb⟩ := rows_cover (K := 1) win0_6.index oidx6 (i 0).isLt (i 1).isLt
    exact ⟨t, (flush0_6 t).mpr h7, (mem_blk6 t i).mpr fun a => by
      match a with
      | ⟨0, _⟩ => exact ha
      | ⟨1, _⟩ => exact hb⟩

end Cert.KernelIdeal.KValue

end
-- ==== Proof.KI.Value.lean ====
import proofs.«119910_j28707561407033_1_alg».proof.Proof.KI.VInv
import proofs.«119910_j28707561407033_1_alg».proof.Proof.KI.VArr

noncomputable section

namespace Cert.KernelIdeal.KValue

open Cert.KernelIdeal Cert.KernelIdeal.Gen Cert.KernelIdeal.Fr
open Idealize.ShloMosaic Idealize.ShloMosaic.TcCoe Idealize.SL.Sem
open Idealize.ShloMosaic.Pipeline (Dat)

variable (m : (ℓ : Loc nD τ sig) → Buf (Elt Ideal) ℓ)

theorem arr3 (c : Dev nD) :
    (dats (F := Ideal) m 0 c).arrAt 3 cfg0.N = Cert.Spec.focalS (V m c main_arg0) (V m c main_arg2) :=
  arr3_of_rows m c (Cert.Spec.focalS (V m c main_arg0) (V m c main_arg2))
    fun t h7 b k B hB => row3 m c b k t h7 B hB

theorem arr4 (c : Dev nD) :
    (dats (F := Ideal) m 0 c).arrAt 4 cfg0.N = Cert.Spec.diceS (V m c main_arg0) (V m c main_arg2) :=
  arr4_of_rows m c (Cert.Spec.diceS (V m c main_arg0) (V m c main_arg2))
    fun t h7 b k B hB => row4 m c b k t h7 B hB

theorem arr5 (c : Dev nD) :
    (dats (F := Ideal) m 0 c).arrAt 5 cfg0.N
      = Cert.Spec.iouS (V m c main_arg0) (V m c main_arg1) (V m c main_arg2) :=
  arr5_of_rows m c (Cert.Spec.iouS (V m c main_arg0) (V m c main_arg1) (V m c main_arg2))
    fun t h7 b k B hB => row5 m c b k t h7 B hB

theorem arr6 (c : Dev nD) :
    (dats (F := Ideal) m 0 c).arrAt 6 cfg0.N = fun j => Cert.Spec.tSum (V m c main_arg2) (j 0) :=
  arr6_of_rows m c (fun j => Cert.Spec.tSum (V m c main_arg2) (j 0))
    fun t h7 b B hB => row6 m c b t h7 B hB

end Cert.KernelIdeal.KValue

end
-- ==== Proof.Tail.lean ====
import proofs.«119910_j28707561407033_1_alg».proof.KernelIdeal
import Idealize.ShloMosaic.PureOps.Ideal

noncomputable section

namespace Cert.Tail

open Cert.KernelIdeal Idealize.ShloMosaic
open Cert.KernelIdeal.Facts₀

variable [Facts₀]

def ratioOf (tsum : (⟨S128, .f32⟩ : BufTy).Contents (Elt Ideal)) : (⟨S128, .f32⟩ : BufTy).Contents (Elt Ideal) :=
  Host.divf (F := Ideal) (φ := .f32) tsum (broadcastInDim S128 ![] bcast_S_S128 (constant (F := Ideal) S_ .f32 0x47800000#32))

def validOf (lo hi : (⟨S4, .f32⟩ : BufTy).Contents (Elt Ideal)) (tsum : (⟨S128, .f32⟩ : BufTy).Contents (Elt Ideal)) :
    (⟨S128x4, .f32⟩ : BufTy).Contents (Elt Ideal) :=
  uitofp (F := Ideal) .f32
    (andi
      (cmpf (F := Ideal) (φ := .f32) .ogt
        (broadcastInDim S128x4 ![0, 1] bcast_S128x1_S128x4_0_1 (broadcastInDim S128x1 ![0] bcast_S128_S128x1_0 (ratioOf tsum)))
        (broadcastInDim S128x4 ![0, 1] bcast_S1x4_S128x4_0_1 (broadcastInDim S1x4 ![1] bcast_S4_S1x4_1 lo)))
      (cmpf (F := Ideal) (φ := .f32) .olt
        (broadcastInDim S128x4 ![0, 1] bcast_S128x1_S128x4_0_1 (broadcastInDim S128x1 ![0] bcast_S128_S128x1_0 (ratioOf tsum)))
        (broadcastInDim S128x4 ![0, 1] bcast_S1x4_S128x4_0_1 (broadcastInDim S1x4 ![1] bcast_S4_S1x4_1 hi))))

def valid (tsum : (⟨S128, .f32⟩ : BufTy).Contents (Elt Ideal)) : (⟨S128x4, .f32⟩ : BufTy).Contents (Elt Ideal) :=
  validOf (fun i => FloatOps.ofBits (F := Ideal) .f32 (lit0 (S4.rowMajor i))) (fun i => FloatOps.ofBits (F := Ideal) .f32 (lit1 (S4.rowMajor i))) tsum

def cnt (valid : (⟨S128x4, .f32⟩ : BufTy).Contents (Elt Ideal)) : (⟨S128, .f32⟩ : BufTy).Contents (Elt Ideal) :=
  Host.reduceAdd (F := Ideal) (φ := .f32) valid (constant (F := Ideal) S_ .f32 0x00000000#32) reducesTo_S128x4_S128_d1 h_S_

def perSample (loss valid : (⟨S128x4, .f32⟩ : BufTy).Contents (Elt Ideal)) : (⟨S128, .f32⟩ : BufTy).Contents (Elt Ideal) :=
  select
    (cmpf (F := Ideal) (φ := .f32) .ogt (cnt valid) (broadcastInDim S128 ![] bcast_S_S128 (constant (F := Ideal) S_ .f32 0x00000000#32)))
    (Host.divf (F := Ideal)
      (Host.reduceAdd (F := Ideal) (φ := .f32) (mulf (F := Ideal) (φ := .f32) loss valid) (constant (F := Ideal) S_ .f32 0x00000000#32) reducesTo_S128x4_S128_d1 h_S_)
      (maximumf (F := Ideal) (φ := .f32) (cnt valid) (broadcastInDim S128 ![] bcast_S_S128 (constant (F := Ideal) S_ .f32 0x3F800000#32))))
    (broadcastInDim S128 ![] bcast_S_S128 (constant (F := Ideal) S_ .f32 0x00000000#32))

def nValid (valid : (⟨S128x4, .f32⟩ : BufTy).Contents (Elt Ideal)) : (⟨S_, .f32⟩ : BufTy).Contents (Elt Ideal) :=
  Host.reduceAdd (F := Ideal)
    (uitofp (F := Ideal) .f32
      (cmpf (F := Ideal) (φ := .f32) .ogt (cnt valid) (broadcastInDim S128 ![] bcast_S_S128 (constant (F := Ideal) S_ .f32 0x00000000#32))))
    (constant (F := Ideal) S_ .f32 0x00000000#32) reducesTo_S128_S_d0 h_S_

def total (loss valid : (⟨S128x4, .f32⟩ : BufTy).Contents (Elt Ideal)) : (⟨S_, .f32⟩ : BufTy).Contents (Elt Ideal) :=
  Host.reduceAdd (F := Ideal) (φ := .f32) (perSample loss valid) (constant (F := Ideal) S_ .f32 0x00000000#32) reducesTo_S128_S_d0 h_S_

def agg (loss valid : (⟨S128x4, .f32⟩ : BufTy).Contents (Elt Ideal)) : (⟨S_, .f32⟩ : BufTy).Contents (Elt Ideal) :=
  select
    (cmpf (F := Ideal) (φ := .f32) .ogt (nValid valid) (constant (F := Ideal) S_ .f32 0x00000000#32))
    (Host.divf (F := Ideal) (φ := .f32) (total loss valid) (maximumf (F := Ideal) (φ := .f32) (nValid valid) (constant (F := Ideal) S_ .f32 0x3F800000#32)))
    (total loss valid)

def out0 (focal : (⟨S128x4, .f32⟩ : BufTy).Contents (Elt Ideal)) (tsum : (⟨S128, .f32⟩ : BufTy).Contents (Elt Ideal)) :
    (⟨S_, .f32⟩ : BufTy).Contents (Elt Ideal) :=
  mulf (F := Ideal) (φ := .f32) (constant (F := Ideal) S_ .f32 0x41A00000#32) (agg focal (valid tsum))

def out1 (dice : (⟨S128x4, .f32⟩ : BufTy).Contents (Elt Ideal)) (tsum : (⟨S128, .f32⟩ : BufTy).Contents (Elt Ideal)) :
    (⟨S_, .f32⟩ : BufTy).Contents (Elt Ideal) :=
  mulf (F := Ideal) (φ := .f32) (constant (F := Ideal) S_ .f32 0x3F800000#32) (agg dice (valid tsum))

def out2 (iou : (⟨S128x4, .f32⟩ : BufTy).Contents (Elt Ideal)) (tsum : (⟨S128, .f32⟩ : BufTy).Contents (Elt Ideal)) :
    (⟨S_, .f32⟩ : BufTy).Contents (Elt Ideal) :=
  mulf (F := Ideal) (φ := .f32) (constant (F := Ideal) S_ .f32 0x3F800000#32) (agg iou (valid tsum))

def outOf (w : BitVec 32) (lo hi : (⟨S4, .f32⟩ : BufTy).Contents (Elt Ideal)) (loss : (⟨S128x4, .f32⟩ : BufTy).Contents (Elt Ideal))
    (tsum : (⟨S128, .f32⟩ : BufTy).Contents (Elt Ideal)) : (⟨S_, .f32⟩ : BufTy).Contents (Elt Ideal) :=
  mulf (F := Ideal) (φ := .f32) (constant (F := Ideal) S_ .f32 w) (agg loss (validOf lo hi tsum))

theorem out0_eq_outOf (focal : (⟨S128x4, .f32⟩ : BufTy).Contents (Elt Ideal)) (tsum : (⟨S128, .f32⟩ : BufTy).Contents (Elt Ideal)) :
    out0 focal tsum = outOf 0x41A00000#32 (fun i => FloatOps.ofBits (F := Ideal) .f32 (lit0 (S4.rowMajor i)))
      (fun i => FloatOps.ofBits (F := Ideal) .f32 (lit1 (S4.rowMajor i))) focal tsum := rfl
theorem out1_eq_outOf (dice : (⟨S128x4, .f32⟩ : BufTy).Contents (Elt Ideal)) (tsum : (⟨S128, .f32⟩ : BufTy).Contents (Elt Ideal)) :
    out1 dice tsum = outOf 0x3F800000#32 (fun i => FloatOps.ofBits (F := Ideal) .f32 (lit0 (S4.rowMajor i)))
      (fun i => FloatOps.ofBits (F := Ideal) .f32 (lit1 (S4.rowMajor i))) dice tsum := rfl
theorem out2_eq_outOf (iou : (⟨S128x4, .f32⟩ : BufTy).Contents (Elt Ideal)) (tsum : (⟨S128, .f32⟩ : BufTy).Contents (Elt Ideal)) :
    out2 iou tsum = outOf 0x3F800000#32 (fun i => FloatOps.ofBits (F := Ideal) .f32 (lit0 (S4.rowMajor i)))
      (fun i => FloatOps.ofBits (F := Ideal) .f32 (lit1 (S4.rowMajor i))) iou tsum := rfl

end Cert.Tail
-- ==== Proof.KTail.lean ====
import proofs.«119910_j28707561407033_1_alg».proof.Proof.Tail
import proofs.«119910_j28707561407033_1_alg».proof.Proof.Gen.KernelIdeal.Launch
import Idealize.ShloMosaic.Lib.Pipeline.Frame

noncomputable section

namespace Cert.KernelIdeal.KTail

open Cert.KernelIdeal Idealize.ShloMosaic Idealize.ShloMosaic.TcCoe Idealize.ShloMosaic.StableHlo
open Cert.KernelIdeal.Facts₀

abbrev tailOps : List (List (HloOp τ sig (Elt Ideal))) :=
  [Gen.hostOps1, Gen.hostOps1_1, Gen.hostOps1_2, Gen.hostOps1_3, Gen.hostOps1_4, Gen.hostOps1_5, Gen.hostOps1_6,
   Gen.hostOps1_7, Gen.hostOps1_8, Gen.hostOps1_9, Gen.hostOps1_10, Gen.hostOps1_11, Gen.hostOps1_12]

abbrev tsumOf (W : Valuation τ sig (Elt Ideal)) : (⟨S128, .f32⟩ : BufTy).Contents (Elt Ideal) :=
  shapeCast S128 (W (main_v0_3 : DevRef τ sig)) shapeCasts_S128x1_S128

abbrev opsMask : List (HloOp τ sig (Elt Ideal)) := (Gen.hostOps1 (F := Ideal)).take 16

abbrev opsAgg0 : List (HloOp τ sig (Elt Ideal)) :=
  (Gen.hostOps1 (F := Ideal)).drop 16 ++ Gen.hostOps1_1 ++ Gen.hostOps1_2 ++ Gen.hostOps1_3 ++ (Gen.hostOps1_4 (F := Ideal)).take 2

abbrev opsAgg1 : List (HloOp τ sig (Elt Ideal)) :=
  (Gen.hostOps1_4 (F := Ideal)).drop 2 ++ Gen.hostOps1_5 ++ Gen.hostOps1_6 ++ Gen.hostOps1_7 ++ (Gen.hostOps1_8 (F := Ideal)).take 2

abbrev opsAgg2 : List (HloOp τ sig (Elt Ideal)) :=
  (Gen.hostOps1_8 (F := Ideal)).drop 2 ++ Gen.hostOps1_9 ++ Gen.hostOps1_10 ++ Gen.hostOps1_11 ++ Gen.hostOps1_12

theorem tail_split : tailOps.flatten = opsMask ++ (opsAgg0 ++ (opsAgg1 ++ opsAgg2)) := rfl

local macro "block_lit" : tactic =>
  `(tactic| simp only [opsMask, opsAgg0, opsAgg1, opsAgg2, Gen.hostOps1, Gen.hostOps1_1, Gen.hostOps1_2, Gen.hostOps1_3,
      Gen.hostOps1_4, Gen.hostOps1_5, Gen.hostOps1_6, Gen.hostOps1_7, Gen.hostOps1_8, Gen.hostOps1_9, Gen.hostOps1_10,
      Gen.hostOps1_11, Gen.hostOps1_12, List.take_succ_cons, List.take_zero, List.drop_succ_cons, List.drop_zero,
      List.cons_append, List.nil_append, List.append_nil])

theorem mask_v15 (V : Valuation τ sig (Elt Ideal)) :
    after opsMask V (main_v15 : DevRef τ sig)
      = Cert.Tail.validOf (V (main_cst : DevRef τ sig)) (V (main_cst_0 : DevRef τ sig)) (tsumOf V) := by
  block_lit
  after_results_simp
  rfl

theorem mask_keeps (V : Valuation τ sig (Elt Ideal)) :
    after opsMask V (main_v0_0 : DevRef τ sig) = V (main_v0_0 : DevRef τ sig)
    ∧ after opsMask V (main_v0_1 : DevRef τ sig) = V (main_v0_1 : DevRef τ sig)
    ∧ after opsMask V (main_v0_2 : DevRef τ sig) = V (main_v0_2 : DevRef τ sig)
    ∧ after opsMask V (main_arg0 : DevRef τ sig) = V (main_arg0 : DevRef τ sig)
    ∧ after opsMask V (main_arg1 : DevRef τ sig) = V (main_arg1 : DevRef τ sig)
    ∧ after opsMask V (main_arg2 : DevRef τ sig) = V (main_arg2 : DevRef τ sig) := by
  block_lit
  refine ⟨?_, ?_, ?_, ?_, ?_, ?_⟩ <;> after_results_simp

attribute [local irreducible] Host.reduceAdd in

theorem agg0_v34 (V : Valuation τ sig (Elt Ideal)) :
    after opsAgg0 V (main_v34 : DevRef τ sig)
      = mulf (F := Ideal) (φ := .f32) (constant (F := Ideal) S_ .f32 0x41A00000#32)
          (Cert.Tail.agg (V (main_v0_0 : DevRef τ sig)) (V (main_v15 : DevRef τ sig))) := by
  block_lit
  after_results_simp
  rfl

theorem agg0_keeps (V : Valuation τ sig (Elt Ideal)) :
    after opsAgg0 V (main_v15 : DevRef τ sig) = V (main_v15 : DevRef τ sig)
    ∧ after opsAgg0 V (main_v0_1 : DevRef τ sig) = V (main_v0_1 : DevRef τ sig)
    ∧ after opsAgg0 V (main_v0_2 : DevRef τ sig) = V (main_v0_2 : DevRef τ sig)
    ∧ after opsAgg0 V (main_arg0 : DevRef τ sig) = V (main_arg0 : DevRef τ sig)
    ∧ after opsAgg0 V (main_arg1 : DevRef τ sig) = V (main_arg1 : DevRef τ sig)
    ∧ after opsAgg0 V (main_arg2 : DevRef τ sig) = V (main_arg2 : DevRef τ sig) := by
  block_lit
  refine ⟨?_, ?_, ?_, ?_, ?_, ?_⟩ <;> after_results_simp

attribute [local irreducible] Host.reduceAdd in

theorem agg1_v53 (V : Valuation τ sig (Elt Ideal)) :
    after opsAgg1 V (main_v53 : DevRef τ sig)
      = mulf (F := Ideal) (φ := .f32) (constant (F := Ideal) S_ .f32 0x3F800000#32)
          (Cert.Tail.agg (V (main_v0_1 : DevRef τ sig)) (V (main_v15 : DevRef τ sig))) := by
  block_lit
  after_results_simp
  rfl

theorem agg1_keeps (V : Valuation τ sig (Elt Ideal)) :
    after opsAgg1 V (main_v34 : DevRef τ sig) = V (main_v34 : DevRef τ sig)
    ∧ after opsAgg1 V (main_v15 : DevRef τ sig) = V (main_v15 : DevRef τ sig)
    ∧ after opsAgg1 V (main_v0_2 : DevRef τ sig) = V (main_v0_2 : DevRef τ sig)
    ∧ after opsAgg1 V (main_arg0 : DevRef τ sig) = V (main_arg0 : DevRef τ sig)
    ∧ after opsAgg1 V (main_arg1 : DevRef τ sig) = V (main_arg1 : DevRef τ sig)
    ∧ after opsAgg1 V (main_arg2 : DevRef τ sig) = V (main_arg2 : DevRef τ sig) := by
  block_lit
  refine ⟨?_, ?_, ?_, ?_, ?_, ?_⟩ <;> after_results_simp

attribute [local irreducible] Host.reduceAdd in

theorem agg2_v72 (V : Valuation τ sig (Elt Ideal)) :
    after opsAgg2 V (main_v72 : DevRef τ sig)
      = mulf (F := Ideal) (φ := .f32) (constant (F := Ideal) S_ .f32 0x3F800000#32)
          (Cert.Tail.agg (V (main_v0_2 : DevRef τ sig)) (V (main_v15 : DevRef τ sig))) := by
  block_lit
  after_results_simp
  rfl

theorem agg2_keeps (V : Valuation τ sig (Elt Ideal)) :
    after opsAgg2 V (main_v34 : DevRef τ sig) = V (main_v34 : DevRef τ sig)
    ∧ after opsAgg2 V (main_v53 : DevRef τ sig) = V (main_v53 : DevRef τ sig)
    ∧ after opsAgg2 V (main_arg0 : DevRef τ sig) = V (main_arg0 : DevRef τ sig)
    ∧ after opsAgg2 V (main_arg1 : DevRef τ sig) = V (main_arg1 : DevRef τ sig)
    ∧ after opsAgg2 V (main_arg2 : DevRef τ sig) = V (main_arg2 : DevRef τ sig) := by
  block_lit
  refine ⟨?_, ?_, ?_, ?_, ?_⟩ <;> after_results_simp

theorem out0_eq (W : Valuation τ sig (Elt Ideal))
    (h0 : W (main_cst : DevRef τ sig) = fun i => FloatOps.ofBits (F := Ideal) .f32 (lit0 (S4.rowMajor i)))
    (h1 : W (main_cst_0 : DevRef τ sig) = fun i => FloatOps.ofBits (F := Ideal) .f32 (lit1 (S4.rowMajor i))) :
    after tailOps.flatten W (main_v34 : DevRef τ sig)
      = Cert.Tail.out0 (W (main_v0_0 : DevRef τ sig)) (tsumOf W) := by
  rw [tail_split, after_append, after_append, after_append, (agg2_keeps _).1, (agg1_keeps _).1, agg0_v34,
    (mask_keeps W).1, mask_v15, h0, h1]
  rfl

theorem out1_eq (W : Valuation τ sig (Elt Ideal))
    (h0 : W (main_cst : DevRef τ sig) = fun i => FloatOps.ofBits (F := Ideal) .f32 (lit0 (S4.rowMajor i)))
    (h1 : W (main_cst_0 : DevRef τ sig) = fun i => FloatOps.ofBits (F := Ideal) .f32 (lit1 (S4.rowMajor i))) :
    after tailOps.flatten W (main_v53 : DevRef τ sig)
      = Cert.Tail.out1 (W (main_v0_1 : DevRef τ sig)) (tsumOf W) := by
  rw [tail_split, after_append, after_append, after_append, (agg2_keeps _).2.1, agg1_v53, (agg0_keeps _).2.1,
    (agg0_keeps _).1, (mask_keeps W).2.1, mask_v15, h0, h1]
  rfl

theorem out2_eq (W : Valuation τ sig (Elt Ideal))
    (h0 : W (main_cst : DevRef τ sig) = fun i => FloatOps.ofBits (F := Ideal) .f32 (lit0 (S4.rowMajor i)))
    (h1 : W (main_cst_0 : DevRef τ sig) = fun i => FloatOps.ofBits (F := Ideal) .f32 (lit1 (S4.rowMajor i))) :
    after tailOps.flatten W (main_v72 : DevRef τ sig)
      = Cert.Tail.out2 (W (main_v0_2 : DevRef τ sig)) (tsumOf W) := by
  rw [tail_split, after_append, after_append, after_append, agg2_v72, (agg1_keeps _).2.2.1, (agg1_keeps _).2.1,
    (agg0_keeps _).2.2.1, (agg0_keeps _).1, (mask_keeps W).2.2.1, mask_v15, h0, h1]
  rfl

theorem keeps_arg0 (W : Valuation τ sig (Elt Ideal)) :
    after tailOps.flatten W (main_arg0 : DevRef τ sig) = W (main_arg0 : DevRef τ sig) := by
  rw [tail_split, after_append, after_append, after_append, (agg2_keeps _).2.2.1, (agg1_keeps _).2.2.2.1,
    (agg0_keeps _).2.2.2.1, (mask_keeps W).2.2.2.1]
theorem keeps_arg1 (W : Valuation τ sig (Elt Ideal)) :
    after tailOps.flatten W (main_arg1 : DevRef τ sig) = W (main_arg1 : DevRef τ sig) := by
  rw [tail_split, after_append, after_append, after_append, (agg2_keeps _).2.2.2.1, (agg1_keeps _).2.2.2.2.1,
    (agg0_keeps _).2.2.2.2.1, (mask_keeps W).2.2.2.2.1]
theorem keeps_arg2 (W : Valuation τ sig (Elt Ideal)) :
    after tailOps.flatten W (main_arg2 : DevRef τ sig) = W (main_arg2 : DevRef τ sig) := by
  rw [tail_split, after_append, after_append, after_append, (agg2_keeps _).2.2.2.2, (agg1_keeps _).2.2.2.2.2,
    (agg0_keeps _).2.2.2.2.2, (mask_keeps W).2.2.2.2.2]

theorem keeps (W : Valuation τ sig (Elt Ideal)) {b : Ref sig .tc} (hb : b = main_arg0 ∨ b = main_arg1 ∨ b = main_arg2) :
    after tailOps.flatten W (b : DevRef τ sig) = W (b : DevRef τ sig) := by
  rcases hb with rfl | rfl | rfl
  · exact keeps_arg0 W
  · exact keeps_arg1 W
  · exact keeps_arg2 W

end Cert.KernelIdeal.KTail
-- ==== Proof.KI.Out.lean ====
import proofs.«119910_j28707561407033_1_alg».proof.Proof.KI.Frame
import proofs.«119910_j28707561407033_1_alg».proof.Proof.KI.Value
import proofs.«119910_j28707561407033_1_alg».proof.Proof.KTail
import proofs.«119910_j28707561407033_1_alg».proof.Proof.Spec
import Idealize.ShloMosaic.Lib.Pipeline.Value

set_option maxRecDepth 16384

noncomputable section

namespace Cert.KernelIdeal.KOut

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)
open Cert.KernelIdeal.Facts₀

variable (m : (ℓ : Loc nD τ sig) → Buf (Elt Ideal) ℓ) (ρ : Dev nD → PrngReg)

abbrev X (c : Dev nD) : Cert.Spec.A0 := m ((c.tc : Thread nD τ).loc main_arg0)
abbrev Q (c : Dev nD) : Cert.Spec.A1 := m ((c.tc : Thread nD τ).loc main_arg1)
abbrev T (c : Dev nD) : Cert.Spec.A2 := m ((c.tc : Thread nD τ).loc main_arg2)

theorem V0_cst (c : Dev nD) :
    V0 (F := Ideal) m c (main_cst : DevRef τ sig) = fun i => FloatOps.ofBits (F := Ideal) .f32 (lit0 (S4.rowMajor i)) := by
  show StableHlo.after (Gen.hostOps0 (F := Ideal)) (fun b => m (c, b)) (Proc.devRef .tc main_cst) = _
  after_results
  rfl

theorem V0_cst_0 (c : Dev nD) :
    V0 (F := Ideal) m c (main_cst_0 : DevRef τ sig) = fun i => FloatOps.ofBits (F := Ideal) .f32 (lit1 (S4.rowMajor i)) := by
  show StableHlo.after (Gen.hostOps0 (F := Ideal)) (fun b => m (c, b)) (Proc.devRef .tc main_cst_0) = _
  after_results
  rfl

theorem tsum_cast (Tc : Cert.Spec.A2) :
    shapeCast S128 (fun j : S128x1.Idx => Cert.Spec.tSum Tc (j 0)) Facts₀.shapeCasts_S128x1_S128 = Cert.Spec.tsumS Tc := by
  funext j
  obtain ⟨b, rfl⟩ : ∃ b, j = ix1 b := ⟨j 0, eq_ix1 j⟩
  refine (shapeCast_apply _ _ (ix1 b) (ix2 b (0 : Fin 1)) ?_).trans rfl
  rw [Shape.rowMajor_val_two, Shape.rowMajor_val_one]
  show b.val * 1 + 0 = b.val
  omega

abbrev exitVal (dats : (p : Fin 1) → (c : Dev nD) → Dat τ (Elt Ideal) Unit ℕ (UR sig nD τ) ℕ (cfgs p) c) (c : Dev nD) :
    Valuation τ sig (Elt Ideal) :=
  Pipeline.withArrays spec0 c (V0 m c) fun w => (dats 0 c).arrAt w cfg0.N

theorem out_of (dats : (p : Fin 1) → (c : Dev nD) → Dat τ (Elt Ideal) Unit ℕ (UR sig nD τ) ℕ (cfgs p) c)
    (hA : ∀ c w, (dats 0 c).A w = V m c (Pipeline.arrRef spec0 w))
    (h3 : ∀ c, (dats 0 c).arrAt 3 cfg0.N = Cert.Spec.focalS (V m c main_arg0) (V m c main_arg2))
    (h4 : ∀ c, (dats 0 c).arrAt 4 cfg0.N = Cert.Spec.diceS (V m c main_arg0) (V m c main_arg2))
    (h5 : ∀ c, (dats 0 c).arrAt 5 cfg0.N = Cert.Spec.iouS (V m c main_arg0) (V m c main_arg1) (V m c main_arg2))
    (h6 : ∀ c, (dats 0 c).arrAt 6 cfg0.N = fun j => Cert.Spec.tSum (V m c main_arg2) (j 0))
    (h : θ_run defs (onTc (τ := τ) (main (F := Ideal))) (s₀ m ρ)
      (Pipeline.FramePost cfgs dats 0 (Pipeline.afterTail₀ cfgs dats 0 (V0 m) tailOps))) :
    θ_run defs (onTc (τ := τ) (main (F := Ideal))) ⟨m, fun _ => 0, ρ⟩ (fun r => ∀ c : Dev nD,
      r.2.mem ((c.tc : Thread nD τ).loc main_v34)
          = Cert.Tail.out0 (Cert.Spec.focalS (X m c) (T m c)) (Cert.Spec.tsumS (T m c))
      ∧ r.2.mem ((c.tc : Thread nD τ).loc main_v53)
          = Cert.Tail.out1 (Cert.Spec.diceS (X m c) (T m c)) (Cert.Spec.tsumS (T m c))
      ∧ r.2.mem ((c.tc : Thread nD τ).loc main_v72)
          = Cert.Tail.out2 (Cert.Spec.iouS (X m c) (Q m c) (T m c)) (Cert.Spec.tsumS (T m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r hr c => by
    have hW3 : exitVal m dats c (main_v0_0 : DevRef τ sig) = Cert.Spec.focalS (X m c) (T m c) :=
      (Pipeline.withArrays_arr spec0 launch0.win.arr_inj c _ _ 3).trans (h3 c)
    have hW4 : exitVal m dats c (main_v0_1 : DevRef τ sig) = Cert.Spec.diceS (X m c) (T m c) :=
      (Pipeline.withArrays_arr spec0 launch0.win.arr_inj c _ _ 4).trans (h4 c)
    have hW5 : exitVal m dats c (main_v0_2 : DevRef τ sig) = Cert.Spec.iouS (X m c) (Q m c) (T m c) :=
      (Pipeline.withArrays_arr spec0 launch0.win.arr_inj c _ _ 5).trans (h5 c)
    have hW6 : exitVal m dats c (main_v0_3 : DevRef τ sig) = fun j => Cert.Spec.tSum (T m c) (j 0) :=
      (Pipeline.withArrays_arr spec0 launch0.win.arr_inj c _ _ 6).trans (h6 c)
    have hc0 : exitVal m dats c (main_cst : DevRef τ sig)
        = fun i => FloatOps.ofBits (F := Ideal) .f32 (lit0 (S4.rowMajor i)) :=
      (Pipeline.withArrays_of_ne spec0 c _ _ main_cst (by decide)).trans (V0_cst m c)
    have hc1 : exitVal m dats c (main_cst_0 : DevRef τ sig)
        = fun i => FloatOps.ofBits (F := Ideal) .f32 (lit1 (S4.rowMajor i)) :=
      (Pipeline.withArrays_of_ne spec0 c _ _ main_cst_0 (by decide)).trans (V0_cst_0 m c)
    have hts : KTail.tsumOf (exitVal m dats c) = Cert.Spec.tsumS (T m c) := by
      show shapeCast S128 (exitVal m dats c (main_v0_3 : DevRef τ sig)) Facts₀.shapeCasts_S128x1_S128 = _
      rw [hW6]
      exact tsum_cast (T m c)
    refine ⟨?_, ?_, ?_, ?_, ?_, ?_⟩
    · refine ((hr c).2 main_v34 (Pipeline.mem_restRefs_of main_v34 rfl (by decide))).trans ?_
      show StableHlo.after (KTail.tailOps).flatten (exitVal m dats c) (main_v34 : DevRef τ sig) = _
      rw [KTail.out0_eq _ hc0 hc1, hW3, hts]
    · refine ((hr c).2 main_v53 (Pipeline.mem_restRefs_of main_v53 rfl (by decide))).trans ?_
      show StableHlo.after (KTail.tailOps).flatten (exitVal m dats c) (main_v53 : DevRef τ sig) = _
      rw [KTail.out1_eq _ hc0 hc1, hW4, hts]
    · refine ((hr c).2 main_v72 (Pipeline.mem_restRefs_of main_v72 rfl (by decide))).trans ?_
      show StableHlo.after (KTail.tailOps).flatten (exitVal m dats c) (main_v72 : DevRef τ sig) = _
      rw [KTail.out2_eq _ hc0 hc1, hW5, hts]
    · exact ((hr c).1 0).trans (((dats 0 c).arrAt_in 0 rfl _).trans ((hA c 0).trans (V_main_arg0 m c)))
    · exact ((hr c).1 2).trans (((dats 0 c).arrAt_in 2 rfl _).trans ((hA c 2).trans (V_main_arg1 m c)))
    · exact ((hr c).1 1).trans (((dats 0 c).arrAt_in 1 rfl _).trans ((hA c 1).trans (V_main_arg2 m c)))) h

theorem run_out : θ_run defs (onTc (τ := τ) (main (F := Ideal))) ⟨m, fun _ => 0, ρ⟩ (fun r => ∀ c : Dev nD,
      r.2.mem ((c.tc : Thread nD τ).loc main_v34)
          = Cert.Tail.out0 (Cert.Spec.focalS (X m c) (T m c)) (Cert.Spec.tsumS (T m c))
      ∧ r.2.mem ((c.tc : Thread nD τ).loc main_v53)
          = Cert.Tail.out1 (Cert.Spec.diceS (X m c) (T m c)) (Cert.Spec.tsumS (T m c))
      ∧ r.2.mem ((c.tc : Thread nD τ).loc main_v72)
          = Cert.Tail.out2 (Cert.Spec.iouS (X m c) (Q m c) (T m c)) (Cert.Spec.tsumS (T m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  out_of m ρ (dats (F := Ideal) m) (A_eq (F := Ideal) m) (KValue.arr3 m) (KValue.arr4 m) (KValue.arr5 m) (KValue.arr6 m)
    (run_main (F := Ideal) m ρ)

end Cert.KernelIdeal.KOut

end
-- ==== Proof.RefOps.lean ====
import proofs.«119910_j28707561407033_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev ops0 : List (HloOp τ sig (Elt F)) :=
  [ nullary main_cst (fun i => FloatOps.ofBits .f32 (lit0 (S4.rowMajor i))),
    nullary main_cst_0 (fun i => FloatOps.ofBits .f32 (lit1 (S4.rowMajor i))),
    reshape main_arg0 main_v0 rfl shapeCasts_S128x4x256x256_S128x4x65536,
    reshape main_arg2 main_v1 rfl shapeCasts_S128x1x256x256_S128x65536,
    nullary main_cst_1 (constant S_ .f32 0x00000000#32),
    binary main_v1 main_cst_1 main_v2 (fun x v => Host.reduceAdd x v reducesTo_S128x65536_S128_d1 h_S_),
    nullary main_cst_2 (constant S_ .f32 0x47800000#32),
    unary main_cst_2 main_v3 (broadcastInDim S128 ![] bcast_S_S128),
    binary main_v2 main_v3 main_v4 Host.divf,
    unary main_v4 main_v5 (broadcastInDim S128x1 ![0] bcast_S128_S128x1_0),
    unary main_cst main_v6 (broadcastInDim S1x4 ![1] bcast_S4_S1x4_1),
    unary main_v5 main_v7 (broadcastInDim S128x4 ![0, 1] bcast_S128x1_S128x4_0_1),
    unary main_v6 main_v8 (broadcastInDim S128x4 ![0, 1] bcast_S1x4_S128x4_0_1),
    binary main_v7 main_v8 main_v9 (cmpf .ogt),
    unary main_v4 main_v10 (broadcastInDim S128x1 ![0] bcast_S128_S128x1_0),
    unary main_cst_0 main_v11 (broadcastInDim S1x4 ![1] bcast_S4_S1x4_1),
    unary main_v10 main_v12 (broadcastInDim S128x4 ![0, 1] bcast_S128x1_S128x4_0_1),
    unary main_v11 main_v13 (broadcastInDim S128x4 ![0, 1] bcast_S1x4_S128x4_0_1),
    binary main_v12 main_v13 main_v14 (cmpf .olt),
    binary main_v9 main_v14 main_v15 andi,
    unary main_v15 main_v16 (uitofp .f32),
    unary main_v1 main_v17 (broadcastInDim S128x1x65536 ![0, 2] bcast_S128x65536_S128x1x65536_0_2),
    nullary main_cst_3 (constant S_ .f32 0x00000000#32),
    unary main_cst_3 main_v18 (broadcastInDim S128x4x65536 ![] bcast_S_S128x4x65536),
    binary main_v0 main_v18 main_v19 maximumf,
    unary main_v17 main_v20 (broadcastInDim S128x4x65536 ![0, 1, 2] bcast_S128x1x65536_S128x4x65536_0_1_2),
    binary main_v0 main_v20 main_v21 mulf,
    binary main_v19 main_v21 main_v22 subf,
    unary main_v0 main_v23 Host.absf,
    unary main_v23 main_v24 Host.negf,
    unary main_v24 main_v25 Host.exp,
    unary main_v25 main_v26 (Host.log1p),
    binary main_v22 main_v26 main_v27 addf,
    unary main_v27 main_v28 Host.negf,
    unary main_v28 main_v29 Host.exp,
    nullary main_cst_4 (constant S_ .f32 0x3F800000#32),
    unary main_cst_4 main_v30 (broadcastInDim S128x4x65536 ![] bcast_S_S128x4x65536),
    binary main_v30 main_v29 main_v31 subf,
    nullary main_cst_5 (constant S_ .f32 0x40000000#32),
    unary main_cst_5 main_v32 (broadcastInDim S128x4x65536 ![] bcast_S_S128x4x65536),
    binary main_v31 main_v32 main_v33 Host.powf,
    nullary main_cst_6 (constant S_ .f32 0x3F4CCCCD#32),
    unary main_cst_6 main_v34 (broadcastInDim S128x4x65536 ![] bcast_S_S128x4x65536),
    binary main_v34 main_v33 main_v35 mulf,
    binary main_v35 main_v27 main_v36 mulf,
    nullary main_cst_7 (constant S_ .f32 0x00000000#32),
    binary main_v36 main_cst_7 main_v37 (fun x v => Host.reduceAdd x v reducesTo_S128x4x65536_S128x4_d2 h_S_),
    nullary main_cst_8 (constant S_ .f32 0x47800000#32),
    unary main_cst_8 main_v38 (broadcastInDim S128x4 ![] bcast_S_S128x4),
    binary main_v37 main_v38 main_v39 Host.divf,
    nullary main_cst_9 (constant S_ .f32 0x00000000#32),
    binary main_v16 main_cst_9 main_v40 (fun x v => Host.reduceAdd x v reducesTo_S128x4_S128_d1 h_S_),
    binary main_v39 main_v16 main_v41 mulf,
    nullary main_cst_10 (constant S_ .f32 0x00000000#32),
    binary main_v41 main_cst_10 main_v42 (fun x v => Host.reduceAdd x v reducesTo_S128x4_S128_d1 h_S_),
    nullary main_cst_11 (constant S_ .f32 0x3F800000#32),
    unary main_cst_11 main_v43 (broadcastInDim S128 ![] bcast_S_S128),
    binary main_v40 main_v43 main_v44 maximumf,
    binary main_v42 main_v44 main_v45 Host.divf,
    nullary main_cst_12 (constant S_ .f32 0x00000000#32) ]

abbrev ops0_W : List (Ref sig .tc) :=
  [main_cst, main_cst_0, main_v0, main_v1, main_cst_1, main_v2, main_cst_2, main_v3,
   main_v4, main_v5, main_v6, main_v7, main_v8, main_v9, main_v10, main_v11,
   main_v12, main_v13, main_v14, main_v15, main_v16, main_v17, main_cst_3, main_v18,
   main_v19, main_v20, main_v21, main_v22, main_v23, main_v24, main_v25, main_v26,
   main_v27, main_v28, main_v29, main_cst_4, main_v30, main_v31, main_cst_5, main_v32,
   main_v33, main_cst_6, main_v34, main_v35, main_v36, main_cst_7, main_v37, main_cst_8,
   main_v38, main_v39, main_cst_9, main_v40, main_v41, main_cst_10, main_v42, main_cst_11,
   main_v43, main_v44, main_v45, main_cst_12]

set_option maxRecDepth 8192 in
theorem ops0_sub : (ops0 : List (HloOp τ sig (Elt F))).Forall fun op => op.bufs ⊆ tcRefs τ sig :=
  ⟨nullary_bufs_sub .., nullary_bufs_sub .., reshape_bufs_sub .., reshape_bufs_sub .., nullary_bufs_sub .., binary_bufs_sub ..,
    nullary_bufs_sub .., unary_bufs_sub .., binary_bufs_sub .., unary_bufs_sub .., unary_bufs_sub .., unary_bufs_sub ..,
    unary_bufs_sub .., binary_bufs_sub .., unary_bufs_sub .., unary_bufs_sub .., unary_bufs_sub .., unary_bufs_sub ..,
    binary_bufs_sub .., binary_bufs_sub .., unary_bufs_sub .., unary_bufs_sub .., nullary_bufs_sub .., unary_bufs_sub ..,
    binary_bufs_sub .., unary_bufs_sub .., binary_bufs_sub .., binary_bufs_sub .., unary_bufs_sub .., unary_bufs_sub ..,
    unary_bufs_sub .., unary_bufs_sub .., binary_bufs_sub .., unary_bufs_sub .., unary_bufs_sub .., nullary_bufs_sub ..,
    unary_bufs_sub .., binary_bufs_sub .., nullary_bufs_sub .., unary_bufs_sub .., binary_bufs_sub .., nullary_bufs_sub ..,
    unary_bufs_sub .., binary_bufs_sub .., binary_bufs_sub .., nullary_bufs_sub .., binary_bufs_sub .., nullary_bufs_sub ..,
    unary_bufs_sub .., binary_bufs_sub .., nullary_bufs_sub .., binary_bufs_sub .., binary_bufs_sub .., nullary_bufs_sub ..,
    binary_bufs_sub .., nullary_bufs_sub .., unary_bufs_sub .., binary_bufs_sub .., binary_bufs_sub .., nullary_bufs_sub ..⟩

set_option maxRecDepth 8192 in
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

set_option maxRecDepth 8192 in
theorem ops0_writes : (ops0 : List (HloOp τ sig (Elt F))).Forall fun op => op.writes ⊆ (ops0_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_,
    ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]
     exact List.mem_map_of_mem (by decide))

abbrev ops1 : List (HloOp τ sig (Elt F)) :=
  [ unary main_cst_12 main_v46 (broadcastInDim S128 ![] bcast_S_S128),
    binary main_v40 main_v46 main_v47 (cmpf .ogt),
    nullary main_cst_13 (constant S_ .f32 0x00000000#32),
    TRef.unary (.of main_cst_13 : TRef sig ⟨S_, .f32⟩) main_call0.v0 id,
    TRef.unary main_call0.v0 main_call0.v1 (broadcastInDim S128 ![] bcast_S_S128),
    TRef.ternary (.of main_v47 : TRef sig ⟨S128, .i1⟩) (.of main_v45 : TRef sig ⟨S128, .f32⟩) main_call0.v1 main_call0.v2 select,
    nullary main_cst_14 (constant S_ .f32 0x00000000#32),
    unary main_cst_14 main_v49 (broadcastInDim S128 ![] bcast_S_S128),
    binary main_v40 main_v49 main_v50 (cmpf .ogt),
    unary main_v50 main_v51 (uitofp .f32),
    nullary main_cst_15 (constant S_ .f32 0x00000000#32),
    binary main_v51 main_cst_15 main_v52 (fun x v => Host.reduceAdd x v reducesTo_S128_S_d0 h_S_),
    nullary main_cst_16 (constant S_ .f32 0x00000000#32),
    binary main_v48 main_cst_16 main_v53 (fun x v => Host.reduceAdd x v reducesTo_S128_S_d0 h_S_),
    nullary main_cst_17 (constant S_ .f32 0x00000000#32),
    binary main_v52 main_cst_17 main_v54 (cmpf .ogt),
    nullary main_cst_18 (constant S_ .f32 0x3F800000#32),
    binary main_v52 main_cst_18 main_v55 maximumf,
    binary main_v53 main_v55 main_v56 Host.divf,
    TRef.ternary (.of main_v54 : TRef sig ⟨S_, .i1⟩) (.of main_v56 : TRef sig ⟨S_, .f32⟩) (.of main_v53 : TRef sig ⟨S_, .f32⟩) main_call1.v0 select,
    nullary main_cst_19 (constant S_ .f32 0x41A00000#32),
    binary main_cst_19 main_v57 main_v58 mulf,
    unary main_v0 main_v59 Host.negf,
    unary main_v59 main_v60 Host.exp,
    nullary main_cst_20 (constant S_ .f32 0x3F800000#32),
    unary main_cst_20 main_v61 (broadcastInDim S128x4x65536 ![] bcast_S_S128x4x65536),
    binary main_v61 main_v60 main_v62 addf,
    nullary main_cst_21 (constant S_ .f32 0x3F800000#32),
    unary main_cst_21 main_v63 (broadcastInDim S128x4x65536 ![] bcast_S_S128x4x65536),
    binary main_v63 main_v62 main_v64 Host.divf,
    nullary main_cst_22 (constant S_ .f32 0x38D1B717#32),
    nullary main_cst_23 (constant S_ .f32 0x3F7FF972#32),
    TRef.unary (.of main_cst_22 : TRef sig ⟨S_, .f32⟩) main_call2.v0 id,
    TRef.unary main_call2.v0 main_call2.v1 (broadcastInDim S128x4x65536 ![] bcast_S_S128x4x65536),
    TRef.binary main_call2.v1 (.of main_v64 : TRef sig ⟨S128x4x65536, .f32⟩) main_call2.v2 maximumf,
    TRef.unary (.of main_cst_23 : TRef sig ⟨S_, .f32⟩) main_call2.v3 id,
    TRef.unary main_call2.v3 main_call2.v4 (broadcastInDim S128x4x65536 ![] bcast_S_S128x4x65536),
    TRef.binary main_call2.v4 main_call2.v2 main_call2.v5 minimumf,
    unary main_v17 main_v66 (broadcastInDim S128x4x65536 ![0, 1, 2] bcast_S128x1x65536_S128x4x65536_0_1_2),
    binary main_v65 main_v66 main_v67 mulf,
    nullary main_cst_24 (constant S_ .f32 0x00000000#32),
    binary main_v67 main_cst_24 main_v68 (fun x v => Host.reduceAdd x v reducesTo_S128x4x65536_S128x4_d2 h_S_),
    nullary main_cst_25 (constant S_ .f32 0x40000000#32),
    unary main_cst_25 main_v69 (broadcastInDim S128x4 ![] bcast_S_S128x4),
    binary main_v69 main_v68 main_v70 mulf,
    nullary main_cst_26 (constant S_ .f32 0x38D1B717#32),
    unary main_cst_26 main_v71 (broadcastInDim S128x4 ![] bcast_S_S128x4),
    binary main_v70 main_v71 main_v72 addf,
    nullary main_cst_27 (constant S_ .f32 0x00000000#32),
    binary main_v65 main_cst_27 main_v73 (fun x v => Host.reduceAdd x v reducesTo_S128x4x65536_S128x4_d2 h_S_),
    nullary main_cst_28 (constant S_ .f32 0x00000000#32),
    binary main_v1 main_cst_28 main_v74 (fun x v => Host.reduceAdd x v reducesTo_S128x65536_S128_d1 h_S_),
    unary main_v74 main_v75 (broadcastInDim S128x1 ![0] bcast_S128_S128x1_0),
    unary main_v75 main_v76 (broadcastInDim S128x4 ![0, 1] bcast_S128x1_S128x4_0_1),
    binary main_v73 main_v76 main_v77 addf,
    nullary main_cst_29 (constant S_ .f32 0x38D1B717#32),
    unary main_cst_29 main_v78 (broadcastInDim S128x4 ![] bcast_S_S128x4),
    binary main_v77 main_v78 main_v79 addf,
    binary main_v72 main_v79 main_v80 Host.divf,
    nullary main_cst_30 (constant S_ .f32 0x3F800000#32),
    unary main_cst_30 main_v81 (broadcastInDim S128x4 ![] bcast_S_S128x4),
    binary main_v81 main_v80 main_v82 subf,
    nullary main_cst_31 (constant S_ .f32 0x00000000#32),
    binary main_v16 main_cst_31 main_v83 (fun x v => Host.reduceAdd x v reducesTo_S128x4_S128_d1 h_S_),
    binary main_v82 main_v16 main_v84 mulf,
    nullary main_cst_32 (constant S_ .f32 0x00000000#32),
    binary main_v84 main_cst_32 main_v85 (fun x v => Host.reduceAdd x v reducesTo_S128x4_S128_d1 h_S_) ]

abbrev ops1_W : List (Ref sig .tc) :=
  [main_v46, main_v47, main_cst_13, main_call0_v0, main_call0_v1, main_v48, main_cst_14, main_v49,
   main_v50, main_v51, main_cst_15, main_v52, main_cst_16, main_v53, main_cst_17, main_v54,
   main_cst_18, main_v55, main_v56, main_v57, main_cst_19, main_v58, main_v59, main_v60,
   main_cst_20, main_v61, main_v62, main_cst_21, main_v63, main_v64, main_cst_22, main_cst_23,
   main_call2_v0, main_call2_v1, main_call2_v2, main_call2_v3, main_call2_v4, main_v65, main_v66, main_v67,
   main_cst_24, main_v68, main_cst_25, main_v69, main_v70, main_cst_26, main_v71, main_v72,
   main_cst_27, main_v73, main_cst_28, main_v74, main_v75, main_v76, main_v77, main_cst_29,
   main_v78, main_v79, main_v80, main_cst_30, main_v81, main_v82, main_cst_31, main_v83,
   main_v84, main_cst_32, main_v85]

set_option maxRecDepth 8192 in
theorem ops1_sub : (ops1 : List (HloOp τ sig (Elt F))).Forall fun op => op.bufs ⊆ tcRefs τ sig :=
  ⟨unary_bufs_sub .., binary_bufs_sub .., nullary_bufs_sub .., unary_bufs_sub .., unary_bufs_sub .., ternary_bufs_sub ..,
    nullary_bufs_sub .., unary_bufs_sub .., binary_bufs_sub .., unary_bufs_sub .., nullary_bufs_sub .., binary_bufs_sub ..,
    nullary_bufs_sub .., binary_bufs_sub .., nullary_bufs_sub .., binary_bufs_sub .., nullary_bufs_sub .., binary_bufs_sub ..,
    binary_bufs_sub .., ternary_bufs_sub .., nullary_bufs_sub .., binary_bufs_sub .., unary_bufs_sub .., unary_bufs_sub ..,
    nullary_bufs_sub .., unary_bufs_sub .., binary_bufs_sub .., nullary_bufs_sub .., unary_bufs_sub .., binary_bufs_sub ..,
    nullary_bufs_sub .., nullary_bufs_sub .., unary_bufs_sub .., unary_bufs_sub .., binary_bufs_sub .., unary_bufs_sub ..,
    unary_bufs_sub .., binary_bufs_sub .., unary_bufs_sub .., binary_bufs_sub .., nullary_bufs_sub .., binary_bufs_sub ..,
    nullary_bufs_sub .., unary_bufs_sub .., binary_bufs_sub .., nullary_bufs_sub .., unary_bufs_sub .., binary_bufs_sub ..,
    nullary_bufs_sub .., binary_bufs_sub .., nullary_bufs_sub .., binary_bufs_sub .., unary_bufs_sub .., unary_bufs_sub ..,
    binary_bufs_sub .., nullary_bufs_sub .., unary_bufs_sub .., binary_bufs_sub .., binary_bufs_sub .., nullary_bufs_sub ..,
    unary_bufs_sub .., binary_bufs_sub .., nullary_bufs_sub .., binary_bufs_sub .., binary_bufs_sub .., nullary_bufs_sub ..,
    binary_bufs_sub ..⟩

set_option maxRecDepth 8192 in
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl⟩

set_option maxRecDepth 8192 in
theorem ops1_writes : (ops1 : List (HloOp τ sig (Elt F))).Forall fun op => op.writes ⊆ (ops1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_,
    ?_, ?_, ?_, ?_, ?_, ?_, ?_, ?_, ?_, ?_, ?_, ?_, ?_, ?_, ?_, ?_, ?_, ?_, ?_, ?_, ?_, ?_, ?_, ?_, ?_, ?_, ?_, ?_, ?_, ?_,
    ?_, ?_, ?_, ?_, ?_, ?_, ?_⟩ <;>
    (simp only [nullary_writes, unary_writes, binary_writes, ternary_writes, reshape_writes, Finset.singleton_subset_iff, List.mem_toFinset]
     exact List.mem_map_of_mem (by decide))

abbrev ops2 : List (HloOp τ sig (Elt F)) :=
  [ nullary main_cst_33 (constant S_ .f32 0x3F800000#32),
    unary main_cst_33 main_v86 (broadcastInDim S128 ![] bcast_S_S128),
    binary main_v83 main_v86 main_v87 maximumf,
    binary main_v85 main_v87 main_v88 Host.divf,
    nullary main_cst_34 (constant S_ .f32 0x00000000#32),
    unary main_cst_34 main_v89 (broadcastInDim S128 ![] bcast_S_S128),
    binary main_v83 main_v89 main_v90 (cmpf .ogt),
    nullary main_cst_35 (constant S_ .f32 0x00000000#32),
    TRef.unary (.of main_cst_35 : TRef sig ⟨S_, .f32⟩) main_call3.v0 id,
    TRef.unary main_call3.v0 main_call3.v1 (broadcastInDim S128 ![] bcast_S_S128),
    TRef.ternary (.of main_v90 : TRef sig ⟨S128, .i1⟩) (.of main_v88 : TRef sig ⟨S128, .f32⟩) main_call3.v1 main_call3.v2 select,
    nullary main_cst_36 (constant S_ .f32 0x00000000#32),
    unary main_cst_36 main_v92 (broadcastInDim S128 ![] bcast_S_S128),
    binary main_v83 main_v92 main_v93 (cmpf .ogt),
    unary main_v93 main_v94 (uitofp .f32),
    nullary main_cst_37 (constant S_ .f32 0x00000000#32),
    binary main_v94 main_cst_37 main_v95 (fun x v => Host.reduceAdd x v reducesTo_S128_S_d0 h_S_),
    nullary main_cst_38 (constant S_ .f32 0x00000000#32),
    binary main_v91 main_cst_38 main_v96 (fun x v => Host.reduceAdd x v reducesTo_S128_S_d0 h_S_),
    nullary main_cst_39 (constant S_ .f32 0x00000000#32),
    binary main_v95 main_cst_39 main_v97 (cmpf .ogt),
    nullary main_cst_40 (constant S_ .f32 0x3F800000#32),
    binary main_v95 main_cst_40 main_v98 maximumf,
    binary main_v96 main_v98 main_v99 Host.divf,
    TRef.ternary (.of main_v97 : TRef sig ⟨S_, .i1⟩) (.of main_v99 : TRef sig ⟨S_, .f32⟩) (.of main_v96 : TRef sig ⟨S_, .f32⟩) main_call4.v0 select,
    nullary main_cst_41 (constant S_ .f32 0x3F800000#32),
    binary main_cst_41 main_v100 main_v101 mulf,
    nullary main_cst_42 (constant S_ .f32 0x00000000#32),
    unary main_cst_42 main_v102 (broadcastInDim S128x4x65536 ![] bcast_S_S128x4x65536),
    binary main_v0 main_v102 main_v103 (cmpf .oge),
    unary main_v103 main_v104 (uitofp .f32),
    unary main_v17 main_v105 (broadcastInDim S128x4x65536 ![0, 1, 2] bcast_S128x1x65536_S128x4x65536_0_1_2),
    binary main_v104 main_v105 main_v106 mulf,
    nullary main_cst_43 (constant S_ .f32 0x00000000#32),
    binary main_v106 main_cst_43 main_v107 (fun x v => Host.reduceAdd x v reducesTo_S128x4x65536_S128x4_d2 h_S_),
    nullary main_cst_44 (constant S_ .f32 0x38D1B717#32),
    unary main_cst_44 main_v108 (broadcastInDim S128x4 ![] bcast_S_S128x4),
    binary main_v107 main_v108 main_v109 addf,
    nullary main_cst_45 (constant S_ .f32 0x00000000#32),
    binary main_v104 main_cst_45 main_v110 (fun x v => Host.reduceAdd x v reducesTo_S128x4x65536_S128x4_d2 h_S_),
    nullary main_cst_46 (constant S_ .f32 0x00000000#32),
    binary main_v1 main_cst_46 main_v111 (fun x v => Host.reduceAdd x v reducesTo_S128x65536_S128_d1 h_S_),
    unary main_v111 main_v112 (broadcastInDim S128x1 ![0] bcast_S128_S128x1_0),
    unary main_v112 main_v113 (broadcastInDim S128x4 ![0, 1] bcast_S128x1_S128x4_0_1),
    binary main_v110 main_v113 main_v114 addf,
    binary main_v114 main_v107 main_v115 subf,
    nullary main_cst_47 (constant S_ .f32 0x38D1B717#32),
    unary main_cst_47 main_v116 (broadcastInDim S128x4 ![] bcast_S_S128x4),
    binary main_v115 main_v116 main_v117 addf,
    binary main_v109 main_v117 main_v118 Host.divf,
    binary main_arg1 main_v118 main_v119 subf,
    binary main_v119 main_v119 main_v120 mulf,
    nullary main_cst_48 (constant S_ .f32 0x00000000#32),
    binary main_v16 main_cst_48 main_v121 (fun x v => Host.reduceAdd x v reducesTo_S128x4_S128_d1 h_S_),
    binary main_v120 main_v16 main_v122 mulf,
    nullary main_cst_49 (constant S_ .f32 0x00000000#32),
    binary main_v122 main_cst_49 main_v123 (fun x v => Host.reduceAdd x v reducesTo_S128x4_S128_d1 h_S_),
    nullary main_cst_50 (constant S_ .f32 0x3F800000#32),
    unary main_cst_50 main_v124 (broadcastInDim S128 ![] bcast_S_S128),
    binary main_v121 main_v124 main_v125 maximumf,
    binary main_v123 main_v125 main_v126 Host.divf,
    nullary main_cst_51 (constant S_ .f32 0x00000000#32) ]

abbrev ops2_W : List (Ref sig .tc) :=
  [main_cst_33, main_v86, main_v87, main_v88, main_cst_34, main_v89, main_v90, main_cst_35,
   main_call3_v0, main_call3_v1, main_v91, main_cst_36, main_v92, main_v93, main_v94, main_cst_37,
   main_v95, main_cst_38, main_v96, main_cst_39, main_v97, main_cst_40, main_v98, main_v99,
   main_v100, main_cst_41, main_v101, main_cst_42, main_v102, main_v103, main_v104, main_v105,
   main_v106, main_cst_43, main_v107, main_cst_44, main_v108, main_v109, main_cst_45, main_v110,
   main_cst_46, main_v111, main_v112, main_v113, main_v114, main_v115, main_cst_47, main_v116,
   main_v117, main_v118, main_v119, main_v120, main_cst_48, main_v121, main_v122, main_cst_49,
   main_v123, main_cst_50, main_v124, main_v125, main_v126, main_cst_51]

set_option maxRecDepth 8192 in
theorem ops2_sub : (ops2 : List (HloOp τ sig (Elt F))).Forall fun op => op.bufs ⊆ tcRefs τ sig :=
  ⟨nullary_bufs_sub .., unary_bufs_sub .., binary_bufs_sub .., binary_bufs_sub .., nullary_bufs_sub .., unary_bufs_sub ..,
    binary_bufs_sub .., nullary_bufs_sub .., unary_bufs_sub .., unary_bufs_sub .., ternary_bufs_sub .., nullary_bufs_sub ..,
    unary_bufs_sub .., binary_bufs_sub .., unary_bufs_sub .., nullary_bufs_sub .., binary_bufs_sub .., nullary_bufs_sub ..,
    binary_bufs_sub .., nullary_bufs_sub .., binary_bufs_sub .., nullary_bufs_sub .., binary_bufs_sub .., binary_bufs_sub ..,
    ternary_bufs_sub .., nullary_bufs_sub .., binary_bufs_sub .., nullary_bufs_sub .., unary_bufs_sub .., binary_bufs_sub ..,
    unary_bufs_sub .., unary_bufs_sub .., binary_bufs_sub .., nullary_bufs_sub .., binary_bufs_sub .., nullary_bufs_sub ..,
    unary_bufs_sub .., binary_bufs_sub .., nullary_bufs_sub .., binary_bufs_sub .., nullary_bufs_sub .., binary_bufs_sub ..,
    unary_bufs_sub .., unary_bufs_sub .., binary_bufs_sub .., binary_bufs_sub .., nullary_bufs_sub .., unary_bufs_sub ..,
    binary_bufs_sub .., binary_bufs_sub .., binary_bufs_sub .., binary_bufs_sub .., nullary_bufs_sub .., binary_bufs_sub ..,
    binary_bufs_sub .., nullary_bufs_sub .., binary_bufs_sub .., nullary_bufs_sub .., unary_bufs_sub .., binary_bufs_sub ..,
    binary_bufs_sub .., nullary_bufs_sub ..⟩

set_option maxRecDepth 8192 in
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl⟩

set_option maxRecDepth 8192 in
theorem ops2_writes : (ops2 : List (HloOp τ sig (Elt F))).Forall fun op => op.writes ⊆ (ops2_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_,
    ?_, ?_, ?_, ?_, ?_, ?_, ?_, ?_, ?_, ?_, ?_, ?_, ?_, ?_, ?_, ?_, ?_, ?_, ?_, ?_, ?_, ?_, ?_, ?_, ?_, ?_, ?_, ?_, ?_, ?_,
    ?_, ?_⟩ <;>
    (simp only [nullary_writes, unary_writes, binary_writes, ternary_writes, reshape_writes, Finset.singleton_subset_iff, List.mem_toFinset]
     exact List.mem_map_of_mem (by decide))

abbrev ops3 : List (HloOp τ sig (Elt F)) :=
  [ unary main_cst_51 main_v127 (broadcastInDim S128 ![] bcast_S_S128),
    binary main_v121 main_v127 main_v128 (cmpf .ogt),
    nullary main_cst_52 (constant S_ .f32 0x00000000#32),
    TRef.unary (.of main_cst_52 : TRef sig ⟨S_, .f32⟩) main_call5.v0 id,
    TRef.unary main_call5.v0 main_call5.v1 (broadcastInDim S128 ![] bcast_S_S128),
    TRef.ternary (.of main_v128 : TRef sig ⟨S128, .i1⟩) (.of main_v126 : TRef sig ⟨S128, .f32⟩) main_call5.v1 main_call5.v2 select,
    nullary main_cst_53 (constant S_ .f32 0x00000000#32),
    unary main_cst_53 main_v130 (broadcastInDim S128 ![] bcast_S_S128),
    binary main_v121 main_v130 main_v131 (cmpf .ogt),
    unary main_v131 main_v132 (uitofp .f32),
    nullary main_cst_54 (constant S_ .f32 0x00000000#32),
    binary main_v132 main_cst_54 main_v133 (fun x v => Host.reduceAdd x v reducesTo_S128_S_d0 h_S_),
    nullary main_cst_55 (constant S_ .f32 0x00000000#32),
    binary main_v129 main_cst_55 main_v134 (fun x v => Host.reduceAdd x v reducesTo_S128_S_d0 h_S_),
    nullary main_cst_56 (constant S_ .f32 0x00000000#32),
    binary main_v133 main_cst_56 main_v135 (cmpf .ogt),
    nullary main_cst_57 (constant S_ .f32 0x3F800000#32),
    binary main_v133 main_cst_57 main_v136 maximumf,
    binary main_v134 main_v136 main_v137 Host.divf,
    TRef.ternary (.of main_v135 : TRef sig ⟨S_, .i1⟩) (.of main_v137 : TRef sig ⟨S_, .f32⟩) (.of main_v134 : TRef sig ⟨S_, .f32⟩) main_call6.v0 select,
    nullary main_cst_58 (constant S_ .f32 0x3F800000#32),
    binary main_cst_58 main_v138 main_v139 mulf ]

abbrev ops3_W : List (Ref sig .tc) :=
  [main_v127, main_v128, main_cst_52, main_call5_v0, main_call5_v1, main_v129, main_cst_53, main_v130,
   main_v131, main_v132, main_cst_54, main_v133, main_cst_55, main_v134, main_cst_56, main_v135,
   main_cst_57, main_v136, main_v137, main_v138, main_cst_58, main_v139]

set_option maxRecDepth 8192 in
theorem ops3_sub : (ops3 : List (HloOp τ sig (Elt F))).Forall fun op => op.bufs ⊆ tcRefs τ sig :=
  ⟨unary_bufs_sub .., binary_bufs_sub .., nullary_bufs_sub .., unary_bufs_sub .., unary_bufs_sub .., ternary_bufs_sub ..,
    nullary_bufs_sub .., unary_bufs_sub .., binary_bufs_sub .., unary_bufs_sub .., nullary_bufs_sub .., binary_bufs_sub ..,
    nullary_bufs_sub .., binary_bufs_sub .., nullary_bufs_sub .., binary_bufs_sub .., nullary_bufs_sub .., binary_bufs_sub ..,
    binary_bufs_sub .., ternary_bufs_sub .., nullary_bufs_sub .., binary_bufs_sub ..⟩

set_option maxRecDepth 8192 in
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl⟩

set_option maxRecDepth 8192 in
theorem ops3_writes : (ops3 : List (HloOp τ sig (Elt F))).Forall fun op => op.writes ⊆ (ops3_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]
     exact List.mem_map_of_mem (by decide))

end Cert.ReferenceIdeal.RefRun

end
-- ==== Proof.RefRun.lean ====
import proofs.«119910_j28707561407033_1_alg».proof.Proof.RefOps
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev ops : List (HloOp τ sig (Elt F)) := ops0 ++ (ops1 ++ (ops2 ++ ops3))

set_option maxRecDepth 8192 in
theorem main_part0_eq (c : Dev nD) : main_part0 (F := F) c = seq ops0 := rfl

set_option maxRecDepth 8192 in
theorem main_part1_eq (c : Dev nD) : main_part1 (F := F) c = seq ops1 := rfl

set_option maxRecDepth 8192 in
theorem main_part2_eq (c : Dev nD) : main_part2 (F := F) c = seq ops2 := rfl

set_option maxRecDepth 8192 in
theorem main_part3_eq (c : Dev nD) : main_part3 (F := F) c = seq ops3 := rfl

set_option maxRecDepth 8192 in
theorem main_eq (c : Dev nD) : main (F := F) c = seq ops := by
  simp only [ops, seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with h | h | h | h
    exacts [List.forall_iff_forall_mem.mp ops0_sub op h, List.forall_iff_forall_mem.mp ops1_sub op h,
      List.forall_iff_forall_mem.mp ops2_sub op h, List.forall_iff_forall_mem.mp ops3_sub op h]

theorem ops_fresh : ∀ op ∈ (ops : List (HloOp τ sig (Elt F))), op.fresh = ∅ := fun op h => by
  simp only [ops, List.mem_append] at h
  rcases h with h | h | h | h
  exacts [List.forall_iff_forall_mem.mp ops0_fresh op h, List.forall_iff_forall_mem.mp ops1_fresh op h,
    List.forall_iff_forall_mem.mp ops2_fresh op h, List.forall_iff_forall_mem.mp ops3_fresh op h]

theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = StableHlo.after ops (launchContents m c) (b : DevRef τ sig) :=
  run_seq scopedRefs_eq scopedSems_eq defs main (fun _ => ops) main_eq (fun _ => ops_sub) m ρ (fun _ => ops_fresh)

def val0 (V : Valuation τ sig (Elt F)) : Valuation τ sig (Elt F) := V

def val1 (V : Valuation τ sig (Elt F)) : Valuation τ sig (Elt F) := after ops0 (val0 V)

def val2 (V : Valuation τ sig (Elt F)) : Valuation τ sig (Elt F) := after ops1 (val1 V)

def val3 (V : Valuation τ sig (Elt F)) : Valuation τ sig (Elt F) := after ops2 (val2 V)

def val4 (V : Valuation τ sig (Elt F)) : Valuation τ sig (Elt F) := after ops3 (val3 V)

theorem after_ops (V : Valuation τ sig (Elt F)) : after ops V = val4 V := by
  simp only [ops, StableHlo.after_append]
  rfl

theorem val1_keep (V : Valuation τ sig (Elt F)) (r : Ref sig .tc) (h : r ∉ ops0_W) :
    val1 V (Proc.devRef .tc r) = val0 V (Proc.devRef .tc r) :=
  after_of_writes_sub ops0 _ ops0_writes h

theorem val2_keep (V : Valuation τ sig (Elt F)) (r : Ref sig .tc) (h : r ∉ ops1_W) :
    val2 V (Proc.devRef .tc r) = val1 V (Proc.devRef .tc r) :=
  after_of_writes_sub ops1 _ ops1_writes h

theorem val3_keep (V : Valuation τ sig (Elt F)) (r : Ref sig .tc) (h : r ∉ ops2_W) :
    val3 V (Proc.devRef .tc r) = val2 V (Proc.devRef .tc r) :=
  after_of_writes_sub ops2 _ ops2_writes h

theorem val4_keep (V : Valuation τ sig (Elt F)) (r : Ref sig .tc) (h : r ∉ ops3_W) :
    val4 V (Proc.devRef .tc r) = val3 V (Proc.devRef .tc r) :=
  after_of_writes_sub ops3 _ ops3_writes h

theorem after_ops_keep (V : Valuation τ sig (Elt F)) (r : Ref sig .tc)
    (h0 : r ∉ ops0_W) (h1 : r ∉ ops1_W) (h2 : r ∉ ops2_W) (h3 : r ∉ ops3_W) :
    after ops V (Proc.devRef .tc r) = V (Proc.devRef .tc r) := by
  rw [after_ops, val4_keep V r h3, val3_keep V r h2, val2_keep V r h1, val1_keep V r h0]
  rfl

theorem arg0_eq (V : Valuation τ sig (Elt F)) : StableHlo.after ops V (main_arg0 : DevRef τ sig) = V (main_arg0 : DevRef τ sig) :=
  after_ops_keep V main_arg0 (by decide) (by decide) (by decide) (by decide)
theorem arg1_eq (V : Valuation τ sig (Elt F)) : StableHlo.after ops V (main_arg1 : DevRef τ sig) = V (main_arg1 : DevRef τ sig) :=
  after_ops_keep V main_arg1 (by decide) (by decide) (by decide) (by decide)
theorem arg2_eq (V : Valuation τ sig (Elt F)) : StableHlo.after ops V (main_arg2 : DevRef τ sig) = V (main_arg2 : DevRef τ sig) :=
  after_ops_keep V main_arg2 (by decide) (by decide) (by decide) (by decide)

end Cert.ReferenceIdeal.RefRun

end
-- ==== Proof.RefTerms.lean ====
import proofs.«119910_j28707561407033_1_alg».proof.ReferenceIdeal

noncomputable section

namespace Cert.ReferenceIdeal.RefTerms

open Cert.ReferenceIdeal Idealize.ShloMosaic Idealize.SL.Sem
open Cert.ReferenceIdeal.Facts₀

variable {F : FTy → Type} [FloatOps F] [Facts]

def x3 (a0 : (⟨S128x4x256x256, .f32⟩ : BufTy).Contents (Elt F)) : (⟨S128x4x65536, .f32⟩ : BufTy).Contents (Elt F) :=
  shapeCast S128x4x65536 a0 shapeCasts_S128x4x256x256_S128x4x65536

def t2 (a2 : (⟨S128x1x256x256, .f32⟩ : BufTy).Contents (Elt F)) : (⟨S128x65536, .f32⟩ : BufTy).Contents (Elt F) :=
  shapeCast S128x65536 a2 shapeCasts_S128x1x256x256_S128x65536

def tsum (a2 : (⟨S128x1x256x256, .f32⟩ : BufTy).Contents (Elt F)) : (⟨S128, .f32⟩ : BufTy).Contents (Elt F) :=
  Host.reduceAdd (t2 a2) (constant S_ .f32 0x00000000#32) reducesTo_S128x65536_S128_d1 h_S_

def t3 (a2 : (⟨S128x1x256x256, .f32⟩ : BufTy).Contents (Elt F)) : (⟨S128x4x65536, .f32⟩ : BufTy).Contents (Elt F) :=
  broadcastInDim S128x4x65536 ![0, 1, 2] bcast_S128x1x65536_S128x4x65536_0_1_2
    (broadcastInDim S128x1x65536 ![0, 2] bcast_S128x65536_S128x1x65536_0_2 (t2 a2))

def bce (a0 : (⟨S128x4x256x256, .f32⟩ : BufTy).Contents (Elt F)) (a2 : (⟨S128x1x256x256, .f32⟩ : BufTy).Contents (Elt F)) :
    (⟨S128x4x65536, .f32⟩ : BufTy).Contents (Elt F) :=
  addf
    (subf (maximumf (x3 a0) (broadcastInDim S128x4x65536 ![] bcast_S_S128x4x65536 (constant S_ .f32 0x00000000#32)))
      (mulf (x3 a0) (t3 a2)))
    (Host.log1p (Host.exp (Host.negf (Host.absf (x3 a0)))))

def focalElt (a0 : (⟨S128x4x256x256, .f32⟩ : BufTy).Contents (Elt F)) (a2 : (⟨S128x1x256x256, .f32⟩ : BufTy).Contents (Elt F)) :
    (⟨S128x4x65536, .f32⟩ : BufTy).Contents (Elt F) :=
  mulf
    (mulf (broadcastInDim S128x4x65536 ![] bcast_S_S128x4x65536 (constant S_ .f32 0x3F4CCCCD#32))
      (Host.powf
        (subf (broadcastInDim S128x4x65536 ![] bcast_S_S128x4x65536 (constant S_ .f32 0x3F800000#32))
          (Host.exp (Host.negf (bce a0 a2))))
        (broadcastInDim S128x4x65536 ![] bcast_S_S128x4x65536 (constant S_ .f32 0x40000000#32))))
    (bce a0 a2)

def focalBK (a0 : (⟨S128x4x256x256, .f32⟩ : BufTy).Contents (Elt F)) (a2 : (⟨S128x1x256x256, .f32⟩ : BufTy).Contents (Elt F)) :
    (⟨S128x4, .f32⟩ : BufTy).Contents (Elt F) :=
  Host.divf
    (Host.reduceAdd (focalElt a0 a2) (constant S_ .f32 0x00000000#32) reducesTo_S128x4x65536_S128x4_d2 h_S_)
    (broadcastInDim S128x4 ![] bcast_S_S128x4 (constant S_ .f32 0x47800000#32))

def prob (a0 : (⟨S128x4x256x256, .f32⟩ : BufTy).Contents (Elt F)) : (⟨S128x4x65536, .f32⟩ : BufTy).Contents (Elt F) :=
  minimumf (broadcastInDim S128x4x65536 ![] bcast_S_S128x4x65536 (constant S_ .f32 0x3F7FF972#32))
    (maximumf (broadcastInDim S128x4x65536 ![] bcast_S_S128x4x65536 (constant S_ .f32 0x38D1B717#32))
      (Host.divf (broadcastInDim S128x4x65536 ![] bcast_S_S128x4x65536 (constant S_ .f32 0x3F800000#32))
        (addf (broadcastInDim S128x4x65536 ![] bcast_S_S128x4x65536 (constant S_ .f32 0x3F800000#32))
          (Host.exp (Host.negf (x3 a0))))))

def tsumBK (a2 : (⟨S128x1x256x256, .f32⟩ : BufTy).Contents (Elt F)) : (⟨S128x4, .f32⟩ : BufTy).Contents (Elt F) :=
  broadcastInDim S128x4 ![0, 1] bcast_S128x1_S128x4_0_1 (broadcastInDim S128x1 ![0] bcast_S128_S128x1_0 (tsum a2))

def diceBK (a0 : (⟨S128x4x256x256, .f32⟩ : BufTy).Contents (Elt F)) (a2 : (⟨S128x1x256x256, .f32⟩ : BufTy).Contents (Elt F)) :
    (⟨S128x4, .f32⟩ : BufTy).Contents (Elt F) :=
  subf (broadcastInDim S128x4 ![] bcast_S_S128x4 (constant S_ .f32 0x3F800000#32))
    (Host.divf
      (addf
        (mulf (broadcastInDim S128x4 ![] bcast_S_S128x4 (constant S_ .f32 0x40000000#32))
          (Host.reduceAdd (mulf (prob a0) (t3 a2)) (constant S_ .f32 0x00000000#32) reducesTo_S128x4x65536_S128x4_d2 h_S_))
        (broadcastInDim S128x4 ![] bcast_S_S128x4 (constant S_ .f32 0x38D1B717#32)))
      (addf
        (addf (Host.reduceAdd (prob a0) (constant S_ .f32 0x00000000#32) reducesTo_S128x4x65536_S128x4_d2 h_S_) (tsumBK a2))
        (broadcastInDim S128x4 ![] bcast_S_S128x4 (constant S_ .f32 0x38D1B717#32))))

def hard (a0 : (⟨S128x4x256x256, .f32⟩ : BufTy).Contents (Elt F)) : (⟨S128x4x65536, .f32⟩ : BufTy).Contents (Elt F) :=
  uitofp .f32 (cmpf .oge (x3 a0) (broadcastInDim S128x4x65536 ![] bcast_S_S128x4x65536 (constant S_ .f32 0x00000000#32)))

def inter (a0 : (⟨S128x4x256x256, .f32⟩ : BufTy).Contents (Elt F)) (a2 : (⟨S128x1x256x256, .f32⟩ : BufTy).Contents (Elt F)) :
    (⟨S128x4, .f32⟩ : BufTy).Contents (Elt F) :=
  Host.reduceAdd (mulf (hard a0) (t3 a2)) (constant S_ .f32 0x00000000#32) reducesTo_S128x4x65536_S128x4_d2 h_S_

def iouTrue (a0 : (⟨S128x4x256x256, .f32⟩ : BufTy).Contents (Elt F)) (a2 : (⟨S128x1x256x256, .f32⟩ : BufTy).Contents (Elt F)) :
    (⟨S128x4, .f32⟩ : BufTy).Contents (Elt F) :=
  Host.divf
    (addf (inter a0 a2) (broadcastInDim S128x4 ![] bcast_S_S128x4 (constant S_ .f32 0x38D1B717#32)))
    (addf
      (subf
        (addf (Host.reduceAdd (hard a0) (constant S_ .f32 0x00000000#32) reducesTo_S128x4x65536_S128x4_d2 h_S_) (tsumBK a2))
        (inter a0 a2))
      (broadcastInDim S128x4 ![] bcast_S_S128x4 (constant S_ .f32 0x38D1B717#32)))

def iouDiff (a0 : (⟨S128x4x256x256, .f32⟩ : BufTy).Contents (Elt F)) (a1 : (⟨S128x4, .f32⟩ : BufTy).Contents (Elt F))
    (a2 : (⟨S128x1x256x256, .f32⟩ : BufTy).Contents (Elt F)) : (⟨S128x4, .f32⟩ : BufTy).Contents (Elt F) :=
  subf a1 (iouTrue a0 a2)

def iouBK (a0 : (⟨S128x4x256x256, .f32⟩ : BufTy).Contents (Elt F)) (a1 : (⟨S128x4, .f32⟩ : BufTy).Contents (Elt F))
    (a2 : (⟨S128x1x256x256, .f32⟩ : BufTy).Contents (Elt F)) : (⟨S128x4, .f32⟩ : BufTy).Contents (Elt F) :=
  mulf (iouDiff a0 a1 a2) (iouDiff a0 a1 a2)

end Cert.ReferenceIdeal.RefTerms

end
-- ==== Proof.RefTail.lean ====
import proofs.«119910_j28707561407033_1_alg».proof.ReferenceIdeal

noncomputable section

namespace Cert.ReferenceIdeal.RefTail

open Cert.ReferenceIdeal Idealize.ShloMosaic Idealize.SL.Sem
open Cert.ReferenceIdeal.Facts₀

variable {F : FTy → Type} [FloatOps F] [Facts]

def loTab : (⟨S4, .f32⟩ : BufTy).Contents (Elt F) := fun i => FloatOps.ofBits .f32 (lit0 (S4.rowMajor i))

def hiTab : (⟨S4, .f32⟩ : BufTy).Contents (Elt F) := fun i => FloatOps.ofBits .f32 (lit1 (S4.rowMajor i))

def zero128 : (⟨S128, .f32⟩ : BufTy).Contents (Elt F) := broadcastInDim S128 ![] bcast_S_S128 (constant S_ .f32 0x00000000#32)

def ratioOf (ts : (⟨S128, .f32⟩ : BufTy).Contents (Elt F)) : (⟨S128, .f32⟩ : BufTy).Contents (Elt F) :=
  Host.divf ts (broadcastInDim S128 ![] bcast_S_S128 (constant S_ .f32 0x47800000#32))

def ratioBK (ts : (⟨S128, .f32⟩ : BufTy).Contents (Elt F)) : (⟨S128x4, .f32⟩ : BufTy).Contents (Elt F) :=
  broadcastInDim S128x4 ![0, 1] bcast_S128x1_S128x4_0_1 (broadcastInDim S128x1 ![0] bcast_S128_S128x1_0 (ratioOf ts))

def tabBK (tab : (⟨S4, .f32⟩ : BufTy).Contents (Elt F)) : (⟨S128x4, .f32⟩ : BufTy).Contents (Elt F) :=
  broadcastInDim S128x4 ![0, 1] bcast_S1x4_S128x4_0_1 (broadcastInDim S1x4 ![1] bcast_S4_S1x4_1 tab)

def validOf (lo hi : (⟨S4, .f32⟩ : BufTy).Contents (Elt F)) (ts : (⟨S128, .f32⟩ : BufTy).Contents (Elt F)) : (⟨S128x4, .f32⟩ : BufTy).Contents (Elt F) :=
  uitofp .f32 (andi (cmpf .ogt (ratioBK ts) (tabBK lo)) (cmpf .olt (ratioBK ts) (tabBK hi)))

def valid (ts : (⟨S128, .f32⟩ : BufTy).Contents (Elt F)) : (⟨S128x4, .f32⟩ : BufTy).Contents (Elt F) := validOf loTab hiTab ts

def cnt (v : (⟨S128x4, .f32⟩ : BufTy).Contents (Elt F)) : (⟨S128, .f32⟩ : BufTy).Contents (Elt F) :=
  Host.reduceAdd v (constant S_ .f32 0x00000000#32) reducesTo_S128x4_S128_d1 h_S_

def msum (loss v : (⟨S128x4, .f32⟩ : BufTy).Contents (Elt F)) : (⟨S128, .f32⟩ : BufTy).Contents (Elt F) :=
  Host.reduceAdd (mulf loss v) (constant S_ .f32 0x00000000#32) reducesTo_S128x4_S128_d1 h_S_

def mean (loss v : (⟨S128x4, .f32⟩ : BufTy).Contents (Elt F)) : (⟨S128, .f32⟩ : BufTy).Contents (Elt F) :=
  Host.divf (msum loss v) (maximumf (cnt v) (broadcastInDim S128 ![] bcast_S_S128 (constant S_ .f32 0x3F800000#32)))

def perSample (loss v : (⟨S128x4, .f32⟩ : BufTy).Contents (Elt F)) : (⟨S128, .f32⟩ : BufTy).Contents (Elt F) :=
  select (cmpf .ogt (cnt v) zero128) (mean loss v) zero128

def nValid (v : (⟨S128x4, .f32⟩ : BufTy).Contents (Elt F)) : (⟨S_, .f32⟩ : BufTy).Contents (Elt F) :=
  Host.reduceAdd (uitofp .f32 (cmpf .ogt (cnt v) zero128)) (constant S_ .f32 0x00000000#32) reducesTo_S128_S_d0 h_S_

def total (loss v : (⟨S128x4, .f32⟩ : BufTy).Contents (Elt F)) : (⟨S_, .f32⟩ : BufTy).Contents (Elt F) :=
  Host.reduceAdd (perSample loss v) (constant S_ .f32 0x00000000#32) reducesTo_S128_S_d0 h_S_

def agg (loss v : (⟨S128x4, .f32⟩ : BufTy).Contents (Elt F)) : (⟨S_, .f32⟩ : BufTy).Contents (Elt F) :=
  select (cmpf .ogt (nValid v) (constant S_ .f32 0x00000000#32))
    (Host.divf (total loss v) (maximumf (nValid v) (constant S_ .f32 0x3F800000#32)))
    (total loss v)

def outOf (w : BitVec 32) (lo hi : (⟨S4, .f32⟩ : BufTy).Contents (Elt F)) (loss : (⟨S128x4, .f32⟩ : BufTy).Contents (Elt F)) (ts : (⟨S128, .f32⟩ : BufTy).Contents (Elt F)) : (⟨S_, .f32⟩ : BufTy).Contents (Elt F) :=
  mulf (constant S_ .f32 w) (agg loss (validOf lo hi ts))

end Cert.ReferenceIdeal.RefTail

end
-- ==== Proof.RefVal0.lean ====
import proofs.«119910_j28707561407033_1_alg».proof.Proof.RefRun
import proofs.«119910_j28707561407033_1_alg».proof.Proof.RefTerms
import proofs.«119910_j28707561407033_1_alg».proof.Proof.RefTail

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem val1_main_arg1 (V : Valuation τ sig (Elt F)) :
    val1 V (no_index (Proc.devRef .tc main_arg1)) = V (main_arg1 : DevRef τ sig) :=
  val1_keep V main_arg1 (by decide)

set_option maxRecDepth 8192 in
set_option maxHeartbeats 2000000 in
theorem val1_main_v0 (V : Valuation τ sig (Elt F)) :
    val1 V (no_index (Proc.devRef .tc main_v0)) = RefTerms.x3 (V (main_arg0 : DevRef τ sig)) := by
  unfold val1
  simp only [ops0]
  after_results_simp
  all_goals rfl

set_option maxRecDepth 8192 in
set_option maxHeartbeats 2000000 in
theorem val1_main_v1 (V : Valuation τ sig (Elt F)) :
    val1 V (no_index (Proc.devRef .tc main_v1)) = RefTerms.t2 (V (main_arg2 : DevRef τ sig)) := by
  unfold val1
  simp only [ops0]
  after_results_simp
  all_goals rfl

set_option maxRecDepth 8192 in
set_option maxHeartbeats 2000000 in
theorem val1_main_v17 (V : Valuation τ sig (Elt F)) :
    val1 V (no_index (Proc.devRef .tc main_v17)) = broadcastInDim S128x1x65536 ![0, 2] bcast_S128x65536_S128x1x65536_0_2 (RefTerms.t2 (V (main_arg2 : DevRef τ sig))) := by
  unfold val1
  simp only [ops0]
  after_results_simp
  all_goals rfl

set_option maxRecDepth 8192 in
set_option maxHeartbeats 2000000 in
theorem val1_main_v16 (V : Valuation τ sig (Elt F)) :
    val1 V (no_index (Proc.devRef .tc main_v16)) = RefTail.valid (RefTerms.tsum (V (main_arg2 : DevRef τ sig))) := by
  unfold val1
  simp only [ops0]
  after_results_simp
  all_goals rfl

set_option maxRecDepth 8192 in
set_option maxHeartbeats 2000000 in
theorem val1_main_v39 (V : Valuation τ sig (Elt F)) :
    val1 V (no_index (Proc.devRef .tc main_v39)) = RefTerms.focalBK (V (main_arg0 : DevRef τ sig)) (V (main_arg2 : DevRef τ sig)) := by
  unfold val1
  simp only [ops0]
  after_results_simp
  all_goals rfl

set_option maxRecDepth 8192 in
set_option maxHeartbeats 2000000 in
theorem val1_main_v40 (V : Valuation τ sig (Elt F)) :
    val1 V (no_index (Proc.devRef .tc main_v40)) = RefTail.cnt (RefTail.valid (RefTerms.tsum (V (main_arg2 : DevRef τ sig)))) := by
  unfold val1
  simp only [ops0]
  after_results_simp
  all_goals rfl

set_option maxRecDepth 8192 in
set_option maxHeartbeats 2000000 in
theorem val1_main_v45 (V : Valuation τ sig (Elt F)) :
    val1 V (no_index (Proc.devRef .tc main_v45)) = RefTail.mean (RefTerms.focalBK (V (main_arg0 : DevRef τ sig)) (V (main_arg2 : DevRef τ sig))) (RefTail.valid (RefTerms.tsum (V (main_arg2 : DevRef τ sig)))) := by
  unfold val1
  simp only [ops0]
  after_results_simp
  all_goals rfl

set_option maxRecDepth 8192 in
set_option maxHeartbeats 2000000 in
theorem val1_main_cst_12 (V : Valuation τ sig (Elt F)) :
    val1 V (no_index (Proc.devRef .tc main_cst_12)) = constant S_ .f32 0x00000000#32 := by
  unfold val1
  simp only [ops0]
  after_results_simp
  all_goals rfl

end Cert.ReferenceIdeal.RefRun

end
-- ==== Proof.RefVal1.lean ====
import proofs.«119910_j28707561407033_1_alg».proof.Proof.RefVal0

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem val2_main_v0 (V : Valuation τ sig (Elt F)) :
    val2 V (no_index (Proc.devRef .tc main_v0)) = RefTerms.x3 (V (main_arg0 : DevRef τ sig)) :=
  (val2_keep V main_v0 (by decide)).trans (val1_main_v0 V)

theorem val2_main_v1 (V : Valuation τ sig (Elt F)) :
    val2 V (no_index (Proc.devRef .tc main_v1)) = RefTerms.t2 (V (main_arg2 : DevRef τ sig)) :=
  (val2_keep V main_v1 (by decide)).trans (val1_main_v1 V)

theorem val2_main_v17 (V : Valuation τ sig (Elt F)) :
    val2 V (no_index (Proc.devRef .tc main_v17)) = broadcastInDim S128x1x65536 ![0, 2] bcast_S128x65536_S128x1x65536_0_2 (RefTerms.t2 (V (main_arg2 : DevRef τ sig))) :=
  (val2_keep V main_v17 (by decide)).trans (val1_main_v17 V)

theorem val2_main_v16 (V : Valuation τ sig (Elt F)) :
    val2 V (no_index (Proc.devRef .tc main_v16)) = RefTail.valid (RefTerms.tsum (V (main_arg2 : DevRef τ sig))) :=
  (val2_keep V main_v16 (by decide)).trans (val1_main_v16 V)

theorem val2_main_arg1 (V : Valuation τ sig (Elt F)) :
    val2 V (no_index (Proc.devRef .tc main_arg1)) = V (main_arg1 : DevRef τ sig) :=
  (val2_keep V main_arg1 (by decide)).trans (val1_main_arg1 V)

set_option maxRecDepth 8192 in
set_option maxHeartbeats 2000000 in
theorem val2_main_v58 (V : Valuation τ sig (Elt F)) :
    val2 V (no_index (Proc.devRef .tc main_v58)) = mulf (constant S_ .f32 0x41A00000#32) (RefTail.agg (RefTerms.focalBK (V (main_arg0 : DevRef τ sig)) (V (main_arg2 : DevRef τ sig))) (RefTail.valid (RefTerms.tsum (V (main_arg2 : DevRef τ sig))))) := by
  unfold val2
  simp only [ops1]
  after_results_simp
  all_goals (try simp only [val1_main_v45, val1_main_cst_12, val1_main_v40])
  all_goals rfl

set_option maxRecDepth 8192 in
set_option maxHeartbeats 2000000 in
theorem val2_main_v83 (V : Valuation τ sig (Elt F)) :
    val2 V (no_index (Proc.devRef .tc main_v83)) = RefTail.cnt (RefTail.valid (RefTerms.tsum (V (main_arg2 : DevRef τ sig)))) := by
  unfold val2
  simp only [ops1]
  after_results_simp
  all_goals (try simp only [val1_main_v16])
  all_goals rfl

set_option maxRecDepth 8192 in
set_option maxHeartbeats 2000000 in
theorem val2_main_v85 (V : Valuation τ sig (Elt F)) :
    val2 V (no_index (Proc.devRef .tc main_v85)) = RefTail.msum (RefTerms.diceBK (V (main_arg0 : DevRef τ sig)) (V (main_arg2 : DevRef τ sig))) (RefTail.valid (RefTerms.tsum (V (main_arg2 : DevRef τ sig)))) := by
  unfold val2
  simp only [ops1]
  after_results_simp
  all_goals (try simp only [val1_main_v16, val1_main_v1, val1_main_v0, val1_main_v17])
  all_goals rfl

end Cert.ReferenceIdeal.RefRun

end
-- ==== Proof.RefVal2.lean ====
import proofs.«119910_j28707561407033_1_alg».proof.Proof.RefVal1

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem val3_main_v58 (V : Valuation τ sig (Elt F)) :
    val3 V (no_index (Proc.devRef .tc main_v58)) = mulf (constant S_ .f32 0x41A00000#32) (RefTail.agg (RefTerms.focalBK (V (main_arg0 : DevRef τ sig)) (V (main_arg2 : DevRef τ sig))) (RefTail.valid (RefTerms.tsum (V (main_arg2 : DevRef τ sig))))) :=
  (val3_keep V main_v58 (by decide)).trans (val2_main_v58 V)

set_option maxRecDepth 8192 in
set_option maxHeartbeats 2000000 in
theorem val3_main_v101 (V : Valuation τ sig (Elt F)) :
    val3 V (no_index (Proc.devRef .tc main_v101)) = mulf (constant S_ .f32 0x3F800000#32) (RefTail.agg (RefTerms.diceBK (V (main_arg0 : DevRef τ sig)) (V (main_arg2 : DevRef τ sig))) (RefTail.valid (RefTerms.tsum (V (main_arg2 : DevRef τ sig))))) := by
  unfold val3
  simp only [ops2]
  after_results_simp
  all_goals (try simp only [val2_main_v83, val2_main_v85])
  all_goals rfl

set_option maxRecDepth 8192 in
set_option maxHeartbeats 2000000 in
theorem val3_main_v121 (V : Valuation τ sig (Elt F)) :
    val3 V (no_index (Proc.devRef .tc main_v121)) = RefTail.cnt (RefTail.valid (RefTerms.tsum (V (main_arg2 : DevRef τ sig)))) := by
  unfold val3
  simp only [ops2]
  after_results_simp
  all_goals (try simp only [val2_main_v16])
  all_goals rfl

set_option maxRecDepth 8192 in
set_option maxHeartbeats 2000000 in
theorem val3_main_v126 (V : Valuation τ sig (Elt F)) :
    val3 V (no_index (Proc.devRef .tc main_v126)) = RefTail.mean (RefTerms.iouBK (V (main_arg0 : DevRef τ sig)) (V (main_arg1 : DevRef τ sig)) (V (main_arg2 : DevRef τ sig))) (RefTail.valid (RefTerms.tsum (V (main_arg2 : DevRef τ sig)))) := by
  unfold val3
  simp only [ops2]
  after_results_simp
  all_goals (try simp only [val2_main_v16, val2_main_v17, val2_main_v0, val2_main_v1, val2_main_arg1])
  all_goals rfl

set_option maxRecDepth 8192 in
set_option maxHeartbeats 2000000 in
theorem val3_main_cst_51 (V : Valuation τ sig (Elt F)) :
    val3 V (no_index (Proc.devRef .tc main_cst_51)) = constant S_ .f32 0x00000000#32 := by
  unfold val3
  simp only [ops2]
  after_results_simp
  all_goals rfl

end Cert.ReferenceIdeal.RefRun

end
-- ==== Proof.RefVal3.lean ====
import proofs.«119910_j28707561407033_1_alg».proof.Proof.RefVal2

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem val4_main_v58 (V : Valuation τ sig (Elt F)) :
    val4 V (no_index (Proc.devRef .tc main_v58)) = mulf (constant S_ .f32 0x41A00000#32) (RefTail.agg (RefTerms.focalBK (V (main_arg0 : DevRef τ sig)) (V (main_arg2 : DevRef τ sig))) (RefTail.valid (RefTerms.tsum (V (main_arg2 : DevRef τ sig))))) :=
  (val4_keep V main_v58 (by decide)).trans (val3_main_v58 V)

theorem val4_main_v101 (V : Valuation τ sig (Elt F)) :
    val4 V (no_index (Proc.devRef .tc main_v101)) = mulf (constant S_ .f32 0x3F800000#32) (RefTail.agg (RefTerms.diceBK (V (main_arg0 : DevRef τ sig)) (V (main_arg2 : DevRef τ sig))) (RefTail.valid (RefTerms.tsum (V (main_arg2 : DevRef τ sig))))) :=
  (val4_keep V main_v101 (by decide)).trans (val3_main_v101 V)

set_option maxRecDepth 8192 in
set_option maxHeartbeats 2000000 in
theorem val4_main_v139 (V : Valuation τ sig (Elt F)) :
    val4 V (no_index (Proc.devRef .tc main_v139)) = mulf (constant S_ .f32 0x3F800000#32) (RefTail.agg (RefTerms.iouBK (V (main_arg0 : DevRef τ sig)) (V (main_arg1 : DevRef τ sig)) (V (main_arg2 : DevRef τ sig))) (RefTail.valid (RefTerms.tsum (V (main_arg2 : DevRef τ sig))))) := by
  unfold val4
  simp only [ops3]
  after_results_simp
  all_goals (try simp only [val3_main_v126, val3_main_cst_51, val3_main_v121])
  all_goals rfl

end Cert.ReferenceIdeal.RefRun

end
-- ==== Proof.RefOut.lean ====
import proofs.«119910_j28707561407033_1_alg».proof.Proof.RefVal3
import proofs.«119910_j28707561407033_1_alg».proof.Proof.Tail

noncomputable section

namespace Cert.ReferenceIdeal.RefOut

open Cert.ReferenceIdeal Cert.ReferenceIdeal.Gen Idealize.ShloMosaic Idealize.ShloMosaic.TcCoe Idealize.SL.Sem Idealize.ShloMosaic.StableHlo

section Generic

variable {F : FTy → Type} [FloatOps F]

theorem out0_gen (V : Valuation τ sig (Elt F)) :
    StableHlo.after RefRun.ops V (main_v58 : DevRef τ sig)
      = mulf (constant S_ .f32 0x41A00000#32) (RefTail.agg (RefTerms.focalBK (V (main_arg0 : DevRef τ sig)) (V (main_arg2 : DevRef τ sig))) (RefTail.valid (RefTerms.tsum (V (main_arg2 : DevRef τ sig))))) := by
  rw [RefRun.after_ops]; exact RefRun.val4_main_v58 V

theorem out1_gen (V : Valuation τ sig (Elt F)) :
    StableHlo.after RefRun.ops V (main_v101 : DevRef τ sig)
      = mulf (constant S_ .f32 0x3F800000#32) (RefTail.agg (RefTerms.diceBK (V (main_arg0 : DevRef τ sig)) (V (main_arg2 : DevRef τ sig))) (RefTail.valid (RefTerms.tsum (V (main_arg2 : DevRef τ sig))))) := by
  rw [RefRun.after_ops]; exact RefRun.val4_main_v101 V

theorem out2_gen (V : Valuation τ sig (Elt F)) :
    StableHlo.after RefRun.ops V (main_v139 : DevRef τ sig)
      = mulf (constant S_ .f32 0x3F800000#32) (RefTail.agg (RefTerms.iouBK (V (main_arg0 : DevRef τ sig)) (V (main_arg1 : DevRef τ sig)) (V (main_arg2 : DevRef τ sig))) (RefTail.valid (RefTerms.tsum (V (main_arg2 : DevRef τ sig))))) := by
  rw [RefRun.after_ops]; exact RefRun.val4_main_v139 V

end Generic

set_option maxRecDepth 8192 in
theorem out0_eq [Cert.KernelIdeal.Facts₀] (V : Valuation τ sig (Elt Ideal)) :
    StableHlo.after RefRun.ops V (main_v58 : DevRef τ sig)
      = Cert.Tail.out0 (RefTerms.focalBK (V (main_arg0 : DevRef τ sig)) (V (main_arg2 : DevRef τ sig))) (RefTerms.tsum (V (main_arg2 : DevRef τ sig))) :=
  (out0_gen V).trans rfl

set_option maxRecDepth 8192 in
theorem out1_eq [Cert.KernelIdeal.Facts₀] (V : Valuation τ sig (Elt Ideal)) :
    StableHlo.after RefRun.ops V (main_v101 : DevRef τ sig)
      = Cert.Tail.out1 (RefTerms.diceBK (V (main_arg0 : DevRef τ sig)) (V (main_arg2 : DevRef τ sig))) (RefTerms.tsum (V (main_arg2 : DevRef τ sig))) :=
  (out1_gen V).trans rfl

set_option maxRecDepth 8192 in
theorem out2_eq [Cert.KernelIdeal.Facts₀] (V : Valuation τ sig (Elt Ideal)) :
    StableHlo.after RefRun.ops V (main_v139 : DevRef τ sig)
      = Cert.Tail.out2 (RefTerms.iouBK (V (main_arg0 : DevRef τ sig)) (V (main_arg1 : DevRef τ sig)) (V (main_arg2 : DevRef τ sig))) (RefTerms.tsum (V (main_arg2 : DevRef τ sig))) :=
  (out2_gen V).trans rfl

end Cert.ReferenceIdeal.RefOut

end
-- ==== Proof.RefRead.lean ====
import proofs.«119910_j28707561407033_1_alg».proof.Proof.RefTerms
import proofs.«119910_j28707561407033_1_alg».proof.Proof.Spec
import proofs.«119910_j28707561407033_1_alg».proof.Proof.LibFocalLaws
import proofs.«119910_j28707561407033_1_alg».proof.Proof.LibSumTiles
import Idealize.ShloMosaic.Lib.IdealHost
import Idealize.ShloMosaic.Lib.Pipeline.Value

noncomputable section

open scoped BigOperators

namespace Cert.ReferenceIdeal.RefRead

open Cert.ReferenceIdeal Idealize.ShloMosaic Idealize.ShloMosaic.ValueIdx Idealize.SL.Sem
open Cert.ReferenceIdeal.Facts₀ Cert.LibFocalLaws

variable [Facts]

abbrev V3 := FVec Ideal S128x4x65536 .f32
abbrev V2 := FVec Ideal S128x65536 .f32

abbrev rowOf (j : Fin 65536) : Fin 256 := ⟨j.val / 256, by omega⟩

abbrev colOf (j : Fin 65536) : Fin 256 := ⟨j.val % 256, by omega⟩

theorem x3_apply (a0 : Cert.Spec.A0) (b : Fin 128) (k : Fin 4) (j : Fin 65536) :
    RefTerms.x3 (F := Ideal) a0 (ix3 b k j) = a0 (ix4 b k (rowOf j) (colOf j)) := by
  unfold RefTerms.x3
  refine shapeCast_apply a0 _ _ _ ?_
  rw [Shape.rowMajor_val_four, Shape.rowMajor_val_three]
  show ((b.val * 4 + k.val) * 256 + j.val / 256) * 256 + j.val % 256 = (b.val * 4 + k.val) * 65536 + j.val
  omega

theorem t2_apply (a2 : Cert.Spec.A2) (b : Fin 128) (j : Fin 65536) :
    RefTerms.t2 (F := Ideal) a2 (ix2 b j) = a2 (ix4 b (0 : Fin 1) (rowOf j) (colOf j)) := by
  unfold RefTerms.t2
  refine shapeCast_apply a2 _ _ _ ?_
  rw [Shape.rowMajor_val_four, Shape.rowMajor_val_two]
  show ((b.val * 1 + 0) * 256 + j.val / 256) * 256 + j.val % 256 = b.val * 65536 + j.val
  omega

theorem t3_apply (a2 : Cert.Spec.A2) (b : Fin 128) (k : Fin 4) (j : Fin 65536) :
    RefTerms.t3 (F := Ideal) a2 (ix3 b k j) = a2 (ix4 b (0 : Fin 1) (rowOf j) (colOf j)) := by
  unfold RefTerms.t3
  refine (broadcastInDim_apply _ _ _ (ix3 b k j) (ix3 b (0 : Fin 1) j) fun a => ?_).trans ?_
  · match a with
    | ⟨0, _⟩ => rfl
    | ⟨1, _⟩ => rfl
    | ⟨2, _⟩ => rfl
  refine (broadcastInDim_apply _ _ _ (ix3 b (0 : Fin 1) j) (ix2 b j) fun a => ?_).trans ?_
  · match a with
    | ⟨0, _⟩ => rfl
    | ⟨1, _⟩ => rfl
  exact t2_apply a2 b j

theorem reduce3_apply (x : V3) (b : Fin 128) (k : Fin 4) :
    Host.reduceAdd (F := Ideal) x (constant S_ .f32 0x00000000#32) reducesTo_S128x4x65536_S128x4_d2 h_S_ (ix2 b k)
      = ∑ j : Fin 65536, x (ix3 b k j) := by
  have h : S128x4x65536.Reduces [2] S128x4 := by decide
  show Ideal.hostReduceAdd _ x (Ideal.ofBits .f32 0x00000000#32) (ix2 b k) = _
  rw [Ideal.hostReduceAdd_single _ h, Ideal.ofBits_zero_f32, zero_add]
  refine Finset.sum_congr rfl fun j _ => congrArg x ?_
  funext c
  match c with
  | ⟨0, _⟩ => rfl
  | ⟨1, _⟩ => rfl
  | ⟨2, _⟩ => rfl

theorem reduce2_apply (x : V2) (b : Fin 128) :
    Host.reduceAdd (F := Ideal) x (constant S_ .f32 0x00000000#32) reducesTo_S128x65536_S128_d1 h_S_ (ix1 b)
      = ∑ j : Fin 65536, x (ix2 b j) := by
  have h : S128x65536.Reduces [1] S128 := by decide
  show Ideal.hostReduceAdd _ x (Ideal.ofBits .f32 0x00000000#32) (ix1 b) = _
  rw [Ideal.hostReduceAdd_single _ h, Ideal.ofBits_zero_f32, zero_add]
  refine Finset.sum_congr rfl fun j _ => congrArg x ?_
  funext c
  match c with
  | ⟨0, _⟩ => rfl
  | ⟨1, _⟩ => rfl

theorem reduce3_pixSum (g : Ideal .f32 → Ideal .f32 → Ideal .f32) (a0 : Cert.Spec.A0) (a2 : Cert.Spec.A2) (x : V3)
    (b : Fin 128) (k : Fin 4)
    (hx : ∀ j : Fin 65536,
      x (ix3 b k j) = g (a0 (ix4 b k (rowOf j) (colOf j))) (a2 (ix4 b (0 : Fin 1) (rowOf j) (colOf j)))) :
    Host.reduceAdd (F := Ideal) x (constant S_ .f32 0x00000000#32) reducesTo_S128x4x65536_S128x4_d2 h_S_ (ix2 b k)
      = Cert.Spec.pixSum g a0 a2 b k := by
  rw [reduce3_apply]
  unfold Cert.Spec.pixSum
  rw [← Cert.LibSumTiles.sum_flat (fun r w => g (a0 (ix4 b k r w)) (a2 (ix4 b (0 : Fin 1) r w)))]
  exact Finset.sum_congr rfl fun j _ => hx j

theorem tsum_apply (a2 : Cert.Spec.A2) (b : Fin 128) : RefTerms.tsum (F := Ideal) a2 (ix1 b) = Cert.Spec.tSum a2 b := by
  unfold RefTerms.tsum
  rw [reduce2_apply]
  unfold Cert.Spec.tSum
  rw [← Cert.LibSumTiles.sum_flat (fun r w => a2 (ix4 b (0 : Fin 1) r w))]
  exact Finset.sum_congr rfl fun j _ => t2_apply a2 b j

theorem tsum_eq (a2 : Cert.Spec.A2) : RefTerms.tsum (F := Ideal) a2 = Cert.Spec.tsumS a2 := by
  funext j
  obtain ⟨b, rfl⟩ : ∃ b, j = ix1 b := ⟨j 0, eq_ix1 j⟩
  exact tsum_apply a2 b

theorem tsumBK_apply (a2 : Cert.Spec.A2) (b : Fin 128) (k : Fin 4) :
    RefTerms.tsumBK (F := Ideal) a2 (ix2 b k) = Cert.Spec.tSum a2 b := by
  unfold RefTerms.tsumBK
  refine (broadcastInDim_apply _ _ _ (ix2 b k) (ix2 b (0 : Fin 1)) fun a => ?_).trans ?_
  · match a with
    | ⟨0, _⟩ => rfl
    | ⟨1, _⟩ => rfl
  refine (broadcastInDim_apply _ _ _ (ix2 b (0 : Fin 1)) (ix1 b) fun a => ?_).trans ?_
  · match a with
    | ⟨0, _⟩ => rfl
  exact tsum_apply a2 b

theorem prob_apply (a0 : Cert.Spec.A0) (b : Fin 128) (k : Fin 4) (j : Fin 65536) :
    RefTerms.prob (F := Ideal) a0 (ix3 b k j) = Cert.Spec.probE (a0 (ix4 b k (rowOf j) (colOf j))) := by
  show FloatOps.minimumf (F := Ideal) (φ := .f32) Cert.Spec.hiLit (FloatOps.maximumf (F := Ideal) (φ := .f32) Cert.Spec.epsLit
    (FloatOps.hostDivf (F := Ideal) (φ := .f32) oneLit (FloatOps.addf (F := Ideal) (φ := .f32) oneLit
      (FloatOps.hostUnary (F := Ideal) .exp (φ := .f32) (FloatOps.hostNegf (F := Ideal) (φ := .f32) (RefTerms.x3 (F := Ideal) a0 (ix3 b k j))))))) = _
  rw [x3_apply, ← logistic_eq]
  rfl

theorem diceBK_eq (a0 : Cert.Spec.A0) (a2 : Cert.Spec.A2) : RefTerms.diceBK (F := Ideal) a0 a2 = Cert.Spec.diceS a0 a2 := by
  funext j
  obtain ⟨b, k, rfl⟩ : ∃ b k, j = ix2 b k := ⟨j 0, j 1, eq_ix2 j⟩
  have e1 := reduce3_pixSum (fun x t => FloatOps.mulf (F := Ideal) (φ := .f32) (Cert.Spec.probE x) t) a0 a2
    (mulf (RefTerms.prob (F := Ideal) a0) (RefTerms.t3 (F := Ideal) a2)) b k (fun j => by
      show RefTerms.prob (F := Ideal) a0 (ix3 b k j) * RefTerms.t3 (F := Ideal) a2 (ix3 b k j) = _
      rw [prob_apply, t3_apply]; rfl)
  have e2 := reduce3_pixSum (fun x _ => Cert.Spec.probE x) a0 a2 (RefTerms.prob (F := Ideal) a0) b k
    (fun j => prob_apply a0 b k j)
  have e3 := tsumBK_apply a2 b k
  show Cert.Spec.diceE
    (Host.reduceAdd (F := Ideal) (mulf (RefTerms.prob (F := Ideal) a0) (RefTerms.t3 (F := Ideal) a2))
      (constant S_ .f32 0x00000000#32) reducesTo_S128x4x65536_S128x4_d2 h_S_ (ix2 b k))
    (Host.reduceAdd (F := Ideal) (RefTerms.prob (F := Ideal) a0)
      (constant S_ .f32 0x00000000#32) reducesTo_S128x4x65536_S128x4_d2 h_S_ (ix2 b k))
    (RefTerms.tsumBK (F := Ideal) a2 (ix2 b k)) = _
  rw [e1, e2, e3]
  rfl

theorem hard_apply (a0 : Cert.Spec.A0) (b : Fin 128) (k : Fin 4) (j : Fin 65536) :
    RefTerms.hard (F := Ideal) a0 (ix3 b k j) = Cert.Spec.maskE (a0 (ix4 b k (rowOf j) (colOf j))) := by
  show FloatOps.uitofp (F := Ideal) .f32 (FloatOps.cmpf (F := Ideal) (φ := .f32) .oge (RefTerms.x3 (F := Ideal) a0 (ix3 b k j)) zeroLit) = _
  rw [x3_apply, ← mask_bit_eq]
  rfl

theorem iouBK_eq (a0 : Cert.Spec.A0) (a1 : Cert.Spec.A1) (a2 : Cert.Spec.A2) :
    RefTerms.iouBK (F := Ideal) a0 a1 a2 = Cert.Spec.iouS a0 a1 a2 := by
  funext j
  obtain ⟨b, k, rfl⟩ : ∃ b k, j = ix2 b k := ⟨j 0, j 1, eq_ix2 j⟩
  have e1 := reduce3_pixSum (fun x t => FloatOps.mulf (F := Ideal) (φ := .f32) (Cert.Spec.maskE x) t) a0 a2
    (mulf (RefTerms.hard (F := Ideal) a0) (RefTerms.t3 (F := Ideal) a2)) b k (fun j => by
      show RefTerms.hard (F := Ideal) a0 (ix3 b k j) * RefTerms.t3 (F := Ideal) a2 (ix3 b k j) = _
      rw [hard_apply, t3_apply]; rfl)
  have e2 := reduce3_pixSum (fun x _ => Cert.Spec.maskE x) a0 a2 (RefTerms.hard (F := Ideal) a0) b k
    (fun j => hard_apply a0 b k j)
  have e3 := tsumBK_apply a2 b k
  show Cert.Spec.iouE
    (Host.reduceAdd (F := Ideal) (mulf (RefTerms.hard (F := Ideal) a0) (RefTerms.t3 (F := Ideal) a2))
      (constant S_ .f32 0x00000000#32) reducesTo_S128x4x65536_S128x4_d2 h_S_ (ix2 b k))
    (Host.reduceAdd (F := Ideal) (RefTerms.hard (F := Ideal) a0)
      (constant S_ .f32 0x00000000#32) reducesTo_S128x4x65536_S128x4_d2 h_S_ (ix2 b k))
    (RefTerms.tsumBK (F := Ideal) a2 (ix2 b k)) (a1 (ix2 b k)) = _
  rw [e1, e2, e3]
  rfl

theorem focalElt_apply (a0 : Cert.Spec.A0) (a2 : Cert.Spec.A2) (b : Fin 128) (k : Fin 4) (j : Fin 65536) :
    RefTerms.focalElt (F := Ideal) a0 a2 (ix3 b k j)
      = focalR (a0 (ix4 b k (rowOf j) (colOf j))) (a2 (ix4 b (0 : Fin 1) (rowOf j) (colOf j))) := by
  show focalR (RefTerms.x3 (F := Ideal) a0 (ix3 b k j)) (RefTerms.t3 (F := Ideal) a2 (ix3 b k j)) = _
  rw [x3_apply, t3_apply]

theorem focalBK_eq (a0 : Cert.Spec.A0) (a2 : Cert.Spec.A2) (h0 : ∀ i, ∃ r : ℝ, a0 i = (r : EReal))
    (h2 : ∀ i, ∃ r : ℝ, a2 i = (r : EReal)) : RefTerms.focalBK (F := Ideal) a0 a2 = Cert.Spec.focalS a0 a2 := by
  funext j
  obtain ⟨b, k, rfl⟩ : ∃ b k, j = ix2 b k := ⟨j 0, j 1, eq_ix2 j⟩
  have e1 := reduce3_pixSum focalK a0 a2 (RefTerms.focalElt (F := Ideal) a0 a2) b k (fun j => by
    rw [focalElt_apply]
    obtain ⟨xr, hx⟩ := h0 (ix4 b k (rowOf j) (colOf j))
    obtain ⟨tr, ht⟩ := h2 (ix4 b (0 : Fin 1) (rowOf j) (colOf j))
    rw [hx, ht, focal_eq])
  show FloatOps.divf (F := Ideal) (φ := .f32)
    (Host.reduceAdd (F := Ideal) (RefTerms.focalElt (F := Ideal) a0 a2)
      (constant S_ .f32 0x00000000#32) reducesTo_S128x4x65536_S128x4_d2 h_S_ (ix2 b k)) Cert.Spec.hwLit = _
  rw [e1]
  rfl

end Cert.ReferenceIdeal.RefRead

end
-- ==== Proof.ROut.lean ====
import proofs.«119910_j28707561407033_1_alg».proof.Proof.RefRun
import proofs.«119910_j28707561407033_1_alg».proof.Proof.RefOut
import proofs.«119910_j28707561407033_1_alg».proof.Proof.RefRead

noncomputable section

namespace Cert.ReferenceIdeal.ROut

open Cert.ReferenceIdeal Cert.ReferenceIdeal.Gen Idealize.ShloMosaic Idealize.ShloMosaic.TcCoe Idealize.SL.Sem

abbrev X (m : (ℓ : Loc nD τ sig) → Buf (Elt Ideal) ℓ) (c : Dev nD) : Cert.Spec.A0 := m ((c.tc : Thread nD τ).loc main_arg0)

abbrev Q (m : (ℓ : Loc nD τ sig) → Buf (Elt Ideal) ℓ) (c : Dev nD) : Cert.Spec.A1 := m ((c.tc : Thread nD τ).loc main_arg1)

abbrev T (m : (ℓ : Loc nD τ sig) → Buf (Elt Ideal) ℓ) (c : Dev nD) : Cert.Spec.A2 := m ((c.tc : Thread nD τ).loc main_arg2)

theorem run_out [Cert.KernelIdeal.Facts₀] (m : (ℓ : Loc nD τ sig) → Buf (Elt Ideal) ℓ) (ρ : Dev nD → PrngReg)
    (h0 : ∀ c i, ∃ r : ℝ, X m c i = (r : EReal)) (h2 : ∀ c i, ∃ r : ℝ, T m c i = (r : EReal)) :
    θ_run (defs (F := Ideal)) (onTc (τ := τ) (main (F := Ideal))) ⟨m, fun _ => 0, ρ⟩ fun r => ∀ c : Dev nD,
      r.2.mem ((c.tc : Thread nD τ).loc main_v58) = Cert.Tail.out0 (Cert.Spec.focalS (X m c) (T m c)) (Cert.Spec.tsumS (T m c))
      ∧ r.2.mem ((c.tc : Thread nD τ).loc main_v101) = Cert.Tail.out1 (Cert.Spec.diceS (X m c) (T m c)) (Cert.Spec.tsumS (T m c))
      ∧ r.2.mem ((c.tc : Thread nD τ).loc main_v139) = Cert.Tail.out2 (Cert.Spec.iouS (X m c) (Q m c) (T m c)) (Cert.Spec.tsumS (T m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run (defs (F := Ideal)) _ _).mono (fun r h c =>
    ⟨(h c main_v58).trans ((RefOut.out0_eq _).trans
        (congrArg₂ Cert.Tail.out0 (RefRead.focalBK_eq (X m c) (T m c) (h0 c) (h2 c)) (RefRead.tsum_eq (T m c)))),
      (h c main_v101).trans ((RefOut.out1_eq _).trans
        (congrArg₂ Cert.Tail.out1 (RefRead.diceBK_eq (X m c) (T m c)) (RefRead.tsum_eq (T m c)))),
      (h c main_v139).trans ((RefOut.out2_eq _).trans
        (congrArg₂ Cert.Tail.out2 (RefRead.iouBK_eq (X m c) (Q m c) (T m c)) (RefRead.tsum_eq (T m c)))),
      (h c main_arg0).trans (RefRun.arg0_eq _), (h c main_arg1).trans (RefRun.arg1_eq _),
      (h c main_arg2).trans (RefRun.arg2_eq _)⟩)
    (RefRun.run_main (F := Ideal) m ρ)

theorem frame (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run (defs (F := Ideal)) _ _).mono (fun r h c =>
    ⟨(h c main_arg0).trans (RefRun.arg0_eq _), (h c main_arg1).trans (RefRun.arg1_eq _),
      (h c main_arg2).trans (RefRun.arg2_eq _)⟩)
    (RefRun.run_main (F := Ideal) m ρ)

end Cert.ReferenceIdeal.ROut

end
-- ==== Proof.PreFinite.lean ====
import proofs.«119910_j28707561407033_1_alg».proof.Pre_finite_inputs
import Idealize.ShloMosaic.Lib.ReduceAll
import Idealize.ShloMosaic.Lib.IdealHost

noncomputable section

namespace Cert.PreFinite

open Idealize.ShloMosaic Cert.Pre_finite_inputs

instance subsingleton_scalar_idx : Subsingleton S_.Idx := ⟨fun _ _ => funext fun d => d.elim0⟩

theorem ofBits_inf : Ideal.ofBits .f32 0x7F800000#32 = ⊤ := by simp [Ideal.ofBits, Ideal.ieee]

theorem real_of_abs_lt_inf (x : Ideal .f32)
    (h : FloatOps.cmpf .olt (FloatOps.hostAbsf x) (FloatOps.ofBits (F := Ideal) .f32 0x7F800000#32) = 1#1) :
    ∃ r : ℝ, x = (r : EReal) := by
  change Ideal.cmp .olt (max x (-x)) (Ideal.ofBits .f32 0x7F800000#32) = 1#1 at h
  rw [ofBits_inf] at h
  induction x using EReal.rec with
  | bot => simp [Ideal.cmp] at h
  | top => simp [Ideal.cmp] at h
  | coe r => exact ⟨r, rfl⟩

theorem finite_of_pre [Cert.Pre_finite_inputs.Facts] (a0 : FVec Ideal S128x4x256x256 .f32)
    (a1 : FVec Ideal S128x4 .f32) (a2 : FVec Ideal S128x1x256x256 .f32)
    (h : Cert.Pre_finite_inputs.fn (F := Ideal) a0 a1 a2 = fun _ => 1#1) :
    (∀ i, ∃ r : ℝ, a0 i = (r : EReal)) ∧ (∀ i, ∃ r : ℝ, a1 i = (r : EReal))
      ∧ (∀ i, ∃ r : ℝ, a2 i = (r : EReal)) := by
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  exact ⟨fun i => real_of_abs_lt_inf _ (Host.reduce_andi_all _ _ _ _ _ h0' i),
    fun i => real_of_abs_lt_inf _ (Host.reduce_andi_all _ _ _ _ _ h1 i),
    fun i => real_of_abs_lt_inf _ (Host.reduce_andi_all _ _ _ _ _ h2 i)⟩

end Cert.PreFinite
-- ==== Proof.lean ====
import proofs.«119910_j28707561407033_1_alg».proof.Defs
import proofs.«119910_j28707561407033_1_alg».proof.Proof.Gen.Kernel
import proofs.«119910_j28707561407033_1_alg».proof.Proof.Gen.KernelIdeal
import proofs.«119910_j28707561407033_1_alg».proof.Proof.Gen.ReferenceIdeal
import proofs.«119910_j28707561407033_1_alg».proof.Proof.Gen.Pre_finite_inputs
import proofs.«119910_j28707561407033_1_alg».proof.Proof.K.Frame
import proofs.«119910_j28707561407033_1_alg».proof.Proof.KI.Out
import proofs.«119910_j28707561407033_1_alg».proof.Proof.ROut
import proofs.«119910_j28707561407033_1_alg».proof.Proof.PreFinite

noncomputable section

namespace Cert.Proof

open Idealize.ShloMosaic Idealize.SL.Sem

/-- The word-level program runs to the end and keeps its arguments. -/
theorem frame_k : Cert.frame_Kernel := fun m ρ _ => Cert.Kernel.Fr.frame (F := Bits) m ρ

/-- So does the idealized program. -/
theorem frame_ki : Cert.frame_KernelIdeal := fun m ρ _ => Cert.KernelIdeal.Fr.frame (F := Ideal) m ρ

/-- And the reference, which writes no argument. -/
theorem frame_ri : Cert.frame_ReferenceIdeal := fun m ρ _ => Cert.ReferenceIdeal.ROut.frame m ρ

/-- The idealization rewrote nothing, so there is nothing to preserve. -/
theorem preserves : Cert.preserves_Kernel_KernelIdeal := trivial

/-- Both programs end at one term of the arguments; finiteness is needed where the reference squares by a power and the kernel by a product. -/
theorem algebraic : Cert.algebraic_KernelIdeal_ReferenceIdeal := by
  intro m ρ m' ρ' hpre hagree
  have hfin := fun c : Dev Cert.KernelIdeal.nD => Cert.PreFinite.finite_of_pre _ _ _ (hpre c)
  have hX : ∀ c, Cert.ReferenceIdeal.ROut.X m' c = Cert.KernelIdeal.KOut.X m c := fun c => (hagree c).1
  have hQ : ∀ c, Cert.ReferenceIdeal.ROut.Q m' c = Cert.KernelIdeal.KOut.Q m c := fun c => (hagree c).2.1
  have hT : ∀ c, Cert.ReferenceIdeal.ROut.T m' c = Cert.KernelIdeal.KOut.T m c := fun c => (hagree c).2.2
  have h0' : ∀ c i, ∃ r : ℝ, Cert.ReferenceIdeal.ROut.X m' c i = (r : EReal) := fun c i => by
    rw [hX c]; exact (hfin c).1 i
  have h2' : ∀ c i, ∃ r : ℝ, Cert.ReferenceIdeal.ROut.T m' c i = (r : EReal) := fun c i => by
    rw [hT c]; exact (hfin c).2.2 i
  refine ⟨fun c => Cert.Tail.out0 (Cert.Spec.focalS (Cert.KernelIdeal.KOut.X m c) (Cert.KernelIdeal.KOut.T m c))
        (Cert.Spec.tsumS (Cert.KernelIdeal.KOut.T m c)),
    fun c => Cert.Tail.out1 (Cert.Spec.diceS (Cert.KernelIdeal.KOut.X m c) (Cert.KernelIdeal.KOut.T m c))
        (Cert.Spec.tsumS (Cert.KernelIdeal.KOut.T m c)),
    fun c => Cert.Tail.out2
        (Cert.Spec.iouS (Cert.KernelIdeal.KOut.X m c) (Cert.KernelIdeal.KOut.Q m c) (Cert.KernelIdeal.KOut.T m c))
        (Cert.Spec.tsumS (Cert.KernelIdeal.KOut.T m c)),
    Cert.KernelIdeal.KOut.run_out m ρ, ?_⟩
  refine (θ_run Cert.ReferenceIdeal.defs _ _).mono (fun r h c => ?_) (Cert.ReferenceIdeal.ROut.run_out m' ρ' h0' h2')
  obtain ⟨e0, e1, e2, a0, a1, a2⟩ := h c
  refine ⟨e0.trans ?_, e1.trans ?_, e2.trans ?_, a0, a1, a2⟩
  · rw [hX c, hT c]
  · rw [hX c, hT c]
  · rw [hX c, hQ c, hT c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
